-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S256x256 : Shape := ⟨2, ![256, 256]⟩
abbrev S1024x256 : Shape := ⟨2, ![1024, 256]⟩
abbrev S4x256x256 : Shape := ⟨3, ![4, 256, 256]⟩
abbrev S4x2 : Shape := ⟨2, ![4, 2]⟩
abbrev S_ : Shape := ⟨0, ![]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .local _ .vmem, ⟨0, _⟩ => ⟨S256x256, .f32⟩
  | .local _ .vmem, ⟨1, _⟩ => ⟨S1024x256, .f32⟩
  | .local _ .vmem, ⟨2, _⟩ => ⟨S4x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v10 : BitVec 1 := Scalar.cmpi .sgt v5 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v34 : BitVec 32 := Scalar.muli v2 c16_i32_16
  let v35 : BitVec 32 := Scalar.addi c0_i32_17 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v33 : BitVec 32 := Scalar.subi v5 c1_i32_14
  let c4_i32_18 : BitVec 32 := 4#32
  let v36 : BitVec 32 := Scalar.muli v33 c4_i32_18
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v38 : BitVec 32 := Scalar.muli v8 c1_i32_19
  let v39 : BitVec 32 := Scalar.addi v37 v38
  v39.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let v14 : BitVec 32 := Scalar.extui v13
  let c0_i32_3 : BitVec 32 := 0#32
  let v15 : BitVec 1 := Scalar.cmpi .ne v14 c0_i32_3
  v15

def k0_dev2 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v34 : BitVec 32 := Scalar.muli v2 c16_i32_16
  let v35 : BitVec 32 := Scalar.addi c0_i32_17 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v33 : BitVec 32 := Scalar.addi v5 c1_i32_14
  let c4_i32_18 : BitVec 32 := 4#32
  let v36 : BitVec 32 := Scalar.muli v33 c4_i32_18
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v38 : BitVec 32 := Scalar.muli v8 c1_i32_19
  let v39 : BitVec 32 := Scalar.addi v37 v38
  v39.toNat
def k0_amt1 (d0 : Dev nD) : BitVec 32 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v16 : BitVec 1 := Scalar.cmpi .sgt v5 c0_i32_4
  let v17 : BitVec 32 := Scalar.extui v16
  let c3_i32_5 : BitVec 32 := 3#32
  let v18 : BitVec 1 := Scalar.cmpi .slt v5 c3_i32_5
  let v19 : BitVec 32 := Scalar.extui v18
  let v20 : BitVec 32 := Scalar.addi v17 v19
  v20
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v21 : BitVec 1 := Scalar.cmpi .eq v5 c0_i32_6
  let v22 : BitVec 32 := Scalar.extui v21
  let c0_i32_7 : BitVec 32 := 0#32
  let v23 : BitVec 1 := Scalar.cmpi .ne v22 c0_i32_7
  v23

def k0_dev3 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v33 : BitVec 32 := Scalar.muli v2 c16_i32_20
  let v34 : BitVec 32 := Scalar.addi c0_i32_21 v33
  let c1_i32_19 : BitVec 32 := 1#32
  let c4_i32_22 : BitVec 32 := 4#32
  let v35 : BitVec 32 := Scalar.muli c1_i32_19 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev4 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v46 : BitVec 32 := Scalar.muli v2 c16_i32_34
  let v47 : BitVec 32 := Scalar.addi c0_i32_35 v46
  let c1_i32_33 : BitVec 32 := 1#32
  let c4_i32_36 : BitVec 32 := 4#32
  let v48 : BitVec 32 := Scalar.muli c1_i32_33 c4_i32_36
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v50 : BitVec 32 := Scalar.muli v8 c1_i32_37
  let v51 : BitVec 32 := Scalar.addi v49 v50
  v51.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v24 : BitVec 1 := Scalar.cmpi .eq v5 c1_i32_8
  let v25 : BitVec 32 := Scalar.extui v24
  let c0_i32_9 : BitVec 32 := 0#32
  let v26 : BitVec 1 := Scalar.cmpi .ne v25 c0_i32_9
  v26

def k0_dev5 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v33 : BitVec 32 := Scalar.muli v2 c16_i32_20
  let v34 : BitVec 32 := Scalar.addi c0_i32_21 v33
  let c2_i32_19 : BitVec 32 := 2#32
  let c4_i32_22 : BitVec 32 := 4#32
  let v35 : BitVec 32 := Scalar.muli c2_i32_19 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev6 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v46 : BitVec 32 := Scalar.muli v2 c16_i32_34
  let v47 : BitVec 32 := Scalar.addi c0_i32_35 v46
  let c0_i32_33 : BitVec 32 := 0#32
  let c4_i32_36 : BitVec 32 := 4#32
  let v48 : BitVec 32 := Scalar.muli c0_i32_33 c4_i32_36
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v50 : BitVec 32 := Scalar.muli v8 c1_i32_37
  let v51 : BitVec 32 := Scalar.addi v49 v50
  v51.toNat
def k0_dev7 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v59 : BitVec 32 := Scalar.muli v2 c16_i32_48
  let v60 : BitVec 32 := Scalar.addi c0_i32_49 v59
  let c2_i32_47 : BitVec 32 := 2#32
  let c4_i32_50 : BitVec 32 := 4#32
  let v61 : BitVec 32 := Scalar.muli c2_i32_47 c4_i32_50
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v63 : BitVec 32 := Scalar.muli v8 c1_i32_51
  let v64 : BitVec 32 := Scalar.addi v62 v63
  v64.toNat
def k0_dev8 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v72 : BitVec 32 := Scalar.muli v2 c16_i32_61
  let v73 : BitVec 32 := Scalar.addi c0_i32_62 v72
  let c0_i32_60 : BitVec 32 := 0#32
  let c4_i32_63 : BitVec 32 := 4#32
  let v74 : BitVec 32 := Scalar.muli c0_i32_60 c4_i32_63
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v76 : BitVec 32 := Scalar.muli v8 c1_i32_64
  let v77 : BitVec 32 := Scalar.addi v75 v76
  v77.toNat
def k0_dev9 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v99 : BitVec 32 := Scalar.muli v2 c16_i32_92
  let v100 : BitVec 32 := Scalar.addi c0_i32_93 v99
  let c2_i32_91 : BitVec 32 := 2#32
  let c4_i32_94 : BitVec 32 := 4#32
  let v101 : BitVec 32 := Scalar.muli c2_i32_91 c4_i32_94
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v103 : BitVec 32 := Scalar.muli v8 c1_i32_95
  let v104 : BitVec 32 := Scalar.addi v102 v103
  v104.toNat
def k0_dev10 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v127 : BitVec 32 := Scalar.muli v2 c16_i32_126
  let v128 : BitVec 32 := Scalar.addi c0_i32_127 v127
  let c0_i32_125 : BitVec 32 := 0#32
  let c4_i32_128 : BitVec 32 := 4#32
  let v129 : BitVec 32 := Scalar.muli c0_i32_125 c4_i32_128
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v131 : BitVec 32 := Scalar.muli v8 c1_i32_129
  let v132 : BitVec 32 := Scalar.addi v130 v131
  v132.toNat
def k0_dev11 (d0 : Dev nD) : Nat :=
  let c0_i32_159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_158 : BitVec 32 := 16#32
  let v155 : BitVec 32 := Scalar.muli v2 c16_i32_158
  let v156 : BitVec 32 := Scalar.addi c0_i32_159 v155
  let c2_i32_157 : BitVec 32 := 2#32
  let c4_i32_160 : BitVec 32 := 4#32
  let v157 : BitVec 32 := Scalar.muli c2_i32_157 c4_i32_160
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v159 : BitVec 32 := Scalar.muli v8 c1_i32_161
  let v160 : BitVec 32 := Scalar.addi v158 v159
  v160.toNat
def k0_dev12 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v183 : BitVec 32 := Scalar.muli v2 c16_i32_191
  let v184 : BitVec 32 := Scalar.addi c0_i32_192 v183
  let c0_i32_190 : BitVec 32 := 0#32
  let c4_i32_193 : BitVec 32 := 4#32
  let v185 : BitVec 32 := Scalar.muli c0_i32_190 c4_i32_193
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v187 : BitVec 32 := Scalar.muli v8 c1_i32_194
  let v188 : BitVec 32 := Scalar.addi v186 v187
  v188.toNat
def k0_dev13 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_224 : BitVec 32 := 16#32
  let v211 : BitVec 32 := Scalar.muli v2 c16_i32_224
  let v212 : BitVec 32 := Scalar.addi c0_i32_225 v211
  let c0_i32_223 : BitVec 32 := 0#32
  let c4_i32_226 : BitVec 32 := 4#32
  let v213 : BitVec 32 := Scalar.muli c0_i32_223 c4_i32_226
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v215 : BitVec 32 := Scalar.muli v8 c1_i32_227
  let v216 : BitVec 32 := Scalar.addi v214 v215
  v216.toNat
def k0_dev14 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v239 : BitVec 32 := Scalar.muli v2 c16_i32_256
  let v240 : BitVec 32 := Scalar.addi c0_i32_257 v239
  let c0_i32_255 : BitVec 32 := 0#32
  let c4_i32_258 : BitVec 32 := 4#32
  let v241 : BitVec 32 := Scalar.muli c0_i32_255 c4_i32_258
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v243 : BitVec 32 := Scalar.muli v8 c1_i32_259
  let v244 : BitVec 32 := Scalar.addi v242 v243
  v244.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let v27 : BitVec 1 := Scalar.cmpi .eq v5 c2_i32_10
  let v28 : BitVec 32 := Scalar.extui v27
  let c0_i32_11 : BitVec 32 := 0#32
  let v29 : BitVec 1 := Scalar.cmpi .ne v28 c0_i32_11
  v29

def k0_dev15 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v33 : BitVec 32 := Scalar.muli v2 c16_i32_20
  let v34 : BitVec 32 := Scalar.addi c0_i32_21 v33
  let c3_i32_19 : BitVec 32 := 3#32
  let c4_i32_22 : BitVec 32 := 4#32
  let v35 : BitVec 32 := Scalar.muli c3_i32_19 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev16 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v46 : BitVec 32 := Scalar.muli v2 c16_i32_34
  let v47 : BitVec 32 := Scalar.addi c0_i32_35 v46
  let c1_i32_33 : BitVec 32 := 1#32
  let c4_i32_36 : BitVec 32 := 4#32
  let v48 : BitVec 32 := Scalar.muli c1_i32_33 c4_i32_36
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v50 : BitVec 32 := Scalar.muli v8 c1_i32_37
  let v51 : BitVec 32 := Scalar.addi v49 v50
  v51.toNat
def k0_dev17 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v59 : BitVec 32 := Scalar.muli v2 c16_i32_48
  let v60 : BitVec 32 := Scalar.addi c0_i32_49 v59
  let c3_i32_47 : BitVec 32 := 3#32
  let c4_i32_50 : BitVec 32 := 4#32
  let v61 : BitVec 32 := Scalar.muli c3_i32_47 c4_i32_50
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v63 : BitVec 32 := Scalar.muli v8 c1_i32_51
  let v64 : BitVec 32 := Scalar.addi v62 v63
  v64.toNat
def k0_dev18 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v72 : BitVec 32 := Scalar.muli v2 c16_i32_61
  let v73 : BitVec 32 := Scalar.addi c0_i32_62 v72
  let c1_i32_60 : BitVec 32 := 1#32
  let c4_i32_63 : BitVec 32 := 4#32
  let v74 : BitVec 32 := Scalar.muli c1_i32_60 c4_i32_63
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v76 : BitVec 32 := Scalar.muli v8 c1_i32_64
  let v77 : BitVec 32 := Scalar.addi v75 v76
  v77.toNat
def k0_dev19 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v99 : BitVec 32 := Scalar.muli v2 c16_i32_92
  let v100 : BitVec 32 := Scalar.addi c0_i32_93 v99
  let c3_i32_91 : BitVec 32 := 3#32
  let c4_i32_94 : BitVec 32 := 4#32
  let v101 : BitVec 32 := Scalar.muli c3_i32_91 c4_i32_94
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v103 : BitVec 32 := Scalar.muli v8 c1_i32_95
  let v104 : BitVec 32 := Scalar.addi v102 v103
  v104.toNat
def k0_dev20 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v127 : BitVec 32 := Scalar.muli v2 c16_i32_124
  let v128 : BitVec 32 := Scalar.addi c0_i32_125 v127
  let c1_i32_123 : BitVec 32 := 1#32
  let c4_i32_126 : BitVec 32 := 4#32
  let v129 : BitVec 32 := Scalar.muli c1_i32_123 c4_i32_126
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v131 : BitVec 32 := Scalar.muli v8 c1_i32_127
  let v132 : BitVec 32 := Scalar.addi v130 v131
  v132.toNat
def k0_dev21 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v155 : BitVec 32 := Scalar.muli v2 c16_i32_156
  let v156 : BitVec 32 := Scalar.addi c0_i32_157 v155
  let c3_i32_155 : BitVec 32 := 3#32
  let c4_i32_158 : BitVec 32 := 4#32
  let v157 : BitVec 32 := Scalar.muli c3_i32_155 c4_i32_158
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v159 : BitVec 32 := Scalar.muli v8 c1_i32_159
  let v160 : BitVec 32 := Scalar.addi v158 v159
  v160.toNat
def k0_dev22 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_188 : BitVec 32 := 16#32
  let v183 : BitVec 32 := Scalar.muli v2 c16_i32_188
  let v184 : BitVec 32 := Scalar.addi c0_i32_189 v183
  let c1_i32_187 : BitVec 32 := 1#32
  let c4_i32_190 : BitVec 32 := 4#32
  let v185 : BitVec 32 := Scalar.muli c1_i32_187 c4_i32_190
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v187 : BitVec 32 := Scalar.muli v8 c1_i32_191
  let v188 : BitVec 32 := Scalar.addi v186 v187
  v188.toNat
def k0_dev23 (d0 : Dev nD) : Nat :=
  let c0_i32_222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_221 : BitVec 32 := 16#32
  let v211 : BitVec 32 := Scalar.muli v2 c16_i32_221
  let v212 : BitVec 32 := Scalar.addi c0_i32_222 v211
  let c3_i32_220 : BitVec 32 := 3#32
  let c4_i32_223 : BitVec 32 := 4#32
  let v213 : BitVec 32 := Scalar.muli c3_i32_220 c4_i32_223
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v215 : BitVec 32 := Scalar.muli v8 c1_i32_224
  let v216 : BitVec 32 := Scalar.addi v214 v215
  v216.toNat
def k0_dev24 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v239 : BitVec 32 := Scalar.muli v2 c16_i32_255
  let v240 : BitVec 32 := Scalar.addi c0_i32_256 v239
  let c3_i32_254 : BitVec 32 := 3#32
  let c4_i32_257 : BitVec 32 := 4#32
  let v241 : BitVec 32 := Scalar.muli c3_i32_254 c4_i32_257
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v243 : BitVec 32 := Scalar.muli v8 c1_i32_258
  let v244 : BitVec 32 := Scalar.addi v242 v243
  v244.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_12 : BitVec 32 := 3#32
  let v30 : BitVec 1 := Scalar.cmpi .eq v5 c3_i32_12
  let v31 : BitVec 32 := Scalar.extui v30
  let c0_i32_13 : BitVec 32 := 0#32
  let v32 : BitVec 1 := Scalar.cmpi .ne v31 c0_i32_13
  v32

def k0_dev25 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v33 : BitVec 32 := Scalar.muli v2 c16_i32_20
  let v34 : BitVec 32 := Scalar.addi c0_i32_21 v33
  let c2_i32_19 : BitVec 32 := 2#32
  let c4_i32_22 : BitVec 32 := 4#32
  let v35 : BitVec 32 := Scalar.muli c2_i32_19 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev26 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v46 : BitVec 32 := Scalar.muli v2 c16_i32_34
  let v47 : BitVec 32 := Scalar.addi c0_i32_35 v46
  let c2_i32_33 : BitVec 32 := 2#32
  let c4_i32_36 : BitVec 32 := 4#32
  let v48 : BitVec 32 := Scalar.muli c2_i32_33 c4_i32_36
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v50 : BitVec 32 := Scalar.muli v8 c1_i32_37
  let v51 : BitVec 32 := Scalar.addi v49 v50
  v51.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4x2_S1x1_0_0 : ∀ a, (![0, 0] : Fin 2 → Nat) a + S1x1.size a ≤ S4x2.size a
  squeezes_S1x1_S_ : S1x1.Squeezes S_
  inb_S4x256x256_S1x128x256_0_0_0 : ∀ a, (![0, 0, 0] : Fin 3 → Nat) a + S1x128x256.size a ≤ S4x256x256.size a
  squeezes_S1x128x256_S128x256 : S1x128x256.Squeezes S128x256
  inb_S256x256_S128x256_0_0 : ∀ a, (![0, 0] : Fin 2 → Nat) a + S128x256.size a ≤ S256x256.size a
  inb_S4x2_S1x1_0_1 : ∀ a, (![0, 1] : Fin 2 → Nat) a + S1x1.size a ≤ S4x2.size a
  inb_S4x256x256_S1x128x256_0_128_0 : ∀ a, (![0, 128, 0] : Fin 3 → Nat) a + S1x128x256.size a ≤ S4x256x256.size a
  inb_S256x256_S128x256_128_0 : ∀ a, (![128, 0] : Fin 2 → Nat) a + S128x256.size a ≤ S256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S256x256_0_0 : ∀ a, (![0, 0] : Fin 2 → Nat) a + S256x256.size a ≤ S1024x256.size a
  inb_S4x2_S1x1_1_0 : ∀ a, (![1, 0] : Fin 2 → Nat) a + S1x1.size a ≤ S4x2.size a
  inb_S4x256x256_S1x128x256_1_0_0 : ∀ a, (![1, 0, 0] : Fin 3 → Nat) a + S1x128x256.size a ≤ S4x256x256.size a
  h_S1x128x256 : 0 < S1x128x256.numel
  shapeCasts_S1x128x256_S128x256 : S1x128x256.ShapeCasts S128x256
  inb_S1024x256_S128x256_256_0 : ∀ a, (![256, 0] : Fin 2 → Nat) a + S128x256.size a ≤ S1024x256.size a
  h_S128x256 : 0 < S128x256.numel
  inb_S4x2_S1x1_1_1 : ∀ a, (![1, 1] : Fin 2 → Nat) a + S1x1.size a ≤ S4x2.size a
  inb_S4x256x256_S1x128x256_1_128_0 : ∀ a, (![1, 128, 0] : Fin 3 → Nat) a + S1x128x256.size a ≤ S4x256x256.size a
  inb_S1024x256_S128x256_384_0 : ∀ a, (![384, 0] : Fin 2 → Nat) a + S128x256.size a ≤ S1024x256.size a
  inb_S4x2_S1x1_2_0 : ∀ a, (![2, 0] : Fin 2 → Nat) a + S1x1.size a ≤ S4x2.size a
  inb_S4x256x256_S1x128x256_2_0_0 : ∀ a, (![2, 0, 0] : Fin 3 → Nat) a + S1x128x256.size a ≤ S4x256x256.size a
  inb_S1024x256_S128x256_512_0 : ∀ a, (![512, 0] : Fin 2 → Nat) a + S128x256.size a ≤ S1024x256.size a
  inb_S4x2_S1x1_2_1 : ∀ a, (![2, 1] : Fin 2 → Nat) a + S1x1.size a ≤ S4x2.size a
  inb_S4x256x256_S1x128x256_2_128_0 : ∀ a, (![2, 128, 0] : Fin 3 → Nat) a + S1x128x256.size a ≤ S4x256x256.size a
  inb_S1024x256_S128x256_640_0 : ∀ a, (![640, 0] : Fin 2 → Nat) a + S128x256.size a ≤ S1024x256.size a
  inb_S4x2_S1x1_3_0 : ∀ a, (![3, 0] : Fin 2 → Nat) a + S1x1.size a ≤ S4x2.size a
  inb_S4x256x256_S1x128x256_3_0_0 : ∀ a, (![3, 0, 0] : Fin 3 → Nat) a + S1x128x256.size a ≤ S4x256x256.size a
  inb_S1024x256_S128x256_768_0 : ∀ a, (![768, 0] : Fin 2 → Nat) a + S128x256.size a ≤ S1024x256.size a
  inb_S4x2_S1x1_3_1 : ∀ a, (![3, 1] : Fin 2 → Nat) a + S1x1.size a ≤ S4x2.size a
  inb_S4x256x256_S1x128x256_3_128_0 : ∀ a, (![3, 128, 0] : Fin 3 → Nat) a + S1x128x256.size a ≤ S4x256x256.size a
  inb_S1024x256_S128x256_896_0 : ∀ a, (![896, 0] : Fin 2 → Nat) a + S128x256.size a ≤ S1024x256.size a
  inb_S1024x256_S256x256_256_0 : ∀ a, (![256, 0] : Fin 2 → Nat) a + S256x256.size a ≤ S1024x256.size a
  inb_S1024x256_S128x256_0_0 : ∀ a, (![0, 0] : Fin 2 → Nat) a + S128x256.size a ≤ S1024x256.size a
  inb_S1024x256_S128x256_128_0 : ∀ a, (![128, 0] : Fin 2 → Nat) a + S128x256.size a ≤ S1024x256.size a
  inb_S1024x256_S256x256_512_0 : ∀ a, (![512, 0] : Fin 2 → Nat) a + S256x256.size a ≤ S1024x256.size a
  inb_S1024x256_S256x256_768_0 : ∀ a, (![768, 0] : Fin 2 → Nat) a + S256x256.size a ≤ S1024x256.size a
  hcc0_scratch1 : 2 + S4x2.numel ≤ 34
  hcc0_scratch2 : 10 + S4x2.numel ≤ 34
  hcc0_scratch3 : 18 + S4x2.numel ≤ 34
  hcc0_scratch4 : 26 + S4x2.numel ≤ 34
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_amt1_nn : ∀ d0 : Dev nD, ((k0_amt1 d0)).msb = false
  k0_dev3_lt : ∀ d0 : Dev nD, ∀ (k0_h3 : k0_cond3 d0 = 1#1), (k0_dev3 d0) < nD
  k0_dev4_lt : ∀ d0 : Dev nD, ∀ (k0_h3 : k0_cond3 d0 = 1#1), (k0_dev4 d0) < nD
  k0_dev5_lt : ∀ d0 : Dev nD, ∀ (k0_h4 : k0_cond4 d0 = 1#1), (k0_dev5 d0) < nD
  k0_dev6_lt : ∀ d0 : Dev nD, ∀ (k0_h4 : k0_cond4 d0 = 1#1), (k0_dev6 d0) < nD
  k0_dev7_lt : ∀ d0 : Dev nD, ∀ (k0_h4 : k0_cond4 d0 = 1#1), (k0_dev7 d0) < nD
  k0_dev8_lt : ∀ d0 : Dev nD, ∀ (k0_h4 : k0_cond4 d0 = 1#1), (k0_dev8 d0) < nD
  k0_dev9_lt : ∀ d0 : Dev nD, ∀ (k0_h4 : k0_cond4 d0 = 1#1), (k0_dev9 d0) < nD
  k0_dev10_lt : ∀ d0 : Dev nD, ∀ (k0_h4 : k0_cond4 d0 = 1#1), (k0_dev10 d0) < nD
  k0_dev11_lt : ∀ d0 : Dev nD, ∀ (k0_h4 : k0_cond4 d0 = 1#1), (k0_dev11 d0) < nD
  k0_dev12_lt : ∀ d0 : Dev nD, ∀ (k0_h4 : k0_cond4 d0 = 1#1), (k0_dev12 d0) < nD
  k0_dev13_lt : ∀ d0 : Dev nD, ∀ (k0_h4 : k0_cond4 d0 = 1#1), (k0_dev13 d0) < nD
  k0_dev14_lt : ∀ d0 : Dev nD, ∀ (k0_h4 : k0_cond4 d0 = 1#1), (k0_dev14 d0) < nD
  k0_dev15_lt : ∀ d0 : Dev nD, ∀ (k0_h5 : k0_cond5 d0 = 1#1), (k0_dev15 d0) < nD
  k0_dev16_lt : ∀ d0 : Dev nD, ∀ (k0_h5 : k0_cond5 d0 = 1#1), (k0_dev16 d0) < nD
  k0_dev17_lt : ∀ d0 : Dev nD, ∀ (k0_h5 : k0_cond5 d0 = 1#1), (k0_dev17 d0) < nD
  k0_dev18_lt : ∀ d0 : Dev nD, ∀ (k0_h5 : k0_cond5 d0 = 1#1), (k0_dev18 d0) < nD
  k0_dev19_lt : ∀ d0 : Dev nD, ∀ (k0_h5 : k0_cond5 d0 = 1#1), (k0_dev19 d0) < nD
  k0_dev20_lt : ∀ d0 : Dev nD, ∀ (k0_h5 : k0_cond5 d0 = 1#1), (k0_dev20 d0) < nD
  k0_dev21_lt : ∀ d0 : Dev nD, ∀ (k0_h5 : k0_cond5 d0 = 1#1), (k0_dev21 d0) < nD
  k0_dev22_lt : ∀ d0 : Dev nD, ∀ (k0_h5 : k0_cond5 d0 = 1#1), (k0_dev22 d0) < nD
  k0_dev23_lt : ∀ d0 : Dev nD, ∀ (k0_h5 : k0_cond5 d0 = 1#1), (k0_dev23 d0) < nD
  k0_dev24_lt : ∀ d0 : Dev nD, ∀ (k0_h5 : k0_cond5 d0 = 1#1), (k0_dev24 d0) < nD
  k0_dev25_lt : ∀ d0 : Dev nD, ∀ (k0_h6 : k0_cond6 d0 = 1#1), (k0_dev25 d0) < nD
  k0_dev26_lt : ∀ d0 : Dev nD, ∀ (k0_h6 : k0_cond6 d0 = 1#1), (k0_dev26 d0) < nD
  hstage0_0 : ∀ j, (stage0_0 j).IsWhole
  hstage0_1 : ∀ j, (stage0_1 j).IsWhole

variable [Facts₀]

abbrev cc0_scratch1 : DmaSems sig S4x2 := SemArray.consecutive 2 S4x2 hcc0_scratch1
abbrev cc0_scratch2 : DmaSems sig S4x2 := SemArray.consecutive 10 S4x2 hcc0_scratch2
abbrev cc0_scratch3 : DmaSems sig S4x2 := SemArray.consecutive 18 S4x2 hcc0_scratch3
abbrev cc0_scratch4 : DmaSems sig S4x2 := SemArray.consecutive 26 S4x2 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/- The 32 devices as eight lines of four along the mesh's second axis: places, neighbours, and the printed conditions and device ids in closed form. -/
import proofs.«900692_g7700000000000693_dist_ag_v7x_xyz2x4x4_y_m256_n256_f32_1_alg».proof.Proof.Gen.KernelIdeal

namespace Cert.KernelIdeal.Line

open Cert.KernelIdeal Cert.KernelIdeal.Gen
open Idealize.ShloMosaic Idealize.SL.Sem

/-- A device's place on its line. -/
def yc (c : Dev nD) : Fin 4 := ⟨(c.val / 4) % 4, Nat.mod_lt _ (by decide)⟩

/-- The device at place `j` of `c`'s line. -/
def devAt (c : Dev nD) (j : Fin 4) : Dev nD := ⟨16 * (c.val / 16) + 4 * j.val + c.val % 4, by have h1 : c.val < 32 := c.isLt; have := j.isLt; show _ < 32; omega⟩

theorem devAt_yc (c : Dev nD) : devAt c (yc c) = c := by revert c; decide
theorem yc_devAt (c : Dev nD) (j : Fin 4) : yc (devAt c j) = j := by revert c j; decide
theorem devAt_devAt (c : Dev nD) (i j : Fin 4) : devAt (devAt c i) j = devAt c j := by revert c i j; decide
/-- A printed device id in closed form is the device at place `j` of the same line. -/
theorem dev_eq (c : Dev nD) (j : Fin 4) {d : ℕ} {hd : d < nD} (h : d = 16 * (c.val / 16) + c.val % 4 + 4 * j.val) : (⟨d, hd⟩ : Dev nD) = devAt c j :=
  Fin.ext (by show d = 16 * (c.val / 16) + 4 * j.val + c.val % 4; omega)

/-- The neighbour one place up (wrapping; the wrap is never addressed). -/
def up (c : Dev nD) : Dev nD := devAt c (yc c + 1)
/-- The neighbour one place down. -/
def dn (c : Dev nD) : Dev nD := devAt c (yc c - 1)

theorem dn_up (c : Dev nD) : dn (up c) = c := by revert c; decide
theorem up_dn (c : Dev nD) : up (dn c) = c := by revert c; decide
theorem yc_up (c : Dev nD) : yc (up c) = yc c + 1 := by revert c; decide
theorem yc_dn (c : Dev nD) : yc (dn c) = yc c - 1 := by revert c; decide
theorem up_ne (c : Dev nD) : up c ≠ c := by revert c; decide
theorem dn_ne (c : Dev nD) : dn c ≠ c := by revert c; decide
theorem up_ne_dn (c : Dev nD) : up c ≠ dn c := by revert c; decide

theorem up_val (c : Dev nD) (h : (yc c).val < 3) : (up c).val = c.val + 4 := by revert c; decide
theorem dn_val (c : Dev nD) (h : 0 < (yc c).val) : (dn c).val = c.val - 4 := by revert c; decide
theorem devAt_up (c : Dev nD) (j : Fin 4) : devAt (up c) j = devAt c j := devAt_devAt c _ j
theorem devAt_dn (c : Dev nD) (j : Fin 4) : devAt (dn c) j = devAt c j := devAt_devAt c _ j

def line : Dev nD ≃ Dev nD := ⟨up, dn, dn_up, up_dn⟩

theorem cond1_iff (c : Dev nD) : k0_cond1 c = 1#1 ↔ 0 < (yc c).val := by revert c; decide +kernel
theorem cond2_iff (c : Dev nD) : k0_cond2 c = 1#1 ↔ (yc c).val < 3 := by revert c; decide +kernel
theorem cond3_iff (c : Dev nD) : k0_cond3 c = 1#1 ↔ yc c = 0 := by revert c; decide +kernel
theorem cond4_iff (c : Dev nD) : k0_cond4 c = 1#1 ↔ yc c = 1 := by revert c; decide +kernel
theorem cond5_iff (c : Dev nD) : k0_cond5 c = 1#1 ↔ yc c = 2 := by revert c; decide +kernel
theorem cond6_iff (c : Dev nD) : k0_cond6 c = 1#1 ↔ yc c = 3 := by revert c; decide +kernel

theorem amt1_eq (c : Dev nD) : (k0_amt1 c).toNat = (if 0 < (yc c).val then 1 else 0) + (if (yc c).val < 3 then 1 else 0) := by
  revert c; decide +kernel

theorem dev1_val (c : Dev nD) (h : k0_cond1 c = 1#1) : k0_dev1 c = (dn c).val := by revert c; decide +kernel
theorem dev2_val (c : Dev nD) (h : k0_cond2 c = 1#1) : k0_dev2 c = (up c).val := by revert c; decide +kernel

end Cert.KernelIdeal.Line
-- ==== Proof.Cells.lean ====
/- Vocabulary of the line all-gather: slot (o, h) of the receive buffer holds half h of the block from place o; one send and one receive semaphore per direction and slot. -/
import proofs.«900692_g7700000000000693_dist_ag_v7x_xyz2x4x4_y_m256_n256_f32_1_alg».proof.Proof.Mesh
import proofs.«900692_g7700000000000693_dist_ag_v7x_xyz2x4x4_y_m256_n256_f32_1_alg».proof.Proof.Gen.KernelIdeal.Skeleton
import proofs.«900692_g7700000000000693_dist_ag_v7x_xyz2x4x4_y_m256_n256_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev xM : Memref sig .tc .vmem S256x256 .f32 := Memref.whole cc0_stg0_0
abbrev oM : Memref sig .tc .vmem S1024x256 .f32 := Memref.whole cc0_stg1_0
abbrev cM : Memref sig .tc .vmem S4x256x256 .f32 := Memref.whole cc0_scratch0

theorem slot_inb (o : Fin 4) (h : Fin 2) : ∀ a, (![o.val, 128 * h.val, 0] : Fin 3 → Nat) a + S1x128x256.size a ≤ S4x256x256.size a := by
  revert o h; decide
theorem half_inb (h : Fin 2) : ∀ a, (![128 * h.val, 0] : Fin 2 → Nat) a + S128x256.size a ≤ S256x256.size a := by
  revert h; decide

abbrev slotR (o : Fin 4) (h : Fin 2) : Rect S4x256x256 := Rect.unit (s := S4x256x256) ![o.val, 128 * h.val, 0] S1x128x256.size (slot_inb o h)
/-- Slot (o, h): rows 128h … 128h + 127 of plane o of the receive buffer. -/
abbrev slotM (o : Fin 4) (h : Fin 2) : Memref sig .tc .vmem S128x256 .f32 :=
  (cM.slice (slotR o h) (fun _ => rfl)).squeeze S128x256 squeezes_S1x128x256_S128x256
abbrev halfR (h : Fin 2) : Rect S256x256 := Rect.unit (s := S256x256) ![128 * h.val, 0] S128x256.size (half_inb h)
/-- Half h of the device's own block. -/
abbrev halfM (h : Fin 2) : Memref sig .tc .vmem S128x256 .f32 := xM.slice (halfR h) (fun _ => rfl)

theorem sem_inb (o : Fin 4) (h : Fin 2) : ∀ a, (![o.val, h.val] : Fin 2 → Nat) a + S1x1.size a ≤ S4x2.size a := by
  revert o h; decide
abbrev semAt (A : DmaSems sig S4x2) (o : Fin 4) (h : Fin 2) : DmaSem sig :=
  ((A.slice (Rect.unit (s := S4x2) ![o.val, h.val] S1x1.size (sem_inb o h))).squeeze S_ squeezes_S1x1_S_).sem

abbrev sendA (dir : Bool) : DmaSems sig S4x2 := cond dir cc0_scratch1 cc0_scratch3
abbrev recvA (dir : Bool) : DmaSems sig S4x2 := cond dir cc0_scratch2 cc0_scratch4

abbrev barS : Sem sig := (SemArray.scalar (sig.barrier 0 rfl) : Sems sig S_).sem

abbrev barCell (c : Dev nD) : GSem nD τ sig := ((c : Thread nD τ), .reg barS)
abbrev sendCell (c : Dev nD) (dir : Bool) (o : Fin 4) (h : Fin 2) : GSem nD τ sig := ((c : Thread nD τ), .dma (semAt (sendA dir) o h))
abbrev recvCell (c : Dev nD) (dir : Bool) (o : Fin 4) (h : Fin 2) : GSem nD τ sig := ((c : Thread nD τ), .dma (semAt (recvA dir) o h))

abbrev osem : Fin 32 → SemLoc sig := fun j => .dma ⟨2 + j.val, by have := j.isLt; show _ < 34; omega⟩

theorem sendSem_val (dir : Bool) (o : Fin 4) (h : Fin 2) : (semAt (sendA dir) o h).val = 2 + (cond dir 0 16) + 2 * o.val + h.val := by
  revert dir o h; decide
theorem recvSem_val (dir : Bool) (o : Fin 4) (h : Fin 2) : (semAt (recvA dir) o h).val = 2 + (cond dir 8 24) + 2 * o.val + h.val := by
  revert dir o h; decide

abbrev N : ℕ := (slotM 0 0).view.dmaCredit
theorem N_pos : 0 < N := View.dmaCredit_pos _ (by decide)

/-- The neighbour in a direction (`true`: up). -/
abbrev nbr (c : Dev nD) (dir : Bool) : Dev nD := cond dir (up c) (dn c)

def xstg (c : Dev nD) : (cc0_stg0_0 : Ref sig .tc).ty.Contents (Elt F) :=
  (win0_0.blk (0 : Fin 1)).view.read (Elt F) ((s₀ m ρ).mem ((c : Thread nD τ).loc main_arg0))

/-- What a filled receive buffer holds on `c`'s line: plane o is the block of the device at place o. -/
def commVal (c : Dev nD) : (cc0_scratch0 : Ref sig .tc).ty.Contents (Elt F) :=
  fun i => xstg m ρ (devAt c (i 0)) (ix2 (i 1) (i 2))

/-- The gathered result: rows 256o … 256o + 255 are the block of the device at place o. -/
def gathered (c : Dev nD) : (cc0_stg1_0 : Ref sig .tc).ty.Contents (Elt F) :=
  fun i => xstg m ρ (devAt c ⟨(i 0).val / 256, by have h : (i 0).val < 1024 := (i 0).isLt; show _ < 4; omega⟩)
    (ix2 ⟨(i 0).val % 256, Nat.mod_lt _ (by decide)⟩ (i 1))

def gatheredA (c : Dev nD) : Buf (Elt F) ((c : Thread nD τ).loc main_v1) :=
  fun i => m (((devAt c ⟨(i 0).val / 256, by have h : (i 0).val < 1024 := (i 0).isLt; show _ < 4; omega⟩ : Dev nD) : Thread nD τ).loc main_arg0)
    (ix2 ⟨(i 0).val % 256, Nat.mod_lt _ (by decide)⟩ (i 1))

end Cert.KernelIdeal.Line

end
-- ==== Proof.Claims.lean ====
/- The reference is the identity; device c's gathered array is its copy of the whole array through the block layout; the five claims. -/
import proofs.«900692_g7700000000000693_dist_ag_v7x_xyz2x4x4_y_m256_n256_f32_1_alg».proof.Defs
import proofs.«900692_g7700000000000693_dist_ag_v7x_xyz2x4x4_y_m256_n256_f32_1_alg».proof.Proof.Gen.Kernel
import proofs.«900692_g7700000000000693_dist_ag_v7x_xyz2x4x4_y_m256_n256_f32_1_alg».proof.Proof.Gen.KernelIdeal
import proofs.«900692_g7700000000000693_dist_ag_v7x_xyz2x4x4_y_m256_n256_f32_1_alg».proof.Proof.Gen.ReferenceIdeal
import proofs.«900692_g7700000000000693_dist_ag_v7x_xyz2x4x4_y_m256_n256_f32_1_alg».proof.Proof.Gen.Pre_finite_inputs_Kernel
import proofs.«900692_g7700000000000693_dist_ag_v7x_xyz2x4x4_y_m256_n256_f32_1_alg».proof.Proof.Gen.Pre_finite_inputs_ReferenceIdeal
import proofs.«900692_g7700000000000693_dist_ag_v7x_xyz2x4x4_y_m256_n256_f32_1_alg».proof.Proof.Cells
import Idealize.ShloMosaic.Lib.StableHlo.Run
import Idealize.ShloMosaic.Lib.Layout

noncomputable section

namespace Cert.Proof.Assembly

open Idealize.ShloMosaic Idealize.ShloMosaic.TcCoe Idealize.SL.Sem
open Idealize.ShloMosaic.ValueIdx

section Reference

open Cert.ReferenceIdeal Cert.ReferenceIdeal.Gen

variable {F : FTy → Type} [FloatOps F]

theorem ref_scopedRefs : (Finset.univ.filter fun b : Ref Cert.ReferenceIdeal.sig .tc => b.isScoped) = ∅ := by decide
theorem ref_scopedSems : (Finset.univ.filter fun sm : SemLoc Cert.ReferenceIdeal.sig => sm.isScoped .tc) = ∅ := by decide

theorem ref_run (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => ∀ (d : Dev Cert.ReferenceIdeal.nD) (b : Ref Cert.ReferenceIdeal.sig .tc),
        r.2.mem ((d.tc : Thread Cert.ReferenceIdeal.nD Cert.ReferenceIdeal.τ).loc b) = m' ((d.tc : Thread Cert.ReferenceIdeal.nD Cert.ReferenceIdeal.τ).loc b)) :=
  (θ_run Cert.ReferenceIdeal.defs _ _).mono (fun _ h d b => h d b)
    (StableHlo.run_seq ref_scopedRefs ref_scopedSems Cert.ReferenceIdeal.defs Cert.ReferenceIdeal.main (fun _ => [])
      (fun _ => rfl) (fun _ => trivial) m' g')

end Reference

section Value

open Cert.KernelIdeal Cert.KernelIdeal.Line

theorem meshBlock_devAt (c : Dev Cert.KernelIdeal.nD) (j : Fin 4) :
    ((Layout.meshBlock [2, 4, 4] ![[1], []] (devAt c j)) 0).val = j.val
      ∧ ((Layout.meshBlock [2, 4, 4] ![[1], []] (devAt c j)) 1).val = 0 := by
  revert c j; decide

theorem gatheredA_eq
    (m : (ℓ : Loc Cert.KernelIdeal.nD Cert.KernelIdeal.τ Cert.KernelIdeal.sig) → Buf (Elt Ideal) ℓ)
    (X : (⟨2, ![1024, 256]⟩ : Shape).Idx → Elt Ideal .f32)
    (hlay : ∀ c : Dev Cert.KernelIdeal.nD,
      m ((c.tc : Thread Cert.KernelIdeal.nD Cert.KernelIdeal.τ).loc Cert.KernelIdeal.main_arg0)
        = Layout.blockN ⟨2, ![256, 256]⟩ ⟨2, ![1024, 256]⟩ (Layout.meshBlock [2, 4, 4] ![[1], []] c) X)
    (c : Dev Cert.KernelIdeal.nD) :
    gatheredA m c = X := by
  funext i
  have hi0 : (i 0).val < 1024 := (i 0).isLt
  obtain ⟨h0, h1⟩ := meshBlock_devAt c ⟨(i 0).val / 256, by omega⟩
  unfold gatheredA
  rw [hlay, Layout.blockN_apply]
  congr 1
  funext b
  apply Fin.ext
  rw [Layout.TilesN.idx_val]
  match b with
  | ⟨0, _⟩ =>
    show ((Layout.meshBlock [2, 4, 4] ![[1], []] (devAt c ⟨(i 0).val / 256, _⟩)) 0).val * 256 + (i 0).val % 256 = (i 0).val
    rw [h0]; show (i 0).val / 256 * 256 + (i 0).val % 256 = (i 0).val
    omega
  | ⟨1, _⟩ =>
    show ((Layout.meshBlock [2, 4, 4] ![[1], []] (devAt c ⟨(i 0).val / 256, _⟩)) 1).val * 256 + (i 1).val = (i 1).val
    rw [h1]; omega

end Value

theorem claim_of_runs (hK : Cert.frame_Kernel)
    (hKI : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread _ _).loc Cert.KernelIdeal.main_v1) = Cert.KernelIdeal.Line.gatheredA m c
          ∧ r.2.mem ((c.tc : Thread _ _).loc Cert.KernelIdeal.main_arg0) = m ((c.tc : Thread _ _).loc Cert.KernelIdeal.main_arg0))) :
    Cert.frame_Kernel ∧ Cert.frame_KernelIdeal ∧ Cert.frame_ReferenceIdeal ∧ Cert.preserves_Kernel_KernelIdeal
      ∧ Cert.algebraic_KernelIdeal_ReferenceIdeal := by
  refine ⟨hK, ?_, ?_, trivial, ?_⟩
  · intro m g _
    exact (θ_run Cert.KernelIdeal.defs _ _).mono (fun _ h c => (h c).2) (hKI m g)
  · intro m' g' _
    exact (θ_run Cert.ReferenceIdeal.defs _ _).mono (fun _ h c => h c Cert.ReferenceIdeal.main_arg0) (ref_run m' g')
  · intro m g m' g' _ hlay
    refine ⟨m' (((0 : Dev Cert.ReferenceIdeal.nD).tc : Thread Cert.ReferenceIdeal.nD Cert.ReferenceIdeal.τ).loc Cert.ReferenceIdeal.main_arg0), ?_, ?_⟩
    · exact (θ_run Cert.KernelIdeal.defs _ _).mono
        (fun _ h c => ⟨((h c).1).trans (gatheredA_eq m _ hlay c), (h c).2⟩) (hKI m g)
    · exact (θ_run Cert.ReferenceIdeal.defs _ _).mono
        (fun _ h => ⟨h 0 Cert.ReferenceIdeal.main_arg0, h 0 Cert.ReferenceIdeal.main_arg0⟩) (ref_run m' g')

/-- info: 'Cert.Proof.Assembly.claim_of_runs' depends on axioms: [propext, Classical.choice, Quot.sound] -/
#guard_msgs in #print axioms claim_of_runs

end Cert.Proof.Assembly

end
-- ==== Proof.Sched.lean ====
/- Who sends and receives what at each place, the resources that travel with each transfer, and the schedule of every semaphore's single round. -/
import proofs.«900692_g7700000000000693_dist_ag_v7x_xyz2x4x4_y_m256_n256_f32_1_alg».proof.Proof.Cells

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Place k passes origin o on in direction `dir`: it lies on that side of the origin and is not the line's end. -/
def sends (k : Fin 4) (dir : Bool) (o : Fin 4) : Bool := cond dir (decide (o ≤ k ∧ k.val < 3)) (decide (k ≤ o ∧ 0 < k.val))
/-- Place k receives origin o travelling in direction `dir`. -/
def recvs (k : Fin 4) (dir : Bool) (o : Fin 4) : Bool := cond dir (decide (o < k)) (decide (k < o))

theorem recvs_nbr (c : Dev nD) (dir : Bool) (o : Fin 4) (h : sends (yc c) dir o = true) : recvs (yc (nbr c dir)) dir o = true := by
  revert c dir o; decide

/-- The share of its source a pending transfer holds, by direction; `fullShare.right.right` stays for reading. -/
abbrev shareOf (dir : Bool) : PosShare TreeShare := cond dir fullShare.left fullShare.right.left

def slotPts (c : Dev nD) (o : Fin 4) (h : Fin 2) (q : PosShare TreeShare) (f : Buf (Elt F) ((slotM o h).view.loc (c : Thread nD τ))) : sProp 𝕄 :=
  (slotM o h).view.loc (c : Thread nD τ) ↦[(slotM o h).view.set]{q} f
def halfPts (c : Dev nD) (h : Fin 2) (q : PosShare TreeShare) : sProp 𝕄 :=
  (halfM h).view.loc (c : Thread nD τ) ↦[(halfM h).view.set]{q} xstg m ρ c
def slotFull (c : Dev nD) (o : Fin 4) (h : Fin 2) (q : PosShare TreeShare) : sProp 𝕄 := slotPts c o h q (commVal m ρ c)
/-- A transfer's source: the own block half at the origin, else the slot the half arrived in. -/
def srcPts (c : Dev nD) (o : Fin 4) (h : Fin 2) (q : PosShare TreeShare) : sProp 𝕄 :=
  if o = yc c then halfPts m ρ c h q else slotFull m ρ c o h q
def slotsEx (c : Dev nD) : List (Fin 4 × Fin 2) → sProp 𝕄
  | [] => iprop(emp)
  | p :: l => iprop((∃ f, slotPts c p.1 p.2 fullShare f) ∗ slotsEx c l)

def slotsGE (k : Fin 4) : List (Fin 4 × Fin 2) := ((List.finRange 4).filter (fun o => k ≤ o)).flatMap fun o => [(o, 0), (o, 1)]
def slotsLE (k : Fin 4) : List (Fin 4 × Fin 2) := ((List.finRange 4).filter (fun o => o ≤ k)).flatMap fun o => [(o, 0), (o, 1)]

omit [FloatOps F] in
instance slotPts_storable (c : Dev nD) (o h q f) : BI.Storable (upEmb : UEmb _ 𝕄) (slotPts (F := F) c o h q f) := by unfold slotPts; infer_instance
omit [FloatOps F] in
instance halfPts_storable (c : Dev nD) (h q) : BI.Storable (upEmb : UEmb _ 𝕄) (halfPts (F := F) m ρ c h q) := by unfold halfPts; infer_instance
omit [FloatOps F] in
instance slotFull_storable (c : Dev nD) (o h q) : BI.Storable (upEmb : UEmb _ 𝕄) (slotFull (F := F) m ρ c o h q) := by unfold slotFull; infer_instance
omit [FloatOps F] in
instance srcPts_storable (c : Dev nD) (o h q) : BI.Storable (upEmb : UEmb _ 𝕄) (srcPts (F := F) m ρ c o h q) := by unfold srcPts; split <;> infer_instance
omit [FloatOps F] in
instance slotsEx_storable (c : Dev nD) (l : List (Fin 4 × Fin 2)) : BI.Storable (upEmb : UEmb _ 𝕄) (slotsEx (F := F) c l) := by
  induction l with
  | nil => unfold slotsEx; infer_instance
  | cons p l ih => unfold slotsEx; infer_instance

def semQ (s : DmaSem sig) : ℕ := (s.val - 2) / 8
def semO (s : DmaSem sig) : Fin 4 := ⟨((s.val - 2) % 8) / 2, by omega⟩
def semH (s : DmaSem sig) : Fin 2 := ⟨(s.val - 2) % 2, by omega⟩

theorem semQ_send (dir : Bool) (o : Fin 4) (h : Fin 2) : semQ (semAt (sendA dir) o h) = cond dir 0 2 := by revert dir o h; decide
theorem semQ_recv (dir : Bool) (o : Fin 4) (h : Fin 2) : semQ (semAt (recvA dir) o h) = cond dir 1 3 := by revert dir o h; decide
theorem semO_send (dir : Bool) (o : Fin 4) (h : Fin 2) : semO (semAt (sendA dir) o h) = o := by revert dir o h; decide
theorem semO_recv (dir : Bool) (o : Fin 4) (h : Fin 2) : semO (semAt (recvA dir) o h) = o := by revert dir o h; decide
theorem semH_send (dir : Bool) (o : Fin 4) (h : Fin 2) : semH (semAt (sendA dir) o h) = h := by revert dir o h; decide
theorem semH_recv (dir : Bool) (o : Fin 4) (h : Fin 2) : semH (semAt (recvA dir) o h) = h := by revert dir o h; decide
theorem two_le_send (dir : Bool) (o : Fin 4) (h : Fin 2) : 2 ≤ (semAt (sendA dir) o h).val := by revert dir o h; decide
theorem two_le_recv (dir : Bool) (o : Fin 4) (h : Fin 2) : 2 ≤ (semAt (recvA dir) o h).val := by revert dir o h; decide

def used (k : Fin 4) (s : DmaSem sig) : Bool :=
  decide (2 ≤ s.val) && (if semQ s = 0 then sends k true (semO s) else if semQ s = 1 then recvs k true (semO s)
    else if semQ s = 2 then sends k false (semO s) else recvs k false (semO s))

theorem used_send (k : Fin 4) (dir : Bool) (o : Fin 4) (h : Fin 2) : used k (semAt (sendA dir) o h) = sends k dir o := by
  revert k dir o h; decide
theorem used_recv (k : Fin 4) (dir : Bool) (o : Fin 4) (h : Fin 2) : used k (semAt (recvA dir) o h) = recvs k dir o := by
  revert k dir o h; decide

def barDuties (k : Fin 4) : Finset Bool := (if 0 < k.val then {false} else ∅) ∪ (if k.val < 3 then {true} else ∅)

/-- What a barrier unit hands over: the sender's slots that the receiver will fill. -/
def barPay (c : Dev nD) (d : Bool) : sProp 𝕄 :=
  if d then slotsEx (up c) (slotsLE (yc c)) else slotsEx (dn c) (slotsGE (yc c))

def dmaPay (c : Dev nD) (s : DmaSem sig) : sProp 𝕄 :=
  if semQ s = 0 then srcPts m ρ c (semO s) (semH s) (shareOf true)
  else if semQ s = 1 then slotFull m ρ c (semO s) (semH s) fullShare
  else if semQ s = 2 then srcPts m ρ c (semO s) (semH s) (shareOf false)
  else slotFull m ρ c (semO s) (semH s) fullShare

/-- One round per cell: a barrier cell has a unit per neighbour, a used DMA cell one duty worth a block half. -/
def lineRd : Rounds.Schedule (GSem nD τ sig) Bool 𝕄 where
  duties g r :=
    if r = 0 ∧ g.1.2 = .tc then
      match g.2 with
      | .reg b => if b = barS then barDuties (yc g.1.1) else ∅
      | .dma s => if used (yc g.1.1) s = true then {false} else ∅
    else ∅
  unitless _ := False
  amount g _ _ := match g.2 with | .reg _ => 1 | .dma _ => N
  payload g _ d := match g.2 with
    | .reg _ => barPay g.1.1 d
    | .dma s => dmaPay m ρ g.1.1 s
  amount_pos g _ _ _ := by
    cases g.2 with
    | reg _ => exact Nat.one_pos
    | dma _ => exact N_pos

instance lineRd_payload_storable (g : GSem nD τ sig) (r : ℕ) (d : Bool) :
    BI.Storable (upEmb : UEmb _ 𝕄) ((lineRd (F := F) m ρ).payload g r d) := by
  show BI.Storable upEmb (match g.2 with | .reg _ => barPay g.1.1 d | .dma s => dmaPay m ρ g.1.1 s)
  cases g.2 with
  | reg _ => show BI.Storable upEmb (barPay g.1.1 d); unfold barPay; split <;> infer_instance
  | dma s => show BI.Storable upEmb (dmaPay m ρ g.1.1 s); unfold dmaPay; (repeat' split) <;> infer_instance

section Tables
variable (c : Dev nD) (dir : Bool) (o : Fin 4) (h : Fin 2)

omit [FloatOps F] in
theorem duties_bar : (lineRd (F := F) m ρ).duties (barCell c) 0 = barDuties (yc c) := by
  dsimp only [lineRd]; rw [if_pos ⟨rfl, rfl⟩]; exact if_pos rfl
omit [FloatOps F] in
theorem duties_send (hs : sends (yc c) dir o = true) : (lineRd (F := F) m ρ).duties (sendCell c dir o h) 0 = {false} := by
  dsimp only [lineRd]; rw [if_pos ⟨rfl, rfl⟩]; show (if used (yc c) (semAt (sendA dir) o h) = true then _ else _) = _
  rw [used_send, if_pos hs]
omit [FloatOps F] in
theorem duties_recv (hs : recvs (yc c) dir o = true) : (lineRd (F := F) m ρ).duties (recvCell c dir o h) 0 = {false} := by
  dsimp only [lineRd]; rw [if_pos ⟨rfl, rfl⟩]; show (if used (yc c) (semAt (recvA dir) o h) = true then _ else _) = _
  rw [used_recv, if_pos hs]
omit [FloatOps F] in
theorem duties_send_unused (hs : sends (yc c) dir o = false) (r : ℕ) : (lineRd (F := F) m ρ).duties (sendCell c dir o h) r = ∅ := by
  dsimp only [lineRd]; split
  · show (if used (yc c) (semAt (sendA dir) o h) = true then _ else _) = _
    rw [used_send, hs]; rfl
  · rfl
omit [FloatOps F] in
theorem duties_recv_unused (hs : recvs (yc c) dir o = false) (r : ℕ) : (lineRd (F := F) m ρ).duties (recvCell c dir o h) r = ∅ := by
  dsimp only [lineRd]; split
  · show (if used (yc c) (semAt (recvA dir) o h) = true then _ else _) = _
    rw [used_recv, hs]; rfl
  · rfl
omit [FloatOps F] in
theorem duties_later (g : GSem nD τ sig) : ∀ r, 1 ≤ r → (lineRd (F := F) m ρ).duties g r = ∅ :=
  fun r hr => by dsimp only [lineRd]; rw [if_neg fun h => by omega]

omit [FloatOps F] in
theorem amount_bar (d : Bool) : (lineRd (F := F) m ρ).amount (barCell c) 0 d = 1 := rfl
omit [FloatOps F] in
theorem amount_send (d : Bool) : (lineRd (F := F) m ρ).amount (sendCell c dir o h) 0 d = N := rfl
omit [FloatOps F] in
theorem amount_recv (d : Bool) : (lineRd (F := F) m ρ).amount (recvCell c dir o h) 0 d = N := rfl

omit [FloatOps F] in
theorem expect_send (hs : sends (yc c) dir o = true) : (lineRd (F := F) m ρ).expect (sendCell c dir o h) 0 = N := by
  unfold Schedule.expect Schedule.amountOf; rw [duties_send m ρ c dir o h hs, Finset.sum_singleton, amount_send]
omit [FloatOps F] in
theorem expect_recv (hs : recvs (yc c) dir o = true) : (lineRd (F := F) m ρ).expect (recvCell c dir o h) 0 = N := by
  unfold Schedule.expect Schedule.amountOf; rw [duties_recv m ρ c dir o h hs, Finset.sum_singleton, amount_recv]
omit [FloatOps F] in
theorem expect_bar : (lineRd (F := F) m ρ).expect (barCell c) 0 = (barDuties (yc c)).card := by
  unfold Schedule.expect Schedule.amountOf
  rw [duties_bar, Finset.sum_congr rfl fun d _ => amount_bar m ρ c d, Finset.sum_const, smul_eq_mul, mul_one]

omit [FloatOps F] in
theorem payload_bar (d : Bool) : (lineRd (F := F) m ρ).payload (barCell c) 0 d = barPay c d := rfl
omit [FloatOps F] in
theorem payload_send (d : Bool) : (lineRd (F := F) m ρ).payload (sendCell c dir o h) 0 d = srcPts m ρ c o h (shareOf dir) := by
  show dmaPay m ρ c (semAt (sendA dir) o h) = _
  unfold dmaPay; rw [semQ_send, semO_send, semH_send]; cases dir <;> rfl
omit [FloatOps F] in
theorem payload_recv (d : Bool) : (lineRd (F := F) m ρ).payload (recvCell c dir o h) 0 d = slotFull m ρ c o h fullShare := by
  show dmaPay m ρ c (semAt (recvA dir) o h) = _
  unfold dmaPay; rw [semQ_recv, semO_recv, semH_recv]; cases dir <;> rfl

omit [FloatOps F] in
theorem rest_send (hs : sends (yc c) dir o = true) :
    bigSep ((lineRd (F := F) m ρ).duties (sendCell c dir o h) 0 \ ∅) (fun d => (lineRd (F := F) m ρ).payload (sendCell c dir o h) 0 d) = srcPts m ρ c o h (shareOf dir) := by
  rw [Finset.sdiff_empty, duties_send m ρ c dir o h hs, bigSep_singleton, payload_send]
omit [FloatOps F] in
theorem rest_recv (hs : recvs (yc c) dir o = true) :
    bigSep ((lineRd (F := F) m ρ).duties (recvCell c dir o h) 0 \ ∅) (fun d => (lineRd (F := F) m ρ).payload (recvCell c dir o h) 0 d) = slotFull m ρ c o h fullShare := by
  rw [Finset.sdiff_empty, duties_recv m ρ c dir o h hs, bigSep_singleton, payload_recv]

end Tables

end Cert.KernelIdeal.Line

end
-- ==== Proof.Ghost.lean ====
/- What each device owes in program order, the levels that order the waits, and the state a body starts from. -/
import proofs.«900692_g7700000000000693_dist_ag_v7x_xyz2x4x4_y_m256_n256_f32_1_alg».proof.Proof.Sched

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev J : Type := Bool × Bool × Fin 4 × Fin 2
abbrev dsem (j : J) : DmaSem sig := cond j.1 (semAt (sendA j.2.1) j.2.2.1 j.2.2.2) (semAt (recvA j.2.1) j.2.2.1 j.2.2.2)
abbrev dcell (c : Dev nD) (j : J) : GSem nD τ sig := ((c : Thread nD τ), .dma (dsem j))
abbrev osemJ : J → SemLoc sig := fun j => .dma (dsem j)
abbrev kcell (ck : Dev nD × Option J) : GSem nD τ sig := match ck.2 with | none => barCell ck.1 | some j => dcell ck.1 j

theorem dsem_injective : Function.Injective dsem := by decide

/-- The tallies of a list of (cell, amount); the head is paid first. -/
def Ol (l : List (GSem nD τ sig × ℕ)) : CellTallies nD τ sig Unit := (l.map fun x => tallyAt x.1 () x.2).sum
theorem Ol_nil : Ol [] = 0 := rfl
theorem Ol_cons (x : GSem nD τ sig × ℕ) (l : List (GSem nD τ sig × ℕ)) : Ol (x :: l) = Ol l + tallyAt x.1 () x.2 := by
  unfold Ol; rw [List.map_cons, List.sum_cons, add_comm]

/-- The transfers of a place in program order: (direction, origin, half). -/
def sendOrder (k : Fin 4) : List (Bool × Fin 4 × Fin 2) :=
  match k with
  | 0 => [(true, 0, 0), (true, 0, 1)]
  | 1 => [(true, 1, 0), (false, 1, 0), (true, 1, 1), (false, 1, 1), (true, 0, 0), (false, 2, 0), (true, 0, 1), (false, 2, 1), (false, 3, 0), (false, 3, 1)]
  | 2 => [(true, 2, 0), (false, 2, 0), (true, 2, 1), (false, 2, 1), (true, 1, 0), (false, 3, 0), (true, 1, 1), (false, 3, 1), (true, 0, 0), (true, 0, 1)]
  | 3 => [(false, 3, 0), (false, 3, 1)]

theorem mem_sendOrder (k : Fin 4) (p : Bool × Fin 4 × Fin 2) : p ∈ sendOrder k ↔ sends k p.1 p.2.1 = true := by
  revert k p; decide

def arriveOwes (c : Dev nD) (l : List (Bool × Fin 4 × Fin 2)) : List (GSem nD τ sig × ℕ) :=
  l.map fun p => (recvCell (nbr c p.1) p.1 p.2.1 p.2.2, N)
def barOwes (c : Dev nD) : List (GSem nD τ sig × ℕ) :=
  (if 0 < (yc c).val then [(barCell (dn c), 1)] else []) ++ (if (yc c).val < 3 then [(barCell (up c), 1)] else [])

def oweList (c : Dev nD) : List (GSem nD τ sig × ℕ) := barOwes c ++ arriveOwes c (sendOrder (yc c))
def O₀ (c : Dev nD) : CellTallies nD τ sig Unit := Ol (oweList c)

def L (g : GSem nD τ sig) : Finset Unit := if g.1.2 = .tc then {()} else ∅
/-- Barrier cells at 1, a receive cell at 2 + the distance its half has travelled: a waiting device owes only halves that travel farther. -/
def lv (g : GSem nD τ sig) (_ : Unit) : ℕ :=
  match g.2 with
  | .reg _ => 1
  | .dma s => if semQ s = 1 then 2 + ((yc g.1.1).val - (semO s).val) else if semQ s = 3 then 2 + ((semO s).val - (yc g.1.1).val) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (dir : Bool) (o : Fin 4) (h : Fin 2) : lv (sendCell c dir o h) () = 0 := by
  show (if semQ (semAt (sendA dir) o h) = 1 then _ else if semQ (semAt (sendA dir) o h) = 3 then _ else 0) = 0
  rw [semQ_send]; cases dir <;> rfl
theorem lv_recv (c : Dev nD) (dir : Bool) (o : Fin 4) (h : Fin 2) :
    lv (recvCell c dir o h) () = 2 + cond dir ((yc c).val - o.val) (o.val - (yc c).val) := by
  show (if semQ (semAt (recvA dir) o h) = 1 then 2 + ((yc c).val - (semO (semAt (recvA dir) o h)).val)
    else if semQ (semAt (recvA dir) o h) = 3 then 2 + ((semO (semAt (recvA dir) o h)).val - (yc c).val) else 0) = _
  rw [semQ_recv, semO_recv]; cases dir <;> rfl

theorem Ol_pos {l : List (GSem nD τ sig × ℕ)} {g : GSem nD τ sig} {u : Unit} (h : 0 < Ol l g u) : ∃ x ∈ l, x.1 = g := by
  induction l with
  | nil => exact absurd h (Nat.lt_irrefl 0)
  | cons x l ih =>
    rw [Ol_cons] at h
    rcases Pipeline.add_pos_cases h with h | h
    · obtain ⟨y, hy, e⟩ := ih h; exact ⟨y, List.mem_cons_of_mem _ hy, e⟩
    · rw [tallyAt_apply] at h
      by_cases hx : g = x.1 ∧ u = ()
      · exact ⟨x, List.mem_cons_self, hx.1.symm⟩
      · rw [if_neg hx] at h; exact absurd h (Nat.lt_irrefl 0)

omit [FloatOps F] in
theorem mayWait_list (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (Ol l) :=
  Pipeline.mayWait_of_levAts (by rw [L_tc]; exact Finset.mem_singleton_self _) fun g i hg => by
    obtain ⟨x, hx, rfl⟩ := Ol_pos hg
    exact ⟨by unfold L; rw [if_pos (h x hx).1]; exact Finset.mem_singleton_self _, (h x hx).2⟩

/-- The persistent part: every cell's invariant, and round 0 reached. -/
def records (K : Dev nD × Option J → ℕ) : sProp 𝕄 :=
  iprop((bigSep Finset.univ fun ck : Dev nD × Option J => cellInv ER (lineRd m ρ) (K ck) (kcell ck))
    ∗ bigSep Finset.univ fun ck : Dev nD × Option J => reached ER (kcell ck) 0)

instance records_persistent (K : Dev nD × Option J → ℕ) : BI.Persistent (records m ρ K) := by unfold records; infer_instance

omit [FloatOps F] in
theorem inv_at' (K : Dev nD × Option J → ℕ) (ck : Dev nD × Option J) :
    (bigSep Finset.univ fun ck : Dev nD × Option J => (cellInv ER (lineRd m ρ) (K ck) (kcell ck) : sProp 𝕄)) ⊢ cellInv ER (lineRd m ρ) (K ck) (kcell ck) :=
  bigSep_elim (Finset.mem_univ ck)
omit [FloatOps F] in
theorem reached_at' (ck : Dev nD × Option J) :
    (bigSep Finset.univ fun ck : Dev nD × Option J => (reached ER (kcell ck) 0 : sProp 𝕄)) ⊢ reached ER (kcell ck) 0 :=
  bigSep_elim (Finset.mem_univ ck)
omit [FloatOps F] in
theorem inv_at (K : Dev nD × Option J → ℕ) (ck : Dev nD × Option J) : records m ρ K ⊢ cellInv ER (lineRd m ρ) (K ck) (kcell ck) := by
  unfold records; iintro ⟨H, -⟩; iapply (inv_at' m ρ K ck); iexact H
omit [FloatOps F] in
theorem reached_at (K : Dev nD × Option J → ℕ) (ck : Dev nD × Option J) : records m ρ K ⊢ reached ER (kcell ck) 0 := by
  unfold records; iintro ⟨-, H⟩; iapply (reached_at' (F := F) ck); iexact H

def payToks (c : Dev nD) : sProp 𝕄 :=
  iprop(dutyTok ER (barCell (dn c)) 0 true ∗ dutyTok ER (barCell (up c)) 0 false
    ∗ bigSep Finset.univ fun p : Bool × Fin 4 × Fin 2 =>
        iprop(dutyTok ER (sendCell c p.1 p.2.1 p.2.2) 0 false ∗ dutyTok ER (recvCell (nbr c p.1) p.1 p.2.1 p.2.2) 0 false))

def positions (c : Dev nD) : sProp 𝕄 :=
  iprop(atPos ER (barCell c) 0 ∅ 0 ∗ bigSep Finset.univ fun j : J => atPos ER (dcell c j) 0 ∅ 0)

def ghost (K : Dev nD × Option J → ℕ) (c : Dev nD) : sProp 𝕄 := iprop(records m ρ K ∗ positions c ∗ payToks c)

def creds (c : Dev nD) : sProp 𝕄 :=
  iprop(cred (tallyAt (barCell c) () (barDuties (yc c)).card)
    ∗ bigSep Finset.univ fun p : Bool × Fin 4 × Fin 2 => cred (tallyAt (recvCell c p.1 p.2.1 p.2.2) () (if recvs (yc c) p.1 p.2.1 = true then N else 0)))

def start (c : Dev nD) : sProp 𝕄 := iprop((∃ K, ghost m ρ K c) ∗ creds c ∗ levAts L lv)

def Φ₀ (c : Dev nD) : sProp 𝕄 := iprop(start m ρ c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ bigSep Finset.univ fun j : J => semVal (dcell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.KernelIdeal.Line

end
-- ==== Proof.Mem.lean ====
/- The buffers cut into the pieces the transfers move: shares, halves and slots, what a landing leaves, and the rows of the result known to be right. -/
import proofs.«900692_g7700000000000693_dist_ag_v7x_xyz2x4x4_y_m256_n256_f32_1_alg».proof.Proof.Sched
import Idealize.ShloMosaic.Rules.PointsTo
import Idealize.ShloMosaic.Lib.Pipeline.Value
import Idealize.ShloMosaic.Lib.ValueLayout

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem slotPts_share (c : Dev nD) (o : Fin 4) (h : Fin 2) (q : PosShare TreeShare)
    (f : Buf (Elt F) ((slotM o h).view.loc (c : Thread nD τ))) :
    slotPts (F := F) c o h q f ⊣⊢ iprop(slotPts c o h q.left f ∗ slotPts c o h q.right f) :=
  by
  unfold slotPts; exact pointsTo_share (PosShare.mem_left_op_right q)

theorem halfPts_share (c : Dev nD) (h : Fin 2) (q : PosShare TreeShare) :
    halfPts m ρ c h q ⊣⊢ iprop(halfPts m ρ c h q.left ∗ halfPts m ρ c h q.right) :=
  by
  unfold halfPts; exact pointsTo_share (PosShare.mem_left_op_right q)

theorem x_share (c : Dev nD) (q : PosShare TreeShare) :
    (((c : Thread nD τ).loc cc0_stg0_0) ↦{q} xstg m ρ c : sProp 𝕄)
      ⊣⊢ iprop((((c : Thread nD τ).loc cc0_stg0_0) ↦{q.left} xstg m ρ c) ∗ (((c : Thread nD τ).loc cc0_stg0_0) ↦{q.right} xstg m ρ c)) :=
  pointsTo_share (PosShare.mem_left_op_right q)

theorem mem_half (h : Fin 2) (i : S256x256.Idx) :
    i ∈ (halfM h).view.set ↔ 128 * h.val ≤ (i 0).val ∧ (i 0).val < 128 * h.val + 128 :=
  by
  rw [show (halfM h).view.set = (halfR h).set from View.set_slice_whole _ _, Rect.mem_set_unit, Fin.forall_fin_two]
  have h1 : (i 1).val < 256 := (i 1).isLt
  show (128 * h.val ≤ (i 0).val ∧ (i 0).val < 128 * h.val + 128) ∧ (0 ≤ (i 1).val ∧ (i 1).val < 0 + 256) ↔ _
  omega

theorem x_halves (c : Dev nD) (q : PosShare TreeShare) :
    (((c : Thread nD τ).loc cc0_stg0_0) ↦{q} xstg m ρ c : sProp 𝕄) ⊣⊢ iprop(halfPts m ρ c 0 q ∗ halfPts m ρ c 1 q) :=
  by
  have hd : Disjoint (halfM 0).view.set (halfM 1).view.set := by
    rw [Finset.disjoint_left]; intro i h0 h1
    have a0 := (mem_half 0 i).mp h0; have a1 := (mem_half 1 i).mp h1
    simp only [Fin.val_zero, Fin.val_one] at a0 a1; omega
  have hu : (halfM 0).view.set ∪ (halfM 1).view.set = Finset.univ := by
    ext i
    simp only [Finset.mem_union, Finset.mem_univ, iff_true]
    have h0 : (i 0).val < 256 := (i 0).isLt
    rcases Nat.lt_or_ge (i 0).val 128 with hlt | hge
    · exact Or.inl ((mem_half 0 i).mpr (by simp only [Fin.val_zero]; omega))
    · exact Or.inr ((mem_half 1 i).mpr (by simp only [Fin.val_one]; omega))
  have key : (((c : Thread nD τ).loc cc0_stg0_0) ↦[(halfM 0).view.set ∪ (halfM 1).view.set]{q} xstg m ρ c : sProp 𝕄)
      ⊣⊢ iprop((((c : Thread nD τ).loc cc0_stg0_0) ↦[(halfM 0).view.set]{q} xstg m ρ c)
          ∗ (((c : Thread nD τ).loc cc0_stg0_0) ↦[(halfM 1).view.set]{q} xstg m ρ c)) := pointsTo_union hd
  rw [hu] at key
  unfold halfPts
  exact key

theorem mem_slot (o : Fin 4) (h : Fin 2) (i : S4x256x256.Idx) :
    i ∈ (slotM o h).view.set ↔ (i 0).val = o.val ∧ 128 * h.val ≤ (i 1).val ∧ (i 1).val < 128 * h.val + 128 :=
  by
  rw [show (slotM o h).view.set = (slotR o h).set from (View.set_reshape _ _).trans (View.set_slice_whole _ _)]
  rw [Rect.mem_set_unit]
  have h2 : (i 2).val < 256 := (i 2).isLt
  constructor
  · intro H
    have H0 : o.val ≤ (i 0).val ∧ (i 0).val < o.val + 1 := H 0
    have H1 : 128 * h.val ≤ (i 1).val ∧ (i 1).val < 128 * h.val + 128 := H 1
    omega
  · intro H a
    match a with
    | ⟨0, _⟩ => show o.val ≤ (i 0).val ∧ (i 0).val < o.val + 1; omega
    | ⟨1, _⟩ => show 128 * h.val ≤ (i 1).val ∧ (i 1).val < 128 * h.val + 128; omega
    | ⟨2, _⟩ => show 0 ≤ (i 2).val ∧ (i 2).val < 0 + 256; omega

abbrev slotSet (p : Fin 4 × Fin 2) : Finset S4x256x256.Idx := (slotM p.1 p.2).view.set

theorem slot_disjoint (p p' : Fin 4 × Fin 2) (hne : p ≠ p') : Disjoint (slotSet p) (slotSet p') :=
  by
  rw [Finset.disjoint_left]; intro i h0 h1
  have a0 := (mem_slot p.1 p.2 i).mp h0; have a1 := (mem_slot p'.1 p'.2 i).mp h1
  have := p.2.isLt; have := p'.2.isLt
  exact hne (Prod.ext (Fin.ext (by omega)) (Fin.ext (by omega)))

theorem slot_cover : (Finset.univ : Finset (Fin 4 × Fin 2)).biUnion slotSet = Finset.univ :=
  by
  ext i
  simp only [Finset.mem_biUnion, Finset.mem_univ, true_and, iff_true]
  have h0 : (i 0).val < 4 := (i 0).isLt
  have h1 : (i 1).val < 256 := (i 1).isLt
  have hb : (i 1).val / 128 < 2 := by omega
  refine ⟨(⟨(i 0).val, h0⟩, ⟨(i 1).val / 128, hb⟩), ?_⟩
  exact (mem_slot ⟨(i 0).val, h0⟩ ⟨(i 1).val / 128, hb⟩ i).mpr ⟨rfl, Nat.mul_div_le _ _, by
    show (i 1).val < 128 * ((i 1).val / 128) + 128; omega⟩

theorem slots_univ : (Finset.univ : Finset (Fin 4 × Fin 2))
    = insert (0, 0) (insert (0, 1) (insert (1, 0) (insert (1, 1) (insert (2, 0) (insert (2, 1) (insert (3, 0) {(3, 1)})))))) :=
  by decide

theorem bigSep_slots (Φ : Fin 4 × Fin 2 → sProp 𝕄) :
    bigSep (Finset.univ : Finset (Fin 4 × Fin 2)) Φ
      = iprop(Φ (0, 0) ∗ Φ (0, 1) ∗ Φ (1, 0) ∗ Φ (1, 1) ∗ Φ (2, 0) ∗ Φ (2, 1) ∗ Φ (3, 0) ∗ Φ (3, 1)) :=
  by
  rw [slots_univ, bigSep_insert (by decide), bigSep_insert (by decide), bigSep_insert (by decide), bigSep_insert (by decide),
    bigSep_insert (by decide), bigSep_insert (by decide), bigSep_insert (by decide), bigSep_singleton]
  rfl

/-- The slots are disjoint and cover the receive buffer. -/
theorem comm_split (c : Dev nD) (f : Buf (Elt F) ((c : Thread nD τ).loc cc0_scratch0)) :
    (((c : Thread nD τ).loc cc0_scratch0) ↦{fullShare} f : sProp 𝕄)
      ⊢ iprop(slotPts c 0 0 fullShare f ∗ slotPts c 0 1 fullShare f ∗ slotPts c 1 0 fullShare f ∗ slotPts c 1 1 fullShare f
          ∗ slotPts c 2 0 fullShare f ∗ slotPts c 2 1 fullShare f ∗ slotPts c 3 0 fullShare f ∗ slotPts c 3 1 fullShare f) :=
  by
  have hK : (((c : Thread nD τ).loc cc0_scratch0) ↦[(Finset.univ : Finset (Fin 4 × Fin 2)).biUnion slotSet]{fullShare} f : sProp 𝕄)
      = bigSep (Finset.univ : Finset (Fin 4 × Fin 2)) fun p => ((c : Thread nD τ).loc cc0_scratch0) ↦[slotSet p]{fullShare} f :=
    pointsTo_biUnion _ _ (fun t _ t' _ hne => slot_disjoint t t' hne)
  rw [slot_cover] at hK
  rw [hK, bigSep_slots]
  unfold slotPts
  exact .rfl

theorem slots_join_aux (c : Dev nD) (S : Finset (Fin 4 × Fin 2)) :
    bigSep S (fun p => (iprop(∃ f, ((c : Thread nD τ).loc cc0_scratch0) ↦[slotSet p]{fullShare} f) : sProp 𝕄))
      ⊢ (iprop(∃ g, ((c : Thread nD τ).loc cc0_scratch0) ↦[S.biUnion slotSet]{fullShare} g) : sProp 𝕄) :=
  by
  classical
  induction S using Finset.induction_on with
  | empty =>
    iintro -
    iexists (fun _ => default)
    rw [Finset.biUnion_empty, pointsTo_empty]; iempintro
  | insert t S ht ih =>
    rw [bigSep_insert ht, Finset.biUnion_insert]
    have hd : Disjoint (slotSet t) (S.biUnion slotSet) :=
      (Finset.disjoint_biUnion_right _ _ _).mpr fun t' ht' => slot_disjoint t t' (fun e => ht (e ▸ ht'))
    refine (show iprop((∃ f, ((c : Thread nD τ).loc cc0_scratch0) ↦[slotSet t]{fullShare} f)
        ∗ bigSep S (fun p => (iprop(∃ f, ((c : Thread nD τ).loc cc0_scratch0) ↦[slotSet p]{fullShare} f) : sProp 𝕄))) ⊢ _ from ?_)
    iintro ⟨⟨%f, Ht⟩, HS⟩
    ihave H := ih $$ HS
    icases H with ⟨%g, HS⟩
    iexists (S.biUnion slotSet).piecewise g f
    iapply (pointsTo_join hd)
    isplitl [Ht]; · iexact Ht
    iexact HS

theorem comm_join (c : Dev nD) :
    iprop((∃ f, slotPts (F := F) c 0 0 fullShare f) ∗ (∃ f, slotPts c 0 1 fullShare f) ∗ (∃ f, slotPts c 1 0 fullShare f)
        ∗ (∃ f, slotPts c 1 1 fullShare f) ∗ (∃ f, slotPts c 2 0 fullShare f) ∗ (∃ f, slotPts c 2 1 fullShare f)
        ∗ (∃ f, slotPts c 3 0 fullShare f) ∗ (∃ f, slotPts c 3 1 fullShare f))
      ⊢ (iprop(∃ f : Buf (Elt F) ((c : Thread nD τ).loc cc0_scratch0), ((c : Thread nD τ).loc cc0_scratch0) ↦{fullShare} f) : sProp 𝕄) :=
  by
  have h1 := slots_join_aux (F := F) c Finset.univ
  rw [slot_cover, bigSep_slots] at h1
  unfold slotPts
  exact h1

theorem slot_load_sub (o : Fin 4) (h : Fin 2) :
    (cM : Memref sig .tc .vmem S4x256x256 .f32).view.setOn ((slotR o h).toLoadRect).set ⊆ (slotM o h).view.set :=
  by
  rw [show (slotM o h).view.set = (slotR o h).set from (View.set_reshape _ _).trans (View.set_slice_whole _ _)]
  intro i hi
  obtain ⟨x, hx, rfl⟩ := Finset.mem_map.mp hi
  exact hx

theorem x_load_sub (r : LoadRect S256x256) :
    (xM : Memref sig .tc .vmem S256x256 .f32).view.setOn r.set ⊆ Finset.univ :=
  Finset.subset_univ _

theorem o_load_sub (r : LoadRect S1024x256) :
    (oM : Memref sig .tc .vmem S1024x256 .f32).view.setOn r.set ⊆ Finset.univ :=
  Finset.subset_univ _

theorem xstg_congr (d d' : Dev nD) (a a' : S256x256.Idx) (hd : d = d') (ha : ∀ k, (a k).val = (a' k).val) :
    xstg m ρ d a = xstg m ρ d' a' :=
  by
  subst hd; exact congrArg _ (funext fun k => Fin.ext (ha k))

theorem read_slot (c : Dev nD) (o : Fin 4) (h : Fin 2) :
    (cM : Memref sig .tc .vmem S4x256x256 .f32).view.readAt (Elt F) (slotR o h).toLoadRect (commVal m ρ c)
      = fun y => xstg m ρ (devAt c o)
          (ix2 (n0 := 256) (n1 := 256) ⟨128 * h.val + (y 1).val, by
            have h1 : (y 1).val < 128 := (y 1).isLt
            have := h.isLt; omega⟩ (y 2)) :=
  by
  funext y
  have hy0 : (y 0).val < 1 := (y 0).isLt
  show commVal m ρ c ((slotR o h).toLoadRect.idx y) = _
  unfold commVal
  exact xstg_congr m ρ _ _ _ _
    (congrArg (devAt c) (Fin.ext (by show o.val + 1 * (y 0).val = o.val; omega)))
    (fun k => match k with
      | ⟨0, _⟩ => by show 128 * h.val + 1 * (y 1).val = 128 * h.val + (y 1).val; omega
      | ⟨1, _⟩ => by show 0 + 1 * (y 2).val = (y 2).val; omega)

theorem read_x (c : Dev nD) :
    (xM : Memref sig .tc .vmem S256x256 .f32).view.readAt (Elt F)
        (Rect.unit (s := S256x256) ![0, 0] S256x256.size inb_S256x256_S256x256_0_0).toLoadRect (xstg m ρ c)
      = xstg m ρ c :=
  Memref.readAt_unit_zero (Elt F) cc0_stg0_0 (by funext a; match a with | ⟨0, _⟩ => rfl | ⟨1, _⟩ => rfl) _ (xstg m ρ c)

theorem slot_read (c : Dev nD) (o : Fin 4) (h : Fin 2) (a : Fin 128) (b : Fin 256) :
    (slotM o h).view.read (Elt F) (commVal m ρ c) (ix2 a b)
      = xstg m ρ (devAt c o) (ix2 (n0 := 256) (n1 := 256) ⟨128 * h.val + a.val, by have := a.isLt; have := h.isLt; omega⟩ b) :=
  by
  have e := reshapeEquiv_ix2_1ab (a := 128) (b := 256) shapeCasts_S1x128x256_S128x256 a b
  refine (congrArg ((cM : Memref sig .tc .vmem S4x256x256 .f32).view.readAt (Elt F) (slotR o h).toLoadRect (commVal m ρ c)) e).trans ?_
  exact congrFun (read_slot m ρ c o h) (ix3 (⟨0, Nat.one_pos⟩ : Fin 1) a b)

theorem slot_fill (c' : Dev nD) (o : Fin 4) (h : Fin 2) (fd : Buf (Elt F) ((slotM o h).view.loc (c' : Thread nD τ)))
    (g : (cc0_scratch0 : Ref sig .tc).ty.Contents (Elt F)) :
    slotPts c' o h fullShare ((slotM o h).view.write (Elt F) fd ((slotM o h).view.read (Elt F) g) Finset.univ)
      = slotPts c' o h fullShare g :=
  by
  unfold slotPts
  refine pointsTo_congr fun i hi => ?_
  rw [View.write_read_eq_piecewise]
  exact Finset.piecewise_eq_of_mem _ _ _ hi

/-- Forwarding a filled slot fills the neighbour's: both lie on one line. -/
theorem landing_fwd (c c' : Dev nD) (hl : devAt c' = devAt c) (o : Fin 4) (h : Fin 2)
    (fd : Buf (Elt F) ((slotM o h).view.loc (c' : Thread nD τ))) :
    slotPts c' o h fullShare ((slotM o h).view.write (Elt F) fd ((slotM o h).view.read (Elt F) (commVal m ρ c)) Finset.univ)
      = slotFull m ρ c' o h fullShare :=
  by
  have hc : commVal m ρ c = commVal m ρ c' := by unfold commVal; rw [hl]
  rw [hc]; unfold slotFull
  exact slot_fill c' o h fd _

/-- The own half lands as the origin's block in the neighbour's slot. -/
theorem landing_own (c c' : Dev nD) (hl : devAt c' (yc c) = c) (h : Fin 2)
    (fd : Buf (Elt F) ((slotM (yc c) h).view.loc (c' : Thread nD τ))) :
    slotPts c' (yc c) h fullShare ((slotM (yc c) h).view.write (Elt F) fd ((halfM h).view.read (Elt F) (xstg m ρ c)) Finset.univ)
      = slotFull m ρ c' (yc c) h fullShare :=
  by
  have hw : (halfM h).view.read (Elt F) (xstg m ρ c) = (slotM (yc c) h).view.read (Elt F) (commVal m ρ c') := by
    funext x
    obtain ⟨a, b, rfl⟩ : ∃ (a : Fin 128) (b : Fin 256), x = ix2 a b := ⟨x 0, x 1, eq_ix2 x⟩
    rw [slot_read, hl]
    show xstg m ρ c ((halfR h).emb (ix2 a b)) = _
    exact xstg_congr m ρ _ _ _ _ rfl (fun k => match k with
      | ⟨0, _⟩ => by show 128 * h.val + 1 * a.val = 128 * h.val + a.val; omega
      | ⟨1, _⟩ => by show 0 + 1 * b.val = b.val; omega)
  rw [hw]; unfold slotFull
  exact slot_fill c' (yc c) h fd _

/-- The bands of 128 rows in `T` hold the gathered rows. -/
def okRows (c : Dev nD) (f : (cc0_stg1_0 : Ref sig .tc).ty.Contents (Elt F)) (T : Finset (Fin 8)) : Prop :=
  ∀ i : (cc0_stg1_0 : Ref sig .tc).ty.Idx,
    (⟨(i 0).val / 128, by have h0 : (i 0).val < 1024 := (i 0).isLt; omega⟩ : Fin 8) ∈ T → f i = gathered m ρ c i

abbrev band (i : S1024x256.Idx) : Fin 8 := ⟨(i 0).val / 128, by have h0 : (i 0).val < 1024 := (i 0).isLt; omega⟩

theorem ok_empty (c : Dev nD) (f : (cc0_stg1_0 : Ref sig .tc).ty.Contents (Elt F)) : okRows m ρ c f ∅ :=
  fun i hi => absurd hi (Finset.notMem_empty _)

theorem ok_store_aux (c : Dev nD) (f : (cc0_stg1_0 : Ref sig .tc).ty.Contents (Elt F)) (T T' B : Finset (Fin 8))
    (hf : okRows m ρ c f T) (R : Rect S1024x256) (w : R.shape.Idx → Elt F .f32)
    (hT' : ∀ j ∈ T', j ∈ B ∨ j ∈ T)
    (hit : ∀ i : S1024x256.Idx, band i ∈ B → ∃ x, R.emb x = i ∧ w x = gathered m ρ c i)
    (miss : ∀ i : S1024x256.Idx, band i ∉ B → i ∉ R.set) :
    okRows m ρ c (((oM : Memref sig .tc .vmem S1024x256 .f32).access R : View sig .tc _ _ _).write (Elt F) f w Finset.univ) T' :=
  by
  intro i hi
  by_cases hB : band i ∈ B
  · obtain ⟨x, rfl, hx⟩ := hit i hB
    have hwr := View.write_emb_of_mem (v := ((oM : Memref sig .tc .vmem S1024x256 .f32).access R : View sig .tc _ _ _))
      (Val := Elt F) f w (M := Finset.univ) (x := x) (Finset.mem_univ _)
    exact hwr.trans ((cast_eq _ _).trans hx)
  · have hT : band i ∈ T := (hT' _ hi).resolve_left hB
    have hs : ((oM : Memref sig .tc .vmem S1024x256 .f32).access R : View sig .tc _ _ _).setOn Finset.univ = R.set :=
      View.set_slice_whole _ _
    rw [View.write_of_not_mem _ _ _ (by rw [hs]; exact miss i hB)]
    exact hf i hT

theorem ok_store_half (c : Dev nD) (o : Fin 4) (h : Fin 2) (f : (cc0_stg1_0 : Ref sig .tc).ty.Contents (Elt F)) (T : Finset (Fin 8))
    (hf : okRows m ρ c f T)
    (inb : ∀ a, (![256 * o.val + 128 * h.val, 0] : Fin 2 → Nat) a + S128x256.size a ≤ S1024x256.size a) :
    okRows m ρ c
      (((oM : Memref sig .tc .vmem S1024x256 .f32).access (Rect.unit (s := S1024x256) ![256 * o.val + 128 * h.val, 0] S128x256.size inb)
          : View sig .tc _ _ _).write (Elt F) f
        (shapeCast S128x256 ((cM : Memref sig .tc .vmem S4x256x256 .f32).view.readAt (Elt F) (slotR o h).toLoadRect (commVal m ρ c))
          shapeCasts_S1x128x256_S128x256) Finset.univ)
      (insert ⟨2 * o.val + h.val, by have := o.isLt; have := h.isLt; omega⟩ T) :=
  by
  have ho := o.isLt; have hh := h.isLt
  refine ok_store_aux m ρ c f T _ {⟨2 * o.val + h.val, by omega⟩} hf _ _
    (fun j hj => (Finset.mem_insert.mp hj).imp (fun e => Finset.mem_singleton.mpr e) id) ?_ ?_
  · intro i hi
    have hb : (i 0).val / 128 = 2 * o.val + h.val := congrArg Fin.val (Finset.mem_singleton.mp hi)
    have h0 : (i 0).val < 1024 := (i 0).isLt
    have h1 : (i 1).val < 256 := (i 1).isLt
    refine ⟨ix2 (n0 := 128) (n1 := 256) ⟨(i 0).val - (256 * o.val + 128 * h.val), by omega⟩ ⟨(i 1).val, h1⟩, ?_, ?_⟩
    · funext k; apply Fin.ext
      match k with
      | ⟨0, _⟩ => show 256 * o.val + 128 * h.val + 1 * ((i 0).val - (256 * o.val + 128 * h.val)) = (i 0).val; omega
      | ⟨1, _⟩ => show 0 + 1 * (i 1).val = (i 1).val; omega
    · refine (slot_read m ρ c o h _ _).trans ?_
      unfold gathered
      exact xstg_congr m ρ _ _ _ _ (congrArg (devAt c) (Fin.ext (by show o.val = (i 0).val / 256; omega)))
        (fun k => match k with
          | ⟨0, _⟩ => by show 128 * h.val + ((i 0).val - (256 * o.val + 128 * h.val)) = (i 0).val % 256; omega
          | ⟨1, _⟩ => rfl)
  · intro i hi hmem
    rw [Rect.mem_set_unit] at hmem
    have H0 : 256 * o.val + 128 * h.val ≤ (i 0).val ∧ (i 0).val < 256 * o.val + 128 * h.val + 128 := hmem 0
    exact hi (Finset.mem_singleton.mpr (Fin.ext (by show (i 0).val / 128 = 2 * o.val + h.val; omega)))

theorem ok_store_own (c : Dev nD) (f : (cc0_stg1_0 : Ref sig .tc).ty.Contents (Elt F)) (T : Finset (Fin 8))
    (hf : okRows m ρ c f T)
    (inb : ∀ a, (![256 * (yc c).val, 0] : Fin 2 → Nat) a + S256x256.size a ≤ S1024x256.size a) :
    okRows m ρ c
      (((oM : Memref sig .tc .vmem S1024x256 .f32).access (Rect.unit (s := S1024x256) ![256 * (yc c).val, 0] S256x256.size inb)
          : View sig .tc _ _ _).write (Elt F) f
        (shapeCast S256x256 (xstg m ρ c) shapeCasts_S256x256_S256x256) Finset.univ)
      (insert ⟨2 * (yc c).val, by have := (yc c).isLt; omega⟩ (insert ⟨2 * (yc c).val + 1, by have := (yc c).isLt; omega⟩ T)) :=
  by
  have hk := (yc c).isLt
  refine ok_store_aux m ρ c f T _ {⟨2 * (yc c).val, by omega⟩, ⟨2 * (yc c).val + 1, by omega⟩} hf _ _
    (fun j hj => by
      rcases Finset.mem_insert.mp hj with e | hj
      · exact Or.inl (Finset.mem_insert.mpr (Or.inl e))
      · rcases Finset.mem_insert.mp hj with e | hj
        · exact Or.inl (Finset.mem_insert.mpr (Or.inr (Finset.mem_singleton.mpr e)))
        · exact Or.inr hj) ?_ ?_
  · intro i hi
    have hb : (i 0).val / 128 = 2 * (yc c).val ∨ (i 0).val / 128 = 2 * (yc c).val + 1 := by
      rcases Finset.mem_insert.mp hi with e | e
      · exact Or.inl (congrArg Fin.val e)
      · exact Or.inr (congrArg Fin.val (Finset.mem_singleton.mp e))
    have h0 : (i 0).val < 1024 := (i 0).isLt
    have h1 : (i 1).val < 256 := (i 1).isLt
    refine ⟨ix2 (n0 := 256) (n1 := 256) ⟨(i 0).val - 256 * (yc c).val, by omega⟩ ⟨(i 1).val, h1⟩, ?_, ?_⟩
    · funext k; apply Fin.ext
      match k with
      | ⟨0, _⟩ => show 256 * (yc c).val + 1 * ((i 0).val - 256 * (yc c).val) = (i 0).val; omega
      | ⟨1, _⟩ => show 0 + 1 * (i 1).val = (i 1).val; omega
    · refine (congrFun (shapeCast_self (s := S256x256) (xstg m ρ c) shapeCasts_S256x256_S256x256) _).trans ?_
      unfold gathered
      exact xstg_congr m ρ _ _ _ _
        ((devAt_yc c).symm.trans (congrArg (devAt c) (Fin.ext (by show (yc c).val = (i 0).val / 256; omega))))
        (fun k => match k with
          | ⟨0, _⟩ => by show (i 0).val - 256 * (yc c).val = (i 0).val % 256; omega
          | ⟨1, _⟩ => rfl)
  · intro i hi hmem
    rw [Rect.mem_set_unit] at hmem
    have H0 : 256 * (yc c).val ≤ (i 0).val ∧ (i 0).val < 256 * (yc c).val + 256 := hmem 0
    have h0 : (i 0).val < 1024 := (i 0).isLt
    refine hi ?_
    rcases Nat.lt_or_ge (i 0).val (256 * (yc c).val + 128) with hlt | hge
    · exact Finset.mem_insert.mpr (Or.inl (Fin.ext (by show (i 0).val / 128 = 2 * (yc c).val; omega)))
    · exact Finset.mem_insert.mpr (Or.inr (Finset.mem_singleton.mpr (Fin.ext (by show (i 0).val / 128 = 2 * (yc c).val + 1; omega))))

/-- All eight bands right: the buffer is the gathered array. -/
theorem ok_all (c : Dev nD) (f : (cc0_stg1_0 : Ref sig .tc).ty.Contents (Elt F)) (hf : okRows m ρ c f Finset.univ) :
    f = gathered m ρ c :=
  funext fun i => hf i (Finset.mem_univ _)

/-- info: 'Cert.KernelIdeal.Line.ok_all' depends on axioms: [propext, Classical.choice, Quot.sound] -/
#guard_msgs in #print axioms ok_all

end Cert.KernelIdeal.Line

end
-- ==== Proof.Steps.lean ====
/- One rule per kind of step of the body, over the list of transfers still owed; the pieces of the buffers lent and taken back. -/
import proofs.«900692_g7700000000000693_dist_ag_v7x_xyz2x4x4_y_m256_n256_f32_1_alg».proof.Proof.Ghost
import proofs.«900692_g7700000000000693_dist_ag_v7x_xyz2x4x4_y_m256_n256_f32_1_alg».proof.Proof.Mem

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

/-- The weakest precondition of a piece of device `c`'s kernel body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- A barrier cell sits below every receive cell, and a receive cell below those of halves that travel farther. -/
theorem mayWait_arrivals (c : Dev nD) (sm : SemLoc sig) (l : List (Bool × Fin 4 × Fin 2)) (cut : ℕ) (hcut : lv ((c : Thread nD τ), sm) () = cut)
    (h : ∀ p ∈ l, cut < 2 + cond p.1 ((yc c + 1).val - p.2.1.val) (p.2.1.val - (yc c - 1).val)) :
    (levAts L lv : sProp 𝕄) ⊢ MayWait (c : Thread nD τ) sm () (Ol (arriveOwes c l)) :=
  mayWait_list c sm _ fun x hx => by
    obtain ⟨p, hp, rfl⟩ := List.mem_map.mp hx
    refine ⟨rfl, ?_⟩
    rw [lv_recv, hcut]
    have := h p hp
    rcases p with ⟨dir, o, hh⟩
    cases dir
    · show _ < 2 + (o.val - (yc (dn c)).val); rw [yc_dn]; exact this
    · show _ < 2 + ((yc (up c)).val - o.val); rw [yc_up]; exact this

theorem wp_bar_signal (c dst : Dev nD) (d : Bool) (l : List (GSem nD τ sig × ℕ)) (hd : d ∈ barDuties (yc dst)) {W : Waits sig Unit}
    {k' : ℕ} (hk' : k' = 1 := by decide)
    {α : Type} {Q : α → sProp 𝕄} {k : PUnit → Prog (TpuEff nD τ sig (Elt F) Λ₀ .tc) α} :
    iprop(records m ρ K ∗ owes (c : Thread nD τ) (Ol ((barCell dst, 1) :: l)) W ∗ dutyTok ER (barCell dst) 0 d ∗ barPay dst d)
      ⊢ iprop((owes (c : Thread nD τ) (Ol l) W -∗ wpc c (k ⟨⟩) Q) -∗ wpc c (.op (.semSignal (dst : Thread nD τ) barS k') k) Q) := by
  subst hk'
  rw [Ol_cons]
  iintro ⟨#HR, HO, Ht, Hp⟩
  iapply (Rounds.wp_signal 𝒱₀ ER (lineRd m ρ) (c : Thread nD τ) none (dst := (dst : Thread nD τ)) (κ := K (dst, none))
      (d := d) (by rw [duties_bar]; exact hd) (amount_bar m ρ dst d) () (Ol l) rfl) $$ [HO Ht Hp]
  · isplitr; · iapply (inv_at m ρ K (dst, none)); iexact HR
    isplitl [HO]; · iexact HO
    isplitl [Ht]; · iexact Ht
    isplitl [Hp]; · rw [payload_bar]; iexact Hp
    iapply (reached_at m ρ K (dst, none)); iexact HR

theorem wp_bar_wait (c : Dev nD) (l : List (Bool × Fin 4 × Fin 2)) {W : Waits sig Unit}
    {k' : ℕ} (hk' : k' = (barDuties (yc c)).card)
    {α : Type} {Q : α → sProp 𝕄} {k : PUnit → Prog (TpuEff nD τ sig (Elt F) Λ₀ .tc) α} :
    iprop(records m ρ K ∗ levAts L lv ∗ cred (tallyAt (barCell c) () (barDuties (yc c)).card) ∗ owes (c : Thread nD τ) (Ol (arriveOwes c l)) W
        ∗ atPos ER (barCell c) 0 ∅ 0)
      ⊢ iprop(((owes (c : Thread nD τ) (Ol (arriveOwes c l)) (insert (SemLoc.reg barS, ()) W) ∗ bigSep (barDuties (yc c)) (fun d => barPay (F := F) c d))
            -∗ wpc c (k ⟨⟩) Q)
          -∗ wpc c (.op (.semWait barS k') k) Q) := by
  subst hk'
  iintro ⟨#HR, #Hlev, Hc, HO, Hat⟩ Hk
  iapply (Rounds.wp_wait_rest_token 𝒱₀ ER (lineRd m ρ) (c : Thread nD τ) none (κ := K (c, none))
      (wpE_semWait_eq 𝒱₀ (c : Thread nD τ) none Set.univ) (Set.mem_univ _) () (O := Ol (arriveOwes c l)) (W := W) (R := 0) (m := 0) (T := ∅)
      (by rw [Nat.zero_add, expect_bar])) $$ [Hc HO Hat]
  · isplitr; · iapply (inv_at m ρ K (c, none)); iexact HR
    isplitl [Hc]; · iexact Hc
    isplitl [HO]; · iexact HO
    isplitr
    · iapply (mayWait_arrivals (F := F) c (.reg barS) l 1 rfl fun _ _ => Nat.lt_of_lt_of_le (by decide) (Nat.le_add_right 2 _)); iexact Hlev
    iexact Hat
  iintro ⟨HO, -, -, Hpay⟩
  iapply Hk
  isplitl [HO]; · iexact HO
  rw [Finset.sdiff_empty, duties_bar]
  iexact Hpay

/-- A transfer of half `h` of origin `o` to the neighbour in direction `dir`, from a source whose lent share is the
    send cell's payload and whose landing fills the neighbour's slot. -/
theorem wp_send (c n : Dev nD) (dir : Bool) (o : Fin 4) (h : Fin 2) (l : List (Bool × Fin 4 × Fin 2)) (hn : n = nbr c dir)
    (hs : sends (yc c) dir o = true) {W : Waits sig Unit}
    (src : Memref sig .tc .vmem S128x256 .f32) (fs : Buf (Elt F) (src.view.loc (c : Thread nD τ)))
    (hp₁ : (src.view.loc (c : Thread nD τ) ↦[src.view.set]{shareOf dir} fs : sProp 𝕄) = srcPts m ρ c o h (shareOf dir))
    (hp₂ : ∀ fd, slotPts (nbr c dir) o h fullShare ((slotM o h).view.write (Elt F) fd (src.view.read (Elt F) fs) Finset.univ)
      = slotFull m ρ (nbr c dir) o h fullShare)
    {hsc : (slotM o h : Memref sig (Dev.tc n : Thread nD τ).2.kind .vmem S128x256 .f32).view.ref.isScScratch = false}
    {hsrc : src.view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ srcPts m ρ c o h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma src (.remote (Dev.tc n : Thread nD τ) (slotM o h) (.dma (semAt (sendA dir) o h)) hsc) (.dma (semAt (recvA dir) o h)) hsrc hdst hsem) k) Q) := by
  subst hn
  rw [show arriveOwes c ((dir, o, h) :: l) = (recvCell (nbr c dir) dir o h, N) :: arriveOwes c l from rfl, Ol_cons, ← hp₁]
  iintro ⟨#HR, Hsrc, ⟨%fd, Hdst⟩, HO, Ht1, Ht2⟩
  iapply (Rounds.wp_send_pointsTo 𝒱₀ ER (lineRd m ρ) (c : Thread nD τ) none
      (c' := (nbr c dir : Thread nD τ)) (src := src) (dst := slotM o h)
      (q := shareOf dir) (fs := fs) (fd := fd) (r₁ := 0) (r₂ := 0) (d₁ := false) (d₂ := false)
      (κ₁ := K (c, some (true, dir, o, h))) (κ₂ := K (nbr c dir, some (false, dir, o, h)))
      (by rw [duties_send m ρ c dir o h hs]; exact Finset.mem_singleton_self _)
      (by rw [duties_recv m ρ (nbr c dir) dir o h (recvs_nbr c dir o hs)]; exact Finset.mem_singleton_self _)
      () () N rfl (amount_send m ρ c dir o h false) (amount_recv m ρ (nbr c dir) dir o h false) (Ol (arriveOwes c l)) rfl
      (Entails.of_eq (by rw [payload_send]; exact hp₁)) (Entails.of_eq (by rw [payload_recv]; exact hp₂ fd))) $$ [HO Ht1 Ht2 Hsrc Hdst]
  isplitr; · iapply (inv_at m ρ K (c, some (true, dir, o, h))); iexact HR
  isplitr; · iapply (inv_at m ρ K (nbr c dir, some (false, dir, o, h))); iexact HR
  isplitl [Hsrc]; · iexact Hsrc
  isplitl [Hdst]; · unfold slotPts; iexact Hdst
  isplitl [HO]; · iexact HO
  isplitl [Ht1]; · iexact Ht1
  isplitr; · iapply (reached_at m ρ K (c, some (true, dir, o, h))); iexact HR
  isplitl [Ht2]; · iexact Ht2
  iapply (reached_at m ρ K (nbr c dir, some (false, dir, o, h))); iexact HR

omit [FloatOps F] in
theorem srcPts_own (c : Dev nD) (o : Fin 4) (h : Fin 2) (q : PosShare TreeShare) (hy : yc c = o) : srcPts m ρ c o h q = halfPts m ρ c h q := by
  unfold srcPts; rw [if_pos hy.symm]
omit [FloatOps F] in
theorem srcPts_fwd (c : Dev nD) {y : Fin 4} (hy : yc c = y) (o : Fin 4) (h : Fin 2) (q : PosShare TreeShare) (ho : o ≠ y := by decide) :
    srcPts m ρ c o h q = slotFull m ρ c o h q := by
  subst hy; unfold srcPts; rw [if_neg ho]

/-- The source is the device's own block half (`o` its place): its landing is the block of the device at place `o`. -/
theorem wp_send_own (c n : Dev nD) (dir : Bool) (o : Fin 4) (h : Fin 2) (l : List (Bool × Fin 4 × Fin 2)) (hn : n = nbr c dir) (hy : yc c = o)
    (hs : sends o dir o = true := by decide) {W : Waits sig Unit}
    {hsc : (slotM o h : Memref sig (Dev.tc n : Thread nD τ).2.kind .vmem S128x256 .f32).view.ref.isScScratch = false}
    {hsrc : (halfM h : Memref sig .tc .vmem S128x256 .f32).view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ halfPts m ρ c h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma (halfM h) (.remote (Dev.tc n : Thread nD τ) (slotM o h) (.dma (semAt (sendA dir) o h)) hsc) (.dma (semAt (recvA dir) o h)) hsrc hdst hsem) k) Q) := by
  subst hy
  rw [← srcPts_own m ρ c (yc c) h (shareOf dir) rfl]
  exact wp_send m ρ K c n dir (yc c) h l hn hs (halfM h) (xstg m ρ c) (by unfold srcPts; rw [if_pos rfl]; rfl)
    fun fd => landing_own m ρ c (nbr c dir) (by cases dir; exacts [(devAt_dn c _).trans (devAt_yc c), (devAt_up c _).trans (devAt_yc c)]) h fd

/-- The source is the slot the half arrived in: neighbours on a line expect the same contents in it. -/
theorem wp_send_fwd (c n : Dev nD) (dir : Bool) (o : Fin 4) (h : Fin 2) (l : List (Bool × Fin 4 × Fin 2)) (hn : n = nbr c dir) {y : Fin 4} (hy : yc c = y)
    (hs : sends y dir o = true := by decide) (ho : o ≠ y := by decide) {W : Waits sig Unit}
    {hsc : (slotM o h : Memref sig (Dev.tc n : Thread nD τ).2.kind .vmem S128x256 .f32).view.ref.isScScratch = false}
    {hsrc : (slotM o h : Memref sig .tc .vmem S128x256 .f32).view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ slotFull m ρ c o h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma (slotM o h) (.remote (Dev.tc n : Thread nD τ) (slotM o h) (.dma (semAt (sendA dir) o h)) hsc) (.dma (semAt (recvA dir) o h)) hsrc hdst hsem) k) Q) := by
  subst hy
  rw [← srcPts_fwd m ρ c rfl o h (shareOf dir) ho]
  exact wp_send m ρ K c n dir o h l hn hs (slotM o h) (commVal m ρ c) (by unfold srcPts; rw [if_neg ho]; rfl)
    fun fd => landing_fwd m ρ c (nbr c dir) (by funext j; cases dir; exacts [devAt_dn c j, devAt_up c j]) o h fd

/-- The wait for an arrival, allowed while every transfer still owed carries a half farther than this one has come. -/
theorem wp_recv_wait (c : Dev nD) {y : Fin 4} (hy : yc c = y) (dir : Bool) (o : Fin 4) (h : Fin 2) (l : List (Bool × Fin 4 × Fin 2))
    (hs : recvs y dir o = true := by decide)
    (hl : ∀ p ∈ l, cond dir (y.val - o.val) (o.val - y.val) < cond p.1 ((y + 1).val - p.2.1.val) (p.2.1.val - (y - 1).val) := by decide)
    {W : Waits sig Unit}
    {sp' : Space} {s' : Shape} {e' : EltTy} {src : Memref sig (c : Thread nD τ).2.kind sp' s' e'} {κ' : Kind} {sp : Space} {s : Shape} {e : EltTy} {dst : Memref sig κ' sp s e}
    {hsrc : src.view.WordExact} {hdst : dst.view.WordExact} (hd : dst.view.dmaCredit = N := by rfl)
    {α : Type} {Q : α → sProp 𝕄} {k : PUnit → Prog (TpuEff nD τ sig (Elt F) Λ₀ .tc) α} :
    iprop(records m ρ K ∗ levAts L lv ∗ cred (tallyAt (recvCell c dir o h) () (if recvs (yc c) dir o = true then N else 0))
        ∗ owes (c : Thread nD τ) (Ol (arriveOwes c l)) W ∗ atPos ER (dcell c (false, dir, o, h)) 0 ∅ 0)
      ⊢ iprop(((owes (c : Thread nD τ) (Ol (arriveOwes c l)) (insert (SemLoc.dma (semAt (recvA dir) o h), ()) W) ∗ slotFull m ρ c o h fullShare
              ∗ semVal (dcell c (false, dir, o, h)) 0) -∗ wpc c (k ⟨⟩) Q)
          -∗ wpc c (.op (.waitDma2 (semAt (recvA dir) o h) src dst hsrc hdst) k) Q) := by
  subst hy
  have hw : ∀ Kt : PUnit → sProp 𝕄, wpE (defs₀ (F := F)) 𝒱₀ (c : Thread nD τ) none Set.univ (.waitDma2 (semAt (recvA dir) o h) src dst hsrc hdst) Kt
      = waitSpec (c : Thread nD τ) Set.univ (.dma (semAt (recvA dir) o h)) N Kt := fun Kt => by rw [← hd]; rfl
  rw [if_pos hs]
  iintro ⟨#HR, #Hlev, Hc, HO, Hat⟩ Hk
  iapply (Rounds.wp_wait_rest_token 𝒱₀ ER (lineRd m ρ) (c : Thread nD τ) none (κ := K (c, some (false, dir, o, h)))
      hw (Set.mem_univ _) () (O := Ol (arriveOwes c l)) (W := W) (R := 0) (m := 0) (T := ∅)
      (by rw [Nat.zero_add, expect_recv m ρ c dir o h hs])) $$ [Hc HO Hat]
  · isplitr; · iapply (inv_at m ρ K (c, some (false, dir, o, h))); iexact HR
    isplitl [Hc]; · iexact Hc
    isplitl [HO]; · iexact HO
    isplitr
    · iapply (mayWait_arrivals (F := F) c _ l _ (lv_recv c dir o h) fun p hp => Nat.add_lt_add_left (hl p hp) 2); iexact Hlev
    iexact Hat
  iintro ⟨HO, Hat, -, Hpay⟩
  imod (Rounds.cell_close ER (lineRd m ρ) (Set.mem_univ (K (c, some (false, dir, o, h)))) (fun h => h) (R := 0 + 1)
      (duties_later m ρ _)) $$ [Hat] with Hz
  · isplitr; · iapply (inv_at m ρ K (c, some (false, dir, o, h))); iexact HR
    iexact Hat
  iapply Hk
  isplitl [HO]; · iexact HO
  isplitl [Hpay]; · iapply (Entails.of_eq (rest_recv m ρ c dir o h hs)); iexact Hpay
  iexact Hz

/-- The wait for a transfer's source to have been read, nothing owed any more: the lent share comes back. -/
theorem wp_send_wait (c : Dev nD) {y : Fin 4} (hy : yc c = y) (dir : Bool) (o : Fin 4) (h : Fin 2)
    {P : sProp 𝕄} (hP : srcPts m ρ c o h (shareOf dir) = P) (hs : sends y dir o = true := by decide) {W : Waits sig Unit}
    {sp' : Space} {s' : Shape} {e' : EltTy} {src : Memref sig (c : Thread nD τ).2.kind sp' s' e'} {κ' : Kind} {sp : Space} {s : Shape} {e : EltTy} {dst : Memref sig κ' sp s e}
    {hsrc : src.view.WordExact} {hdst : dst.view.WordExact} (hd : dst.view.dmaCredit = N := by rfl)
    {α : Type} {Q : α → sProp 𝕄} {k : PUnit → Prog (TpuEff nD τ sig (Elt F) Λ₀ .tc) α} :
    iprop(records m ρ K ∗ cred (tallyAt (sendCell c dir o h) () N) ∗ owes (c : Thread nD τ) 0 W ∗ atPos ER (dcell c (true, dir, o, h)) 0 ∅ 0)
      ⊢ iprop(((owes (c : Thread nD τ) 0 (insert (SemLoc.dma (semAt (sendA dir) o h), ()) W) ∗ P ∗ semVal (dcell c (true, dir, o, h)) 0)
            -∗ wpc c (k ⟨⟩) Q)
          -∗ wpc c (.op (.waitDma2 (semAt (sendA dir) o h) src dst hsrc hdst) k) Q) := by
  subst hy
  subst hP
  have hw : ∀ Kt : PUnit → sProp 𝕄, wpE (defs₀ (F := F)) 𝒱₀ (c : Thread nD τ) none Set.univ (.waitDma2 (semAt (sendA dir) o h) src dst hsrc hdst) Kt
      = waitSpec (c : Thread nD τ) Set.univ (.dma (semAt (sendA dir) o h)) N Kt := fun Kt => by rw [← hd]; rfl
  iintro ⟨#HR, Hc, HO, Hat⟩ Hk
  iapply (Rounds.wp_wait_rest_token 𝒱₀ ER (lineRd m ρ) (c : Thread nD τ) none (κ := K (c, some (true, dir, o, h)))
      hw (Set.mem_univ _) () (O := 0) (W := W) (R := 0) (m := 0) (T := ∅)
      (by rw [Nat.zero_add, expect_send m ρ c dir o h hs])) $$ [Hc HO Hat]
  · isplitr; · iapply (inv_at m ρ K (c, some (true, dir, o, h))); iexact HR
    isplitl [Hc]; · iexact Hc
    isplitl [HO]; · iexact HO
    isplitr; · rw [MayWait_zero]; iempintro
    iexact Hat
  iintro ⟨HO, Hat, -, Hpay⟩
  imod (Rounds.cell_close ER (lineRd m ρ) (Set.mem_univ (K (c, some (true, dir, o, h)))) (fun h => h) (R := 0 + 1)
      (duties_later m ρ _)) $$ [Hat] with Hz
  · isplitr; · iapply (inv_at m ρ K (c, some (true, dir, o, h))); iexact HR
    iexact Hat
  iapply Hk
  isplitl [HO]; · iexact HO
  isplitl [Hpay]; · iapply (Entails.of_eq (rest_send m ρ c dir o h hs)); iexact Hpay
  iexact Hz

/-- A cell whose schedule has no duty closes at once. -/
theorem close_unused (c : Dev nD) (j : J) (hj : used (yc c) (dsem j) = false) :
    iprop(records m ρ K ∗ atPos ER (dcell c j) 0 ∅ 0) ⊢ iprop(|={Set.univ}=> semVal (dcell c j) 0) := by
  obtain ⟨b, dir, o, h⟩ := j
  have hd : ∀ r, (lineRd (F := F) m ρ).duties (dcell c (b, dir, o, h)) r = ∅ := fun r => by
    cases b
    · exact duties_recv_unused m ρ c dir o h (by rw [← used_recv (yc c) dir o h]; exact hj) r
    · exact duties_send_unused m ρ c dir o h (by rw [← used_send (yc c) dir o h]; exact hj) r
  iintro ⟨#HR, Hat⟩
  iapply (Rounds.cell_close ER (lineRd m ρ) (Set.mem_univ (K (c, some (b, dir, o, h)))) (fun h => h) (R := 0) (fun r _ => hd r))
  isplitr; · iapply (inv_at m ρ K (c, some (b, dir, o, h))); iexact HR
  iexact Hat

/-- A filled slot in three shares: one to lend to a transfer in either direction, one to read through. -/
theorem slot_shares (c : Dev nD) (o : Fin 4) (h : Fin 2) :
    slotFull m ρ c o h fullShare ⊣⊢ iprop(slotFull m ρ c o h (shareOf true) ∗ slotFull m ρ c o h (shareOf false) ∗ slotFull m ρ c o h fullShare.right.right) := by
  unfold slotFull
  exact (slotPts_share c o h fullShare _).trans (sep_congr .rfl (slotPts_share c o h fullShare.right _))

/-- The own block likewise, the lent shares cut into the two halves. -/
theorem x_shares (c : Dev nD) :
    (((c : Thread nD τ).loc cc0_stg0_0) ↦{fullShare} xstg m ρ c : sProp 𝕄)
      ⊣⊢ iprop((halfPts m ρ c 0 (shareOf true) ∗ halfPts m ρ c 1 (shareOf true)) ∗ (halfPts m ρ c 0 (shareOf false) ∗ halfPts m ρ c 1 (shareOf false))
          ∗ (((c : Thread nD τ).loc cc0_stg0_0) ↦{fullShare.right.right} xstg m ρ c)) :=
  (x_share m ρ c fullShare).trans (sep_congr (x_halves m ρ c _) ((x_share m ρ c fullShare.right).trans (sep_congr (x_halves m ρ c _) .rfl)))

theorem slotFull_ex (c : Dev nD) (o : Fin 4) (h : Fin 2) :
    slotFull m ρ c o h fullShare ⊢ iprop(∃ f, slotPts (F := F) c o h fullShare f) := by
  unfold slotFull; iintro H; iexists _; iexact H

/-- The result buffer with the bands of rows `T` known to hold the gathered rows. -/
def outOk (c : Dev nD) (T : Finset (Fin 8)) : sProp 𝕄 :=
  iprop(∃ f : Buf (Elt F) ((c : Thread nD τ).loc cc0_stg1_0), ⌜okRows m ρ c f T⌝ ∗ (((c : Thread nD τ).loc cc0_stg1_0) ↦{fullShare} f))

/-- An arrived half read through any share of its slot and stored into its rows of the result. -/
theorem wp_copy_half (c : Dev nD) (o : Fin 4) (h : Fin 2) (q : PosShare TreeShare) (T : Finset (Fin 8))
    {inb : ∀ a, (![256 * o.val + 128 * h.val, 0] : Fin 2 → Nat) a + S128x256.size a ≤ S1024x256.size a}
    {pay : Vec F S1x128x256 .f32 → FVec F S128x256 .f32} (hpay : ∀ x, pay x = shapeCast S128x256 x shapeCasts_S1x128x256_S128x256 := by intro; rfl)
    {hl1 : (cM : Memref sig .tc .vmem S4x256x256 .f32).view.LoadsAt (slotR o h).toLoadRect}
    {hl2 : (oM : Memref sig .tc .vmem S1024x256 .f32).view.LoadsAt (Rect.unit (s := S1024x256) ![256 * o.val + 128 * h.val, 0] S128x256.size inb).toLoadRect}
    {hx : ((oM : Memref sig .tc .vmem S1024x256 .f32).access (Rect.unit (s := S1024x256) ![256 * o.val + 128 * h.val, 0] S128x256.size inb)).Stores Finset.univ}
    {hm : (Finset.univ : Finset (Rect.unit (s := S1024x256) ![256 * o.val + 128 * h.val, 0] S128x256.size inb).shape.Idx) = Finset.univ ∨ ∀ a, (Rect.unit (s := S1024x256) ![256 * o.val + 128 * h.val, 0] S128x256.size inb).stride a = 1}
    {α : Type} {Q : α → sProp 𝕄} {k : PUnit → Prog (TpuEff nD τ sig (Elt F) Λ₀ .tc) α} :
    iprop(slotFull m ρ c o h q ∗ outOk m ρ c T)
      ⊢ iprop(((slotFull m ρ c o h q ∗ outOk m ρ c (insert ⟨2 * o.val + h.val, by have := o.isLt; have := h.isLt; omega⟩ T)) -∗ wpc c (k ⟨⟩) Q)
          -∗ wpc c (.op (.load cM (slotR o h).toLoadRect hl1) fun x =>
                .op (.load oM (Rect.unit (s := S1024x256) ![256 * o.val + 128 * h.val, 0] S128x256.size inb).toLoadRect hl2) fun _ =>
                  .op (.store oM (Rect.unit (s := S1024x256) ![256 * o.val + 128 * h.val, 0] S128x256.size inb) (pay x) Finset.univ hx hm) k) Q) := by
  unfold outOk slotFull slotPts
  iintro ⟨Hs, %f, %hf, Ho⟩ Hk
  iapply (wp_load 𝒱₀ (c : Thread nD τ) none Set.univ (m := cM) (slot_load_sub o h)) $$ Hs; iintro Hs
  iapply (wp_load 𝒱₀ (c : Thread nD τ) none Set.univ (m := oM) (o_load_sub _)) $$ Ho; iintro Ho
  iapply (wp_store 𝒱₀ (c : Thread nD τ) none Set.univ (m := oM) (r := (Rect.unit (s := S1024x256) ![256 * o.val + 128 * h.val, 0] S128x256.size inb)) (Mk := Finset.univ) (Finset.subset_univ _)) $$ Ho; iintro Ho
  rw [hpay]
  iapply Hk
  isplitl [Hs]; · iexact Hs
  iexists _
  isplitr; · ipureintro; exact ok_store_half m ρ c o h f T hf inb
  iexact Ho

/-- The own block read through any share and stored into its rows of the result. -/
theorem wp_copy_own (c : Dev nD) (o : Fin 4) (hy : yc c = o) (q : PosShare TreeShare) (T : Finset (Fin 8))
    {inb : ∀ a, (![256 * o.val, 0] : Fin 2 → Nat) a + S256x256.size a ≤ S1024x256.size a}
    {pay : Vec F S256x256 .f32 → FVec F S256x256 .f32} (hpay : ∀ x, pay x = shapeCast S256x256 x shapeCasts_S256x256_S256x256 := by intro; rfl)
    {hl1 : (xM : Memref sig .tc .vmem S256x256 .f32).view.LoadsAt (Rect.unit (s := S256x256) ![0, 0] S256x256.size inb_S256x256_S256x256_0_0).toLoadRect}
    {hl2 : (oM : Memref sig .tc .vmem S1024x256 .f32).view.LoadsAt (Rect.unit (s := S1024x256) ![256 * o.val, 0] S256x256.size inb).toLoadRect}
    {hx : ((oM : Memref sig .tc .vmem S1024x256 .f32).access (Rect.unit (s := S1024x256) ![256 * o.val, 0] S256x256.size inb)).Stores Finset.univ}
    {hm : (Finset.univ : Finset (Rect.unit (s := S1024x256) ![256 * o.val, 0] S256x256.size inb).shape.Idx) = Finset.univ ∨ ∀ a, (Rect.unit (s := S1024x256) ![256 * o.val, 0] S256x256.size inb).stride a = 1}
    {α : Type} {Q : α → sProp 𝕄} {k : PUnit → Prog (TpuEff nD τ sig (Elt F) Λ₀ .tc) α} :
    iprop((((c : Thread nD τ).loc cc0_stg0_0) ↦{q} xstg m ρ c) ∗ outOk m ρ c T)
      ⊢ iprop((((((c : Thread nD τ).loc cc0_stg0_0) ↦{q} xstg m ρ c)
              ∗ outOk m ρ c (insert ⟨2 * o.val, by have := o.isLt; omega⟩ (insert ⟨2 * o.val + 1, by have := o.isLt; omega⟩ T))) -∗ wpc c (k ⟨⟩) Q)
          -∗ wpc c (.op (.load xM (Rect.unit (s := S256x256) ![0, 0] S256x256.size inb_S256x256_S256x256_0_0).toLoadRect hl1) fun x =>
                .op (.load oM (Rect.unit (s := S1024x256) ![256 * o.val, 0] S256x256.size inb).toLoadRect hl2) fun _ =>
                  .op (.store oM (Rect.unit (s := S1024x256) ![256 * o.val, 0] S256x256.size inb) (pay x) Finset.univ hx hm) k) Q) := by
  subst hy
  unfold outOk
  iintro ⟨Hx, %f, %hf, Ho⟩ Hk
  iapply (wp_load 𝒱₀ (c : Thread nD τ) none Set.univ (m := xM) (x_load_sub _)) $$ Hx; iintro Hx
  iapply (wp_load 𝒱₀ (c : Thread nD τ) none Set.univ (m := oM) (o_load_sub _)) $$ Ho; iintro Ho
  iapply (wp_store 𝒱₀ (c : Thread nD τ) none Set.univ (m := oM) (r := (Rect.unit (s := S1024x256) ![256 * (yc c).val, 0] S256x256.size inb)) (Mk := Finset.univ) (Finset.subset_univ _)) $$ Ho; iintro Ho
  rw [hpay, read_x]
  iapply Hk
  isplitl [Hx]; · iexact Hx
  iexists _
  isplitr; · ipureintro; exact ok_store_own m ρ c f T hf inb
  iexact Ho

/-- Once all eight bands are known the buffer is the gathered array. -/
theorem outOk_all (c : Dev nD) (T : Finset (Fin 8)) (hT : Finset.univ ⊆ T) :
    outOk m ρ c T ⊢ (((c : Thread nD τ).loc cc0_stg1_0) ↦{fullShare} gathered m ρ c : sProp 𝕄) := by
  unfold outOk
  iintro ⟨%f, %hf, H⟩
  rw [← ok_all m ρ c f fun i hi => hf i (hT hi)]
  iexact H

/-- Both halves of an origin's cell pair at once: the schedule does not depend on the half. -/
theorem close_unused2 (c : Dev nD) {y : Fin 4} (hy : yc c = y) (b dir : Bool) (o : Fin 4) (hj : used y (dsem (b, dir, o, 0)) = false := by decide) :
    iprop(records m ρ K ∗ atPos ER (dcell c (b, dir, o, 0)) 0 ∅ 0 ∗ atPos ER (dcell c (b, dir, o, 1)) 0 ∅ 0)
      ⊢ iprop(|={Set.univ}=> (semVal (dcell c (b, dir, o, 0)) 0 ∗ semVal (dcell c (b, dir, o, 1)) 0)) := by
  subst hy
  have hj' : used (yc c) (dsem (b, dir, o, 1)) = false := by
    cases b
    · exact ((used_recv _ dir o 1).trans (used_recv _ dir o 0).symm).trans hj
    · exact ((used_send _ dir o 1).trans (used_send _ dir o 0).symm).trans hj
  iintro ⟨#HR, H0, H1⟩
  iapply fupd_sep
  isplitl [H0]
  · iapply (close_unused m ρ K c _ hj); isplitr; · iexact HR
    iexact H0
  · iapply (close_unused m ρ K c _ hj'); isplitr; · iexact HR
    iexact H1

theorem outOk_empty (c : Dev nD) (g : Buf (Elt F) ((c : Thread nD τ).loc cc0_stg1_0)) :
    (((c : Thread nD τ).loc cc0_stg1_0) ↦{fullShare} g : sProp 𝕄) ⊢ outOk m ρ c ∅ := by
  unfold outOk
  iintro H
  iexists g
  isplitr; · ipureintro; exact ok_empty m ρ c g
  iexact H

/-- The receive buffer as its eight slots, each at some contents. -/
theorem comm_split_ex (c : Dev nD) (f : Buf (Elt F) ((c : Thread nD τ).loc cc0_scratch0)) :
    (((c : Thread nD τ).loc cc0_scratch0) ↦{fullShare} f : sProp 𝕄)
      ⊢ iprop((∃ f, slotPts c 0 0 fullShare f) ∗ (∃ f, slotPts c 0 1 fullShare f) ∗ (∃ f, slotPts c 1 0 fullShare f) ∗ (∃ f, slotPts c 1 1 fullShare f) ∗ (∃ f, slotPts c 2 0 fullShare f) ∗ (∃ f, slotPts c 2 1 fullShare f) ∗ (∃ f, slotPts c 3 0 fullShare f) ∗ (∃ f, slotPts c 3 1 fullShare f)) := by
  iintro H
  ihave Hs := (comm_split (F := F) c f) $$ H
  icases Hs with ⟨S00, S01, S10, S11, S20, S21, S30, S31⟩
  isplitl [S00]; · iexists f; iexact S00
  isplitl [S01]; · iexists f; iexact S01
  isplitl [S10]; · iexists f; iexact S10
  isplitl [S11]; · iexists f; iexact S11
  isplitl [S20]; · iexists f; iexact S20
  isplitl [S21]; · iexists f; iexact S21
  isplitl [S30]; · iexists f; iexact S30
  iexists f; iexact S31

/-- A slot back from its three shares, as the buffer's reassembly wants it. -/
theorem slot_rejoin (c : Dev nD) (o : Fin 4) (h : Fin 2) :
    iprop(slotFull m ρ c o h (shareOf true) ∗ slotFull m ρ c o h (shareOf false) ∗ slotFull m ρ c o h fullShare.right.right)
      ⊢ iprop(∃ f, slotPts (F := F) c o h fullShare f) :=
  (slot_shares m ρ c o h).2.trans (slotFull_ex m ρ c o h)

end Cert.KernelIdeal.Line

end
-- ==== Proof.BodySpec.lean ====
/- What a device's body is given and what it leaves; each place proves this. -/
import proofs.«900692_g7700000000000693_dist_ag_v7x_xyz2x4x4_y_m256_n256_f32_1_alg».proof.Proof.Steps

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

def casePre (c : Dev nD) (W : Waits sig Unit) (f0 : Buf (Elt F) ((c : Thread nD τ).loc cc0_scratch0)) (g1 : Buf (Elt F) ((c : Thread nD τ).loc cc0_stg1_0)) : sProp 𝕄 :=
  iprop(records m ρ K ∗ positions c ∗ payToks c ∗ creds c ∗ levAts L lv
    ∗ (((c : Thread nD τ).loc cc0_scratch0) ↦{fullShare} f0)
    ∗ owes (c : Thread nD τ) (O₀ c) W
    ∗ (((c : Thread nD τ).loc cc0_stg0_0) ↦{fullShare} xstg m ρ c)
    ∗ (((c : Thread nD τ).loc cc0_stg1_0) ↦{fullShare} g1))

def casePost (c : Dev nD) : sProp 𝕄 :=
  iprop((∃ f : Buf (Elt F) ((c : Thread nD τ).loc cc0_scratch0), ((c : Thread nD τ).loc cc0_scratch0) ↦{fullShare} f)
    ∗ (bigSep Finset.univ fun j : J => semVal (dcell c j) 0)
    ∗ (∃ W' : Waits sig Unit, owes (c : Thread nD τ) 0 W')
    ∗ (((c : Thread nD τ).loc cc0_stg0_0) ↦{fullShare} xstg m ρ c)
    ∗ (((c : Thread nD τ).loc cc0_stg1_0) ↦{fullShare} gathered m ρ c))

def CaseSpec (c : Dev nD) : Prop :=
  ∀ (W : Waits sig Unit) (f0 : Buf (Elt F) ((c : Thread nD τ).loc cc0_scratch0)) (g1 : Buf (Elt F) ((c : Thread nD τ).loc cc0_stg1_0)) (Kt : PUnit → sProp 𝕄),
    iprop(casePre m ρ K c W f0 g1 ∗ (casePost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt

end Cert.KernelIdeal.Line

end
-- ==== Proof.Unroll.lean ====
/- Products over (direction, origin, half) and over the 32 DMA cells written out factor by factor. -/
import proofs.«900692_g7700000000000693_dist_ag_v7x_xyz2x4x4_y_m256_n256_f32_1_alg».proof.Proof.Mem
import proofs.«900692_g7700000000000693_dist_ag_v7x_xyz2x4x4_y_m256_n256_f32_1_alg».proof.Proof.Ghost

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_bool2 (Φ : Bool → sProp 𝕄) : bigSep (Finset.univ : Finset Bool) Φ = iprop(Φ true ∗ Φ false) := by
  rw [show (Finset.univ : Finset Bool) = {true, false} from by decide, bigSep_insert (by decide), bigSep_singleton]
  rfl

theorem bigSep_dirs (Φ : Bool × Fin 4 × Fin 2 → sProp 𝕄) :
    bigSep (Finset.univ : Finset (Bool × Fin 4 × Fin 2)) Φ
      = iprop((Φ (true, 0, 0) ∗ Φ (true, 0, 1) ∗ Φ (true, 1, 0) ∗ Φ (true, 1, 1) ∗ Φ (true, 2, 0) ∗ Φ (true, 2, 1) ∗ Φ (true, 3, 0) ∗ Φ (true, 3, 1))
          ∗ (Φ (false, 0, 0) ∗ Φ (false, 0, 1) ∗ Φ (false, 1, 0) ∗ Φ (false, 1, 1) ∗ Φ (false, 2, 0) ∗ Φ (false, 2, 1) ∗ Φ (false, 3, 0) ∗ Φ (false, 3, 1))) := by
  rw [bigSep_univ_prod, bigSep_bool2, bigSep_slots, bigSep_slots]

theorem bigSep_J (Φ : J → sProp 𝕄) :
    bigSep (Finset.univ : Finset J) Φ
      = iprop(((Φ (true, true, 0, 0) ∗ Φ (true, true, 0, 1) ∗ Φ (true, true, 1, 0) ∗ Φ (true, true, 1, 1) ∗ Φ (true, true, 2, 0) ∗ Φ (true, true, 2, 1) ∗ Φ (true, true, 3, 0) ∗ Φ (true, true, 3, 1))
            ∗ (Φ (true, false, 0, 0) ∗ Φ (true, false, 0, 1) ∗ Φ (true, false, 1, 0) ∗ Φ (true, false, 1, 1) ∗ Φ (true, false, 2, 0) ∗ Φ (true, false, 2, 1) ∗ Φ (true, false, 3, 0) ∗ Φ (true, false, 3, 1)))
          ∗ ((Φ (false, true, 0, 0) ∗ Φ (false, true, 0, 1) ∗ Φ (false, true, 1, 0) ∗ Φ (false, true, 1, 1) ∗ Φ (false, true, 2, 0) ∗ Φ (false, true, 2, 1) ∗ Φ (false, true, 3, 0) ∗ Φ (false, true, 3, 1))
            ∗ (Φ (false, false, 0, 0) ∗ Φ (false, false, 0, 1) ∗ Φ (false, false, 1, 0) ∗ Φ (false, false, 1, 1) ∗ Φ (false, false, 2, 0) ∗ Φ (false, false, 2, 1) ∗ Φ (false, false, 3, 0) ∗ Φ (false, false, 3, 1)))) := by
  rw [bigSep_univ_prod, bigSep_bool2, bigSep_dirs, bigSep_dirs]

end Cert.KernelIdeal.Line

end
-- ==== Proof.Case0.lean ====
/- The body at the first place of a line. -/
import proofs.«900692_g7700000000000693_dist_ag_v7x_xyz2x4x4_y_m256_n256_f32_1_alg».proof.Proof.BodySpec
import proofs.«900692_g7700000000000693_dist_ag_v7x_xyz2x4x4_y_m256_n256_f32_1_alg».proof.Proof.Steps
import proofs.«900692_g7700000000000693_dist_ag_v7x_xyz2x4x4_y_m256_n256_f32_1_alg».proof.Proof.Unroll

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn0 (c : Dev nD) (hk : yc c = 0) :
    bigSep (barDuties (yc c)) (fun d => barPay (F := F) c d) = iprop((∃ f, slotPts (nbr c true) 0 0 fullShare f) ∗ (∃ f, slotPts (nbr c true) 0 1 fullShare f) ∗ emp) := by
  rw [hk, show barDuties (0 : Fin 4) = {true} from by decide, bigSep_singleton]
  unfold barPay; rw [if_pos rfl, hk, show slotsLE (0 : Fin 4) = [(0, 0), (0, 1)] from by decide]
  simp only [slotsEx] <;> rfl

set_option maxHeartbeats 800000 in
/-- The first place of a line: one neighbour, above; its block goes up, the six other halves come down. -/
theorem case0 (c : Dev nD) (hk : yc c = 0) : CaseSpec m ρ K c := by
  intro W f0 g1 Kt
  have h1 : ¬ k0_cond1 c = 1#1 := by rw [cond1_iff, hk]; decide
  have h2 : k0_cond2 c = 1#1 := by rw [cond2_iff, hk]; decide
  have h3 : k0_cond3 c = 1#1 := by rw [cond3_iff, hk]
  have h4 : ¬ k0_cond4 c = 1#1 := by rw [cond4_iff, hk]; decide
  have h5 : ¬ k0_cond5 c = 1#1 := by rw [cond5_iff, hk]; decide
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_neg h1, dif_pos h2, dif_pos h3, dif_neg h4, dif_neg h5, dif_neg h6, Prog.bind_op, Prog.bind_ret, Prog.pure_eq_ret]
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_assoc, Prog.bind_op, Prog.bind_ret, Prog.pure_eq_ret, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (up c), 1) :: arriveOwes c [(true, 0, 0), (true, 0, 1)]) from by unfold O₀ oweList barOwes; rw [hk]; rfl]
  have hup : up c = devAt c 1 := by unfold up; rw [hk]; rfl
  have e0 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e0]
  iapply (wp_bar_signal m ρ K c (up c) false _ (by rw [yc_up, hk]; decide)) $$ [$HR $HO $HtU S10 S11 S20 S21 S30 S31]
  · unfold barPay; rw [if_neg Bool.false_ne_true, dn_up, yc_up, hk]
    rw [show slotsGE ((0 : Fin 4) + 1) = [(1, 0), (1, 1), (2, 0), (2, 1), (3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn0 (F := F) c hk)) $$ Hpay
  icases Hp with ⟨U0, U1, -⟩
  iapply (wp_send_own m ρ K c _ true 0 0 _ ((dev_eq c 1 (k0_dev3_eq c)).trans hup.symm) hk) $$ [$HR $XT0 $U0 $HO $TS_T00 $TR_T00]
  iintro ⟨CS0, HO⟩
  iapply (wp_send_own m ρ K c _ true 0 1 _ ((dev_eq c 1 (k0_dev4_eq c)).trans hup.symm) hk) $$ [$HR $XT1 $U1 $HO $TS_T01 $TR_T01]
  iintro ⟨CS1, HO⟩
  iapply (wp_copy_own m ρ c 0 hk _ _) $$ [$HxR $Hout]; iintro ⟨HxR, Hout⟩
  iapply (wp_recv_wait m ρ K c hk false 1 0 []) $$ [$HR $Hlev $CR_F10 $HO $AR_F10]
  iintro ⟨HO, F10, AR_F10⟩
  iapply (wp_copy_half m ρ c 1 0 fullShare _) $$ [$F10 $Hout]; iintro ⟨F10, Hout⟩
  iapply (wp_recv_wait m ρ K c hk false 1 1 []) $$ [$HR $Hlev $CR_F11 $HO $AR_F11]
  iintro ⟨HO, F11, AR_F11⟩
  iapply (wp_copy_half m ρ c 1 1 fullShare _) $$ [$F11 $Hout]; iintro ⟨F11, Hout⟩
  iapply (wp_recv_wait m ρ K c hk false 2 0 []) $$ [$HR $Hlev $CR_F20 $HO $AR_F20]
  iintro ⟨HO, F20, AR_F20⟩
  iapply (wp_copy_half m ρ c 2 0 fullShare _) $$ [$F20 $Hout]; iintro ⟨F20, Hout⟩
  iapply (wp_recv_wait m ρ K c hk false 2 1 []) $$ [$HR $Hlev $CR_F21 $HO $AR_F21]
  iintro ⟨HO, F21, AR_F21⟩
  iapply (wp_copy_half m ρ c 2 1 fullShare _) $$ [$F21 $Hout]; iintro ⟨F21, Hout⟩
  iapply (wp_recv_wait m ρ K c hk false 3 0 []) $$ [$HR $Hlev $CR_F30 $HO $AR_F30]
  iintro ⟨HO, F30, AR_F30⟩
  iapply (wp_copy_half m ρ c 3 0 fullShare _) $$ [$F30 $Hout]; iintro ⟨F30, Hout⟩
  iapply (wp_recv_wait m ρ K c hk false 3 1 []) $$ [$HR $Hlev $CR_F31 $HO $AR_F31]
  iintro ⟨HO, F31, AR_F31⟩
  iapply (wp_copy_half m ρ c 3 1 fullShare _) $$ [$F31 $Hout]; iintro ⟨F31, Hout⟩
  rw [show Ol (arriveOwes c []) = 0 from rfl]
  iapply (wp_send_wait m ρ K c hk true 0 0 (srcPts_own m ρ c 0 0 _ hk)) $$ [$HR $CS0 $HO $AS_T00]
  iintro ⟨HO, XT0, AS_T00⟩
  iapply (wp_send_wait m ρ K c hk true 0 1 (srcPts_own m ρ c 0 1 _ hk)) $$ [$HR $CS1 $HO $AS_T01]
  iintro ⟨HO, XT1, AS_T01⟩
  imod (close_unused2 m ρ K c hk true true 1) $$ [$HR $AS_T10 $AS_T11] with ⟨AS_T10, AS_T11⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk true false 2) $$ [$HR $AS_F20 $AS_F21] with ⟨AS_F20, AS_F21⟩
  imod (close_unused2 m ρ K c hk true false 3) $$ [$HR $AS_F30 $AS_F31] with ⟨AS_F30, AS_F31⟩
  imod (close_unused2 m ρ K c hk false true 0) $$ [$HR $AR_T00 $AR_T01] with ⟨AR_T00, AR_T01⟩
  imod (close_unused2 m ρ K c hk false true 1) $$ [$HR $AR_T10 $AR_T11] with ⟨AR_T10, AR_T11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  ihave Hx := (x_shares m ρ c).2 $$ [$XT0 $XT1 $XF0 $XF1 $HxR]
  ihave F10 := (slotFull_ex m ρ c 1 0) $$ F10
  ihave F11 := (slotFull_ex m ρ c 1 1) $$ F11
  ihave F20 := (slotFull_ex m ρ c 2 0) $$ F20
  ihave F21 := (slotFull_ex m ρ c 2 1) $$ F21
  ihave F30 := (slotFull_ex m ρ c 3 0) $$ F30
  ihave F31 := (slotFull_ex m ρ c 3 1) $$ F31
  ihave Hc := (comm_join (F := F) c) $$ [$S00 $S01 $F10 $F11 $F20 $F21 $F30 $F31]
  ihave Hout := (outOk_all m ρ c _ (by decide +revert)) $$ Hout
  rw [wp_ret]; imodintro
  iapply Hk
  unfold casePost
  rw [bigSep_J]
  iframe
  iexists _; iexact HO

/-- info: 'Cert.KernelIdeal.Line.case0' depends on axioms: [propext, Classical.choice, Quot.sound] -/
#guard_msgs in #print axioms case0

end Cert.KernelIdeal.Line
end
-- ==== Proof.Case1.lean ====
/- The body at the second place of a line. -/
import proofs.«900692_g7700000000000693_dist_ag_v7x_xyz2x4x4_y_m256_n256_f32_1_alg».proof.Proof.BodySpec
import proofs.«900692_g7700000000000693_dist_ag_v7x_xyz2x4x4_y_m256_n256_f32_1_alg».proof.Proof.Steps
import proofs.«900692_g7700000000000693_dist_ag_v7x_xyz2x4x4_y_m256_n256_f32_1_alg».proof.Proof.Unroll

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn1 (c : Dev nD) (hk : yc c = 1) :
    bigSep (barDuties (yc c)) (fun d => barPay (F := F) c d)
      = iprop(((∃ f, slotPts (nbr c false) 1 0 fullShare f) ∗ (∃ f, slotPts (nbr c false) 1 1 fullShare f) ∗ (∃ f, slotPts (nbr c false) 2 0 fullShare f) ∗ (∃ f, slotPts (nbr c false) 2 1 fullShare f) ∗ (∃ f, slotPts (nbr c false) 3 0 fullShare f) ∗ (∃ f, slotPts (nbr c false) 3 1 fullShare f) ∗ emp) ∗ ((∃ f, slotPts (nbr c true) 0 0 fullShare f) ∗ (∃ f, slotPts (nbr c true) 0 1 fullShare f) ∗ (∃ f, slotPts (nbr c true) 1 0 fullShare f) ∗ (∃ f, slotPts (nbr c true) 1 1 fullShare f) ∗ emp)) := by
  rw [hk, show barDuties (1 : Fin 4) = insert false {true} from by decide, bigSep_insert (by decide), bigSep_singleton]
  unfold barPay
  rw [if_neg Bool.false_ne_true, if_pos rfl, hk, show slotsGE (1 : Fin 4) = [(1, 0), (1, 1), (2, 0), (2, 1), (3, 0), (3, 1)] from by decide, show slotsLE (1 : Fin 4) = [(0, 0), (0, 1), (1, 0), (1, 1)] from by decide]
  simp only [slotsEx] <;> rfl

set_option maxHeartbeats 1600000 in
/-- The second place of a line: its block goes both ways, origin 0 is passed up and origins 2 and 3 down. -/
theorem case1 (c : Dev nD) (hk : yc c = 1) : CaseSpec m ρ K c := by
  intro W f0 g1 Kt
  have h1 : k0_cond1 c = 1#1 := by rw [cond1_iff, hk]; decide
  have h2 : k0_cond2 c = 1#1 := by rw [cond2_iff, hk]; decide
  have h3 : ¬ k0_cond3 c = 1#1 := by rw [cond3_iff, hk]; decide
  have h4 : k0_cond4 c = 1#1 := by rw [cond4_iff, hk]
  have h5 : ¬ k0_cond5 c = 1#1 := by rw [cond5_iff, hk]; decide
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_pos h2, dif_neg h3, dif_pos h4, dif_neg h5, dif_neg h6, Prog.bind_op, Prog.bind_ret, Prog.pure_eq_ret]
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part6_skel k0_part7_skel k0_part8_skel k0_part9_skel k0_part10_skel k0_part11_skel k0_part12_skel k0_part13_skel k0_part14_skel k0_part15_skel k0_part16_skel
  simp only [Prog.lift, Prog.bind_assoc, Prog.bind_op, Prog.bind_ret, Prog.pure_eq_ret, dif_neg h5, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: (barCell (up c), 1) :: arriveOwes c [(true, 1, 0), (false, 1, 0), (true, 1, 1), (false, 1, 1), (true, 0, 0), (false, 2, 0), (true, 0, 1), (false, 2, 1), (false, 3, 0), (false, 3, 1)]) from by unfold O₀ oweList barOwes; rw [hk]; rfl]
  have hup : up c = devAt c 2 := by unfold up; rw [hk]; rfl
  have hdn : dn c = devAt c 0 := by unfold dn; rw [hk]; rfl
  have e1 : (⟨k0_dev1 c, k0_dev1_lt c h1⟩ : Dev nD) = dn c := Fin.ext (dev1_val c h1)
  have e2 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e1]
  iapply (wp_bar_signal m ρ K c (dn c) true _ (by rw [yc_dn, hk]; decide)) $$ [$HR $HO $HtD S00 S01]
  · unfold barPay; rw [if_pos rfl, up_dn, yc_dn, hk]
    rw [show slotsLE ((1 : Fin 4) - 1) = [(0, 0), (0, 1)] from by decide]
    simp only [slotsEx]
    iframe
  iintro HO
  rw [e2]
  iapply (wp_bar_signal m ρ K c (up c) false _ (by rw [yc_up, hk]; decide)) $$ [$HR $HO $HtU S20 S21 S30 S31]
  · unfold barPay; rw [if_neg Bool.false_ne_true, dn_up, yc_up, hk]
    rw [show slotsGE ((1 : Fin 4) + 1) = [(2, 0), (2, 1), (3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn1 (F := F) c hk)) $$ Hpay
  icases Hp with ⟨⟨D10, D11, D20, D21, D30, D31, -⟩, ⟨U00, U01, U10, U11, -⟩⟩
  iapply (wp_send_own m ρ K c _ true 1 0 _ ((dev_eq c 2 (k0_dev5_eq c)).trans hup.symm) hk) $$ [$HR $XT0 $U10 $HO $TS_T10 $TR_T10]
  iintro ⟨CS_T10, HO⟩
  iapply (wp_send_own m ρ K c _ false 1 0 _ ((dev_eq c 0 (k0_dev6_eq c)).trans hdn.symm) hk) $$ [$HR $XF0 $D10 $HO $TS_F10 $TR_F10]
  iintro ⟨CS_F10, HO⟩
  iapply (wp_send_own m ρ K c _ true 1 1 _ ((dev_eq c 2 (k0_dev7_eq c)).trans hup.symm) hk) $$ [$HR $XT1 $U11 $HO $TS_T11 $TR_T11]
  iintro ⟨CS_T11, HO⟩
  iapply (wp_send_own m ρ K c _ false 1 1 _ ((dev_eq c 0 (k0_dev8_eq c)).trans hdn.symm) hk) $$ [$HR $XF1 $D11 $HO $TS_F11 $TR_F11]
  iintro ⟨CS_F11, HO⟩
  iapply (wp_copy_own m ρ c 1 hk _ _) $$ [$HxR $Hout]; iintro ⟨HxR, Hout⟩
  iapply (wp_recv_wait m ρ K c hk true 0 0 [(true, 0, 0), (false, 2, 0), (true, 0, 1), (false, 2, 1), (false, 3, 0), (false, 3, 1)]) $$ [$HR $Hlev $CR_T00 $HO $AR_T00]
  iintro ⟨HO, F00, AR_T00⟩
  ihave Fs := (slot_shares m ρ c 0 0).1 $$ F00
  icases Fs with ⟨FT00, FF00, FR00⟩
  iapply (wp_send_fwd m ρ K c _ true 0 0 _ ((dev_eq c 2 (k0_dev9_eq c)).trans hup.symm) hk) $$ [$HR $FT00 $U00 $HO $TS_T00 $TR_T00]
  iintro ⟨CS_T00, HO⟩
  iapply (wp_copy_half m ρ c 0 0 fullShare.right.right _) $$ [$FR00 $Hout]; iintro ⟨FR00, Hout⟩
  iapply (wp_recv_wait m ρ K c hk false 2 0 [(false, 2, 0), (true, 0, 1), (false, 2, 1), (false, 3, 0), (false, 3, 1)]) $$ [$HR $Hlev $CR_F20 $HO $AR_F20]
  iintro ⟨HO, F20, AR_F20⟩
  ihave Fs := (slot_shares m ρ c 2 0).1 $$ F20
  icases Fs with ⟨FT20, FF20, FR20⟩
  iapply (wp_send_fwd m ρ K c _ false 2 0 _ ((dev_eq c 0 (k0_dev10_eq c)).trans hdn.symm) hk) $$ [$HR $FF20 $D20 $HO $TS_F20 $TR_F20]
  iintro ⟨CS_F20, HO⟩
  iapply (wp_copy_half m ρ c 2 0 fullShare.right.right _) $$ [$FR20 $Hout]; iintro ⟨FR20, Hout⟩
  iapply (wp_recv_wait m ρ K c hk true 0 1 [(true, 0, 1), (false, 2, 1), (false, 3, 0), (false, 3, 1)]) $$ [$HR $Hlev $CR_T01 $HO $AR_T01]
  iintro ⟨HO, F01, AR_T01⟩
  ihave Fs := (slot_shares m ρ c 0 1).1 $$ F01
  icases Fs with ⟨FT01, FF01, FR01⟩
  iapply (wp_send_fwd m ρ K c _ true 0 1 _ ((dev_eq c 2 (k0_dev11_eq c)).trans hup.symm) hk) $$ [$HR $FT01 $U01 $HO $TS_T01 $TR_T01]
  iintro ⟨CS_T01, HO⟩
  iapply (wp_copy_half m ρ c 0 1 fullShare.right.right _) $$ [$FR01 $Hout]; iintro ⟨FR01, Hout⟩
  iapply (wp_recv_wait m ρ K c hk false 2 1 [(false, 2, 1), (false, 3, 0), (false, 3, 1)]) $$ [$HR $Hlev $CR_F21 $HO $AR_F21]
  iintro ⟨HO, F21, AR_F21⟩
  ihave Fs := (slot_shares m ρ c 2 1).1 $$ F21
  icases Fs with ⟨FT21, FF21, FR21⟩
  iapply (wp_send_fwd m ρ K c _ false 2 1 _ ((dev_eq c 0 (k0_dev12_eq c)).trans hdn.symm) hk) $$ [$HR $FF21 $D21 $HO $TS_F21 $TR_F21]
  iintro ⟨CS_F21, HO⟩
  iapply (wp_copy_half m ρ c 2 1 fullShare.right.right _) $$ [$FR21 $Hout]; iintro ⟨FR21, Hout⟩
  iapply (wp_recv_wait m ρ K c hk false 3 0 [(false, 3, 0), (false, 3, 1)]) $$ [$HR $Hlev $CR_F30 $HO $AR_F30]
  iintro ⟨HO, F30, AR_F30⟩
  ihave Fs := (slot_shares m ρ c 3 0).1 $$ F30
  icases Fs with ⟨FT30, FF30, FR30⟩
  iapply (wp_send_fwd m ρ K c _ false 3 0 _ ((dev_eq c 0 (k0_dev13_eq c)).trans hdn.symm) hk) $$ [$HR $FF30 $D30 $HO $TS_F30 $TR_F30]
  iintro ⟨CS_F30, HO⟩
  iapply (wp_copy_half m ρ c 3 0 fullShare.right.right _) $$ [$FR30 $Hout]; iintro ⟨FR30, Hout⟩
  iapply (wp_recv_wait m ρ K c hk false 3 1 [(false, 3, 1)]) $$ [$HR $Hlev $CR_F31 $HO $AR_F31]
  iintro ⟨HO, F31, AR_F31⟩
  ihave Fs := (slot_shares m ρ c 3 1).1 $$ F31
  icases Fs with ⟨FT31, FF31, FR31⟩
  iapply (wp_send_fwd m ρ K c _ false 3 1 _ ((dev_eq c 0 (k0_dev14_eq c)).trans hdn.symm) hk) $$ [$HR $FF31 $D31 $HO $TS_F31 $TR_F31]
  iintro ⟨CS_F31, HO⟩
  iapply (wp_copy_half m ρ c 3 1 fullShare.right.right _) $$ [$FR31 $Hout]; iintro ⟨FR31, Hout⟩
  rw [show Ol (arriveOwes c []) = 0 from rfl]
  iapply (wp_send_wait m ρ K c hk true 1 0 (srcPts_own m ρ c 1 0 _ hk)) $$ [$HR $CS_T10 $HO $AS_T10]
  iintro ⟨HO, XT0, AS_T10⟩
  iapply (wp_send_wait m ρ K c hk false 1 0 (srcPts_own m ρ c 1 0 _ hk)) $$ [$HR $CS_F10 $HO $AS_F10]
  iintro ⟨HO, XF0, AS_F10⟩
  iapply (wp_send_wait m ρ K c hk true 1 1 (srcPts_own m ρ c 1 1 _ hk)) $$ [$HR $CS_T11 $HO $AS_T11]
  iintro ⟨HO, XT1, AS_T11⟩
  iapply (wp_send_wait m ρ K c hk false 1 1 (srcPts_own m ρ c 1 1 _ hk)) $$ [$HR $CS_F11 $HO $AS_F11]
  iintro ⟨HO, XF1, AS_F11⟩
  iapply (wp_send_wait m ρ K c hk true 0 0 (srcPts_fwd m ρ c hk 0 0 _)) $$ [$HR $CS_T00 $HO $AS_T00]
  iintro ⟨HO, FT00, AS_T00⟩
  iapply (wp_send_wait m ρ K c hk false 2 0 (srcPts_fwd m ρ c hk 2 0 _)) $$ [$HR $CS_F20 $HO $AS_F20]
  iintro ⟨HO, FF20, AS_F20⟩
  iapply (wp_send_wait m ρ K c hk true 0 1 (srcPts_fwd m ρ c hk 0 1 _)) $$ [$HR $CS_T01 $HO $AS_T01]
  iintro ⟨HO, FT01, AS_T01⟩
  iapply (wp_send_wait m ρ K c hk false 2 1 (srcPts_fwd m ρ c hk 2 1 _)) $$ [$HR $CS_F21 $HO $AS_F21]
  iintro ⟨HO, FF21, AS_F21⟩
  iapply (wp_send_wait m ρ K c hk false 3 0 (srcPts_fwd m ρ c hk 3 0 _)) $$ [$HR $CS_F30 $HO $AS_F30]
  iintro ⟨HO, FF30, AS_F30⟩
  iapply (wp_send_wait m ρ K c hk false 3 1 (srcPts_fwd m ρ c hk 3 1 _)) $$ [$HR $CS_F31 $HO $AS_F31]
  iintro ⟨HO, FF31, AS_F31⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk false true 1) $$ [$HR $AR_T10 $AR_T11] with ⟨AR_T10, AR_T11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  ihave Hx := (x_shares m ρ c).2 $$ [$XT0 $XT1 $XF0 $XF1 $HxR]
  ihave F00 := (slot_rejoin m ρ c 0 0) $$ [$FT00 $FF00 $FR00]
  ihave F20 := (slot_rejoin m ρ c 2 0) $$ [$FT20 $FF20 $FR20]
  ihave F01 := (slot_rejoin m ρ c 0 1) $$ [$FT01 $FF01 $FR01]
  ihave F21 := (slot_rejoin m ρ c 2 1) $$ [$FT21 $FF21 $FR21]
  ihave F30 := (slot_rejoin m ρ c 3 0) $$ [$FT30 $FF30 $FR30]
  ihave F31 := (slot_rejoin m ρ c 3 1) $$ [$FT31 $FF31 $FR31]
  ihave Hc := (comm_join (F := F) c) $$ [$F00 $F01 $S10 $S11 $F20 $F21 $F30 $F31]
  ihave Hout := (outOk_all m ρ c _ (by decide +revert)) $$ Hout
  iapply (le_wp_ret _ _ _ _ _)
  iapply Hk
  unfold casePost
  rw [bigSep_J]
  iframe
  iexists _; iexact HO

/-- info: 'Cert.KernelIdeal.Line.case1' depends on axioms: [propext, Classical.choice, Quot.sound] -/
#guard_msgs in #print axioms case1

end Cert.KernelIdeal.Line
end
-- ==== Proof.Case2.lean ====
/- The body at the third place of a line. -/
import proofs.«900692_g7700000000000693_dist_ag_v7x_xyz2x4x4_y_m256_n256_f32_1_alg».proof.Proof.BodySpec
import proofs.«900692_g7700000000000693_dist_ag_v7x_xyz2x4x4_y_m256_n256_f32_1_alg».proof.Proof.Steps
import proofs.«900692_g7700000000000693_dist_ag_v7x_xyz2x4x4_y_m256_n256_f32_1_alg».proof.Proof.Unroll

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn2 (c : Dev nD) (hk : yc c = 2) :
    bigSep (barDuties (yc c)) (fun d => barPay (F := F) c d)
      = iprop(((∃ f, slotPts (nbr c false) 2 0 fullShare f) ∗ (∃ f, slotPts (nbr c false) 2 1 fullShare f) ∗ (∃ f, slotPts (nbr c false) 3 0 fullShare f) ∗ (∃ f, slotPts (nbr c false) 3 1 fullShare f) ∗ emp) ∗ ((∃ f, slotPts (nbr c true) 0 0 fullShare f) ∗ (∃ f, slotPts (nbr c true) 0 1 fullShare f) ∗ (∃ f, slotPts (nbr c true) 1 0 fullShare f) ∗ (∃ f, slotPts (nbr c true) 1 1 fullShare f) ∗ (∃ f, slotPts (nbr c true) 2 0 fullShare f) ∗ (∃ f, slotPts (nbr c true) 2 1 fullShare f) ∗ emp)) := by
  rw [hk, show barDuties (2 : Fin 4) = insert false {true} from by decide, bigSep_insert (by decide), bigSep_singleton]
  unfold barPay
  rw [if_neg Bool.false_ne_true, if_pos rfl, hk, show slotsGE (2 : Fin 4) = [(2, 0), (2, 1), (3, 0), (3, 1)] from by decide, show slotsLE (2 : Fin 4) = [(0, 0), (0, 1), (1, 0), (1, 1), (2, 0), (2, 1)] from by decide]
  simp only [slotsEx] <;> rfl

set_option maxHeartbeats 1600000 in
/-- The third place of a line: its block goes both ways, origins 0 and 1 are passed up and origin 3 down. -/
theorem case2 (c : Dev nD) (hk : yc c = 2) : CaseSpec m ρ K c := by
  intro W f0 g1 Kt
  have h1 : k0_cond1 c = 1#1 := by rw [cond1_iff, hk]; decide
  have h2 : k0_cond2 c = 1#1 := by rw [cond2_iff, hk]; decide
  have h3 : ¬ k0_cond3 c = 1#1 := by rw [cond3_iff, hk]; decide
  have h4 : ¬ k0_cond4 c = 1#1 := by rw [cond4_iff, hk]; decide
  have h5 : k0_cond5 c = 1#1 := by rw [cond5_iff, hk]
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_pos h2, dif_neg h3, dif_neg h4, dif_pos h5, dif_neg h6, Prog.bind_op, Prog.bind_ret, Prog.pure_eq_ret]
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part17_skel k0_part18_skel k0_part19_skel k0_part20_skel k0_part21_skel k0_part22_skel k0_part23_skel k0_part24_skel k0_part25_skel k0_part26_skel k0_part27_skel
  simp only [Prog.lift, Prog.bind_assoc, Prog.bind_op, Prog.bind_ret, Prog.pure_eq_ret, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: (barCell (up c), 1) :: arriveOwes c [(true, 2, 0), (false, 2, 0), (true, 2, 1), (false, 2, 1), (true, 1, 0), (false, 3, 0), (true, 1, 1), (false, 3, 1), (true, 0, 0), (true, 0, 1)]) from by unfold O₀ oweList barOwes; rw [hk]; rfl]
  have hup : up c = devAt c 3 := by unfold up; rw [hk]; rfl
  have hdn : dn c = devAt c 1 := by unfold dn; rw [hk]; rfl
  have e1 : (⟨k0_dev1 c, k0_dev1_lt c h1⟩ : Dev nD) = dn c := Fin.ext (dev1_val c h1)
  have e2 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e1]
  iapply (wp_bar_signal m ρ K c (dn c) true _ (by rw [yc_dn, hk]; decide)) $$ [$HR $HO $HtD S00 S01 S10 S11]
  · unfold barPay; rw [if_pos rfl, up_dn, yc_dn, hk]
    rw [show slotsLE ((2 : Fin 4) - 1) = [(0, 0), (0, 1), (1, 0), (1, 1)] from by decide]
    simp only [slotsEx]
    iframe
  iintro HO
  rw [e2]
  iapply (wp_bar_signal m ρ K c (up c) false _ (by rw [yc_up, hk]; decide)) $$ [$HR $HO $HtU S30 S31]
  · unfold barPay; rw [if_neg Bool.false_ne_true, dn_up, yc_up, hk]
    rw [show slotsGE ((2 : Fin 4) + 1) = [(3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn2 (F := F) c hk)) $$ Hpay
  icases Hp with ⟨⟨D20, D21, D30, D31, -⟩, ⟨U00, U01, U10, U11, U20, U21, -⟩⟩
  iapply (wp_send_own m ρ K c _ true 2 0 _ ((dev_eq c 3 (k0_dev15_eq c)).trans hup.symm) hk) $$ [$HR $XT0 $U20 $HO $TS_T20 $TR_T20]
  iintro ⟨CS_T20, HO⟩
  iapply (wp_send_own m ρ K c _ false 2 0 _ ((dev_eq c 1 (k0_dev16_eq c)).trans hdn.symm) hk) $$ [$HR $XF0 $D20 $HO $TS_F20 $TR_F20]
  iintro ⟨CS_F20, HO⟩
  iapply (wp_send_own m ρ K c _ true 2 1 _ ((dev_eq c 3 (k0_dev17_eq c)).trans hup.symm) hk) $$ [$HR $XT1 $U21 $HO $TS_T21 $TR_T21]
  iintro ⟨CS_T21, HO⟩
  iapply (wp_send_own m ρ K c _ false 2 1 _ ((dev_eq c 1 (k0_dev18_eq c)).trans hdn.symm) hk) $$ [$HR $XF1 $D21 $HO $TS_F21 $TR_F21]
  iintro ⟨CS_F21, HO⟩
  iapply (wp_copy_own m ρ c 2 hk _ _) $$ [$HxR $Hout]; iintro ⟨HxR, Hout⟩
  iapply (wp_recv_wait m ρ K c hk true 1 0 [(true, 1, 0), (false, 3, 0), (true, 1, 1), (false, 3, 1), (true, 0, 0), (true, 0, 1)]) $$ [$HR $Hlev $CR_T10 $HO $AR_T10]
  iintro ⟨HO, F10, AR_T10⟩
  ihave Fs := (slot_shares m ρ c 1 0).1 $$ F10
  icases Fs with ⟨FT10, FF10, FR10⟩
  iapply (wp_send_fwd m ρ K c _ true 1 0 _ ((dev_eq c 3 (k0_dev19_eq c)).trans hup.symm) hk) $$ [$HR $FT10 $U10 $HO $TS_T10 $TR_T10]
  iintro ⟨CS_T10, HO⟩
  iapply (wp_copy_half m ρ c 1 0 fullShare.right.right _) $$ [$FR10 $Hout]; iintro ⟨FR10, Hout⟩
  iapply (wp_recv_wait m ρ K c hk false 3 0 [(false, 3, 0), (true, 1, 1), (false, 3, 1), (true, 0, 0), (true, 0, 1)]) $$ [$HR $Hlev $CR_F30 $HO $AR_F30]
  iintro ⟨HO, F30, AR_F30⟩
  ihave Fs := (slot_shares m ρ c 3 0).1 $$ F30
  icases Fs with ⟨FT30, FF30, FR30⟩
  iapply (wp_send_fwd m ρ K c _ false 3 0 _ ((dev_eq c 1 (k0_dev20_eq c)).trans hdn.symm) hk) $$ [$HR $FF30 $D30 $HO $TS_F30 $TR_F30]
  iintro ⟨CS_F30, HO⟩
  iapply (wp_copy_half m ρ c 3 0 fullShare.right.right _) $$ [$FR30 $Hout]; iintro ⟨FR30, Hout⟩
  iapply (wp_recv_wait m ρ K c hk true 1 1 [(true, 1, 1), (false, 3, 1), (true, 0, 0), (true, 0, 1)]) $$ [$HR $Hlev $CR_T11 $HO $AR_T11]
  iintro ⟨HO, F11, AR_T11⟩
  ihave Fs := (slot_shares m ρ c 1 1).1 $$ F11
  icases Fs with ⟨FT11, FF11, FR11⟩
  iapply (wp_send_fwd m ρ K c _ true 1 1 _ ((dev_eq c 3 (k0_dev21_eq c)).trans hup.symm) hk) $$ [$HR $FT11 $U11 $HO $TS_T11 $TR_T11]
  iintro ⟨CS_T11, HO⟩
  iapply (wp_copy_half m ρ c 1 1 fullShare.right.right _) $$ [$FR11 $Hout]; iintro ⟨FR11, Hout⟩
  iapply (wp_recv_wait m ρ K c hk false 3 1 [(false, 3, 1), (true, 0, 0), (true, 0, 1)]) $$ [$HR $Hlev $CR_F31 $HO $AR_F31]
  iintro ⟨HO, F31, AR_F31⟩
  ihave Fs := (slot_shares m ρ c 3 1).1 $$ F31
  icases Fs with ⟨FT31, FF31, FR31⟩
  iapply (wp_send_fwd m ρ K c _ false 3 1 _ ((dev_eq c 1 (k0_dev22_eq c)).trans hdn.symm) hk) $$ [$HR $FF31 $D31 $HO $TS_F31 $TR_F31]
  iintro ⟨CS_F31, HO⟩
  iapply (wp_copy_half m ρ c 3 1 fullShare.right.right _) $$ [$FR31 $Hout]; iintro ⟨FR31, Hout⟩
  iapply (wp_recv_wait m ρ K c hk true 0 0 [(true, 0, 0), (true, 0, 1)]) $$ [$HR $Hlev $CR_T00 $HO $AR_T00]
  iintro ⟨HO, F00, AR_T00⟩
  ihave Fs := (slot_shares m ρ c 0 0).1 $$ F00
  icases Fs with ⟨FT00, FF00, FR00⟩
  iapply (wp_send_fwd m ρ K c _ true 0 0 _ ((dev_eq c 3 (k0_dev23_eq c)).trans hup.symm) hk) $$ [$HR $FT00 $U00 $HO $TS_T00 $TR_T00]
  iintro ⟨CS_T00, HO⟩
  iapply (wp_copy_half m ρ c 0 0 fullShare.right.right _) $$ [$FR00 $Hout]; iintro ⟨FR00, Hout⟩
  iapply (wp_recv_wait m ρ K c hk true 0 1 [(true, 0, 1)]) $$ [$HR $Hlev $CR_T01 $HO $AR_T01]
  iintro ⟨HO, F01, AR_T01⟩
  ihave Fs := (slot_shares m ρ c 0 1).1 $$ F01
  icases Fs with ⟨FT01, FF01, FR01⟩
  iapply (wp_send_fwd m ρ K c _ true 0 1 _ ((dev_eq c 3 (k0_dev24_eq c)).trans hup.symm) hk) $$ [$HR $FT01 $U01 $HO $TS_T01 $TR_T01]
  iintro ⟨CS_T01, HO⟩
  iapply (wp_copy_half m ρ c 0 1 fullShare.right.right _) $$ [$FR01 $Hout]; iintro ⟨FR01, Hout⟩
  rw [show Ol (arriveOwes c []) = 0 from rfl]
  iapply (wp_send_wait m ρ K c hk true 2 0 (srcPts_own m ρ c 2 0 _ hk)) $$ [$HR $CS_T20 $HO $AS_T20]
  iintro ⟨HO, XT0, AS_T20⟩
  iapply (wp_send_wait m ρ K c hk false 2 0 (srcPts_own m ρ c 2 0 _ hk)) $$ [$HR $CS_F20 $HO $AS_F20]
  iintro ⟨HO, XF0, AS_F20⟩
  iapply (wp_send_wait m ρ K c hk true 2 1 (srcPts_own m ρ c 2 1 _ hk)) $$ [$HR $CS_T21 $HO $AS_T21]
  iintro ⟨HO, XT1, AS_T21⟩
  iapply (wp_send_wait m ρ K c hk false 2 1 (srcPts_own m ρ c 2 1 _ hk)) $$ [$HR $CS_F21 $HO $AS_F21]
  iintro ⟨HO, XF1, AS_F21⟩
  iapply (wp_send_wait m ρ K c hk true 1 0 (srcPts_fwd m ρ c hk 1 0 _)) $$ [$HR $CS_T10 $HO $AS_T10]
  iintro ⟨HO, FT10, AS_T10⟩
  iapply (wp_send_wait m ρ K c hk false 3 0 (srcPts_fwd m ρ c hk 3 0 _)) $$ [$HR $CS_F30 $HO $AS_F30]
  iintro ⟨HO, FF30, AS_F30⟩
  iapply (wp_send_wait m ρ K c hk true 1 1 (srcPts_fwd m ρ c hk 1 1 _)) $$ [$HR $CS_T11 $HO $AS_T11]
  iintro ⟨HO, FT11, AS_T11⟩
  iapply (wp_send_wait m ρ K c hk false 3 1 (srcPts_fwd m ρ c hk 3 1 _)) $$ [$HR $CS_F31 $HO $AS_F31]
  iintro ⟨HO, FF31, AS_F31⟩
  iapply (wp_send_wait m ρ K c hk true 0 0 (srcPts_fwd m ρ c hk 0 0 _)) $$ [$HR $CS_T00 $HO $AS_T00]
  iintro ⟨HO, FT00, AS_T00⟩
  iapply (wp_send_wait m ρ K c hk true 0 1 (srcPts_fwd m ρ c hk 0 1 _)) $$ [$HR $CS_T01 $HO $AS_T01]
  iintro ⟨HO, FT01, AS_T01⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  imod (close_unused2 m ρ K c hk false false 2) $$ [$HR $AR_F20 $AR_F21] with ⟨AR_F20, AR_F21⟩
  ihave Hx := (x_shares m ρ c).2 $$ [$XT0 $XT1 $XF0 $XF1 $HxR]
  ihave F10 := (slot_rejoin m ρ c 1 0) $$ [$FT10 $FF10 $FR10]
  ihave F30 := (slot_rejoin m ρ c 3 0) $$ [$FT30 $FF30 $FR30]
  ihave F11 := (slot_rejoin m ρ c 1 1) $$ [$FT11 $FF11 $FR11]
  ihave F31 := (slot_rejoin m ρ c 3 1) $$ [$FT31 $FF31 $FR31]
  ihave F00 := (slot_rejoin m ρ c 0 0) $$ [$FT00 $FF00 $FR00]
  ihave F01 := (slot_rejoin m ρ c 0 1) $$ [$FT01 $FF01 $FR01]
  ihave Hc := (comm_join (F := F) c) $$ [$F00 $F01 $F10 $F11 $S20 $S21 $F30 $F31]
  ihave Hout := (outOk_all m ρ c _ (by decide +revert)) $$ Hout
  rw [wp_ret]; imodintro
  iapply Hk
  unfold casePost
  rw [bigSep_J]
  iframe
  iexists _; iexact HO

/-- info: 'Cert.KernelIdeal.Line.case2' depends on axioms: [propext, Classical.choice, Quot.sound] -/
#guard_msgs in #print axioms case2

end Cert.KernelIdeal.Line
end
-- ==== Proof.Case3.lean ====
/- The body at the last place of a line. -/
import proofs.«900692_g7700000000000693_dist_ag_v7x_xyz2x4x4_y_m256_n256_f32_1_alg».proof.Proof.BodySpec
import proofs.«900692_g7700000000000693_dist_ag_v7x_xyz2x4x4_y_m256_n256_f32_1_alg».proof.Proof.Steps
import proofs.«900692_g7700000000000693_dist_ag_v7x_xyz2x4x4_y_m256_n256_f32_1_alg».proof.Proof.Unroll

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn3 (c : Dev nD) (hk : yc c = 3) :
    bigSep (barDuties (yc c)) (fun d => barPay (F := F) c d) = iprop((∃ f, slotPts (nbr c false) 3 0 fullShare f) ∗ (∃ f, slotPts (nbr c false) 3 1 fullShare f) ∗ emp) := by
  rw [hk, show barDuties (3 : Fin 4) = {false} from by decide, bigSep_singleton]
  unfold barPay; rw [if_neg Bool.false_ne_true, hk, show slotsGE (3 : Fin 4) = [(3, 0), (3, 1)] from by decide]
  simp only [slotsEx] <;> rfl

set_option maxHeartbeats 800000 in
/-- The last place of a line: one neighbour, below; its block goes down, the six other halves come up. -/
theorem case3 (c : Dev nD) (hk : yc c = 3) : CaseSpec m ρ K c := by
  intro W f0 g1 Kt
  have h1 : k0_cond1 c = 1#1 := by rw [cond1_iff, hk]; decide
  have h2 : ¬ k0_cond2 c = 1#1 := by rw [cond2_iff, hk]; decide
  have h3 : ¬ k0_cond3 c = 1#1 := by rw [cond3_iff, hk]; decide
  have h4 : ¬ k0_cond4 c = 1#1 := by rw [cond4_iff, hk]; decide
  have h5 : ¬ k0_cond5 c = 1#1 := by rw [cond5_iff, hk]; decide
  have h6 : k0_cond6 c = 1#1 := by rw [cond6_iff, hk]
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_neg h2, dif_neg h3, dif_neg h4, dif_neg h5, dif_pos h6, Prog.bind_op, Prog.bind_ret, Prog.pure_eq_ret]
  simp only [k0_part28_eq_skeleton, k0_part29_eq_skeleton, k0_part30_eq_skeleton, k0_part31_eq_skeleton, k0_part32_eq_skeleton]
  unfold k0_part28_skel k0_part29_skel k0_part30_skel k0_part31_skel k0_part32_skel
  simp only [Prog.lift, Prog.bind_assoc, Prog.bind_op, Prog.bind_ret, Prog.pure_eq_ret]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: arriveOwes c [(false, 3, 0), (false, 3, 1)]) from by unfold O₀ oweList barOwes; rw [hk]; rfl]
  have hdn : dn c = devAt c 2 := by unfold dn; rw [hk]; rfl
  have e0 : (⟨k0_dev1 c, k0_dev1_lt c h1⟩ : Dev nD) = dn c := Fin.ext (dev1_val c h1)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e0]
  iapply (wp_bar_signal m ρ K c (dn c) true _ (by rw [yc_dn, hk]; decide)) $$ [$HR $HO $HtD S00 S01 S10 S11 S20 S21]
  · unfold barPay; rw [if_pos rfl, up_dn, yc_dn, hk]
    rw [show slotsLE ((3 : Fin 4) - 1) = [(0, 0), (0, 1), (1, 0), (1, 1), (2, 0), (2, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn3 (F := F) c hk)) $$ Hpay
  icases Hp with ⟨U0, U1, -⟩
  iapply (wp_send_own m ρ K c _ false 3 0 _ ((dev_eq c 2 (k0_dev25_eq c)).trans hdn.symm) hk) $$ [$HR $XF0 $U0 $HO $TS_F30 $TR_F30]
  iintro ⟨CS0, HO⟩
  iapply (wp_send_own m ρ K c _ false 3 1 _ ((dev_eq c 2 (k0_dev26_eq c)).trans hdn.symm) hk) $$ [$HR $XF1 $U1 $HO $TS_F31 $TR_F31]
  iintro ⟨CS1, HO⟩
  iapply (wp_copy_own m ρ c 3 hk _ _) $$ [$HxR $Hout]; iintro ⟨HxR, Hout⟩
  iapply (wp_recv_wait m ρ K c hk true 2 0 []) $$ [$HR $Hlev $CR_T20 $HO $AR_T20]
  iintro ⟨HO, F20, AR_T20⟩
  iapply (wp_copy_half m ρ c 2 0 fullShare _) $$ [$F20 $Hout]; iintro ⟨F20, Hout⟩
  iapply (wp_recv_wait m ρ K c hk true 2 1 []) $$ [$HR $Hlev $CR_T21 $HO $AR_T21]
  iintro ⟨HO, F21, AR_T21⟩
  iapply (wp_copy_half m ρ c 2 1 fullShare _) $$ [$F21 $Hout]; iintro ⟨F21, Hout⟩
  iapply (wp_recv_wait m ρ K c hk true 1 0 []) $$ [$HR $Hlev $CR_T10 $HO $AR_T10]
  iintro ⟨HO, F10, AR_T10⟩
  iapply (wp_copy_half m ρ c 1 0 fullShare _) $$ [$F10 $Hout]; iintro ⟨F10, Hout⟩
  iapply (wp_recv_wait m ρ K c hk true 1 1 []) $$ [$HR $Hlev $CR_T11 $HO $AR_T11]
  iintro ⟨HO, F11, AR_T11⟩
  iapply (wp_copy_half m ρ c 1 1 fullShare _) $$ [$F11 $Hout]; iintro ⟨F11, Hout⟩
  iapply (wp_recv_wait m ρ K c hk true 0 0 []) $$ [$HR $Hlev $CR_T00 $HO $AR_T00]
  iintro ⟨HO, F00, AR_T00⟩
  iapply (wp_copy_half m ρ c 0 0 fullShare _) $$ [$F00 $Hout]; iintro ⟨F00, Hout⟩
  iapply (wp_recv_wait m ρ K c hk true 0 1 []) $$ [$HR $Hlev $CR_T01 $HO $AR_T01]
  iintro ⟨HO, F01, AR_T01⟩
  iapply (wp_copy_half m ρ c 0 1 fullShare _) $$ [$F01 $Hout]; iintro ⟨F01, Hout⟩
  rw [show Ol (arriveOwes c []) = 0 from rfl]
  iapply (wp_send_wait m ρ K c hk false 3 0 (srcPts_own m ρ c 3 0 _ hk)) $$ [$HR $CS0 $HO $AS_F30]
  iintro ⟨HO, XF0, AS_F30⟩
  iapply (wp_send_wait m ρ K c hk false 3 1 (srcPts_own m ρ c 3 1 _ hk)) $$ [$HR $CS1 $HO $AS_F31]
  iintro ⟨HO, XF1, AS_F31⟩
  imod (close_unused2 m ρ K c hk true true 0) $$ [$HR $AS_T00 $AS_T01] with ⟨AS_T00, AS_T01⟩
  imod (close_unused2 m ρ K c hk true true 1) $$ [$HR $AS_T10 $AS_T11] with ⟨AS_T10, AS_T11⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk true false 2) $$ [$HR $AS_F20 $AS_F21] with ⟨AS_F20, AS_F21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  imod (close_unused2 m ρ K c hk false false 2) $$ [$HR $AR_F20 $AR_F21] with ⟨AR_F20, AR_F21⟩
  imod (close_unused2 m ρ K c hk false false 3) $$ [$HR $AR_F30 $AR_F31] with ⟨AR_F30, AR_F31⟩
  ihave Hx := (x_shares m ρ c).2 $$ [$XT0 $XT1 $XF0 $XF1 $HxR]
  ihave F20 := (slotFull_ex m ρ c 2 0) $$ F20
  ihave F21 := (slotFull_ex m ρ c 2 1) $$ F21
  ihave F10 := (slotFull_ex m ρ c 1 0) $$ F10
  ihave F11 := (slotFull_ex m ρ c 1 1) $$ F11
  ihave F00 := (slotFull_ex m ρ c 0 0) $$ F00
  ihave F01 := (slotFull_ex m ρ c 0 1) $$ F01
  ihave Hc := (comm_join (F := F) c) $$ [$F00 $F01 $F10 $F11 $F20 $F21 $S30 $S31]
  ihave Hout := (outOk_all m ρ c _ (by decide +revert)) $$ Hout
  rw [wp_ret]; imodintro
  iapply Hk
  unfold casePost
  rw [bigSep_J]
  iframe
  iexists _; iexact HO

/-- info: 'Cert.KernelIdeal.Line.case3' depends on axioms: [propext, Classical.choice, Quot.sound] -/
#guard_msgs in #print axioms case3

end Cert.KernelIdeal.Line
end
-- ==== Proof.Body.lean ====
/- The four places' proofs as the launch theorem's body obligation. -/
import proofs.«900692_g7700000000000693_dist_ag_v7x_xyz2x4x4_y_m256_n256_f32_1_alg».proof.Proof.BodySpec
import proofs.«900692_g7700000000000693_dist_ag_v7x_xyz2x4x4_y_m256_n256_f32_1_alg».proof.Proof.Gen.KernelIdeal.Points

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gathered m ρ c))

set_option maxRecDepth 4000 in
theorem body_obligation_of (hc : ∀ (K : Dev nD × Option J → ℕ) (c : Dev nD), CaseSpec (F := F) m ρ K c) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start ghost
  iintro ⟨⟨⟨⟨%K, HR, Hpos, Htok⟩, Hcred, Hlev⟩, ⟨%f0, Hcomm⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (hc K c W f0 g1 (fun _ => bodyPost m ρ c))
  isplitl
  · unfold casePre; iframe
  · unfold casePost bodyPost Φ₁ Dat.owesAt Pipeline.owesWithin
    rw [show (dats m ρ 0 c).owed t₀.succ = 0 from rfl]
    iintro ⟨Hcomm, Hsem, ⟨%W', HO⟩, Hx, Hout⟩
    iframe Hcomm Hsem
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Cert.KernelIdeal.Line

end
-- ==== Proof.Launch.lean ====
/- The launch: ghost state minted and dealt to the devices, each body run from its share, the semaphores back at zero. -/
import proofs.«900692_g7700000000000693_dist_ag_v7x_xyz2x4x4_y_m256_n256_f32_1_alg».proof.Proof.Ghost

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osemJ :=
  ⟨by decide, fun a b h => dsem_injective (SemLoc.dma.inj h), by decide⟩

theorem share_eq (c : Dev nD) (w : Fin cfg0.W) : (dats m ρ 0 c).share w = fullShare := by unfold Dat.share; split <;> rfl

theorem kcell_injective : Function.Injective (kcell : Dev nD × Option J → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none =>
    cases k' with
    | none => rfl
    | some j' => exact absurd h2 (fun h' => by cases h')
  | some j =>
    cases k' with
    | none => exact absurd h2 (fun h' => by cases h')
    | some j' => rw [dsem_injective (SemLoc.dma.inj h2)]

def lineCells : Finset (GSem nD τ sig) := Finset.univ.map ⟨kcell, kcell_injective⟩

abbrev TI : Type := Bool ⊕ J

abbrev tokOf (ci : Dev nD × TI) : GSem nD τ sig × ℕ × Bool := match ci.2 with
  | .inl true => (barCell (dn ci.1), 0, true)
  | .inl false => (barCell (up ci.1), 0, false)
  | .inr j => (dcell (cond j.1 ci.1 (nbr ci.1 j.2.1)) j, 0, false)

theorem up_injective : Function.Injective (up : Dev nD → Dev nD) := fun a b h => by rw [← dn_up a, ← dn_up b, h]
theorem dn_injective : Function.Injective (dn : Dev nD → Dev nD) := fun a b h => by rw [← up_dn a, ← up_dn b, h]

theorem tokOf_injective : Function.Injective (tokOf : Dev nD × TI → GSem nD τ sig × ℕ × Bool) := by
  rintro ⟨c, i⟩ ⟨c', i'⟩ h
  have hd := congrArg (fun x : GSem nD τ sig × ℕ × Bool => x.1.1.1) h
  have hs := congrArg (fun x : GSem nD τ sig × ℕ × Bool => x.1.2) h
  have hb := congrArg (fun x : GSem nD τ sig × ℕ × Bool => x.2.2) h
  rcases i with (_ | _) | j <;> rcases i' with (_ | _) | j'
  · obtain rfl : c = c' := up_injective hd
    rfl
  · exact absurd (show false = true from hb) (by decide)
  · exact absurd hs (fun h' => by cases h')
  · exact absurd (show true = false from hb) (by decide)
  · obtain rfl : c = c' := dn_injective hd
    rfl
  · exact absurd hs (fun h' => by cases h')
  · exact absurd hs (fun h' => by cases h')
  · exact absurd hs (fun h' => by cases h')
  · have hj : j = j' := dsem_injective (SemLoc.dma.inj hs)
    subst hj
    obtain ⟨a, dir, o, hf⟩ := j
    have hc : c = c' := by
      cases a
      · cases dir
        · exact dn_injective hd
        · exact up_injective hd
      · exact hd
    rw [hc]

def lineToks : Finset (GSem nD τ sig × ℕ × Bool) := Finset.univ.map ⟨tokOf, tokOf_injective⟩

def u₀ : UU :=
  (initOf (Pipeline.cells cfgs cellOf_inj) (Pipeline.launchToks cfgs cellOf_inj), initOf lineCells lineToks)

def G (c : Dev nD) : sProp 𝕄 :=
  iprop((bigSep Finset.univ fun k : Option J => roundState ER (lineRd m ρ) (kcell (c, k)) 0)
    ∗ (bigSep Finset.univ fun k : Option J => iprop(atPos ER (kcell (c, k)) 0 ∅ 0 ∗ reached ER (kcell (c, k)) 0)) ∗ payToks c)

def G' (c : Dev nD) : sProp 𝕄 := iprop(∃ K, ghost m ρ K c)

omit [FloatOps F] in
theorem bigSep_bool' (Φ : Bool → sProp 𝕄) : bigSep Finset.univ Φ = iprop(Φ true ∗ Φ false) :=
  bigSep_univ_eq_bigSepL [true, false] (by decide) (by decide) Φ

omit [FloatOps F] in
theorem bigSep_sum' {A B : Type} [Fintype A] [Fintype B] (Φ : A ⊕ B → sProp 𝕄) :
    bigSep Finset.univ Φ = iprop((bigSep Finset.univ fun a : A => Φ (.inl a)) ∗ bigSep Finset.univ fun b : B => Φ (.inr b)) :=
  bigSep_univ_sum Φ

omit [FloatOps F] in
theorem bigSep_option' {A : Type} [Fintype A] (Φ : Option A → sProp 𝕄) :
    bigSep Finset.univ Φ = iprop((bigSep Finset.univ fun a : A => Φ (some a)) ∗ Φ none) := by
  rw [bigSep_univ_equiv (Equiv.optionEquivSumPUnit.{0, 0} A).symm Φ, bigSep_univ_sum, bigSep_univ_of_subsingleton (PUnit.unit : PUnit.{1})]
  rfl

omit [FloatOps F] in
theorem minted_eq : bigSep lineToks (fun x => (dutyTok ER x.1 x.2.1 x.2.2 : sProp 𝕄))
    = bigSep Finset.univ fun c : Dev nD => bigSep Finset.univ fun i : TI =>
        dutyTok ER (tokOf (c, i)).1 (tokOf (c, i)).2.1 (tokOf (c, i)).2.2 := by
  unfold lineToks; rw [bigSep_map, bigSep_univ_prod]; rfl

omit [FloatOps F] in
theorem payToks_of_minted (c : Dev nD) :
    (bigSep Finset.univ fun i : TI => (dutyTok ER (tokOf (c, i)).1 (tokOf (c, i)).2.1 (tokOf (c, i)).2.2 : sProp 𝕄)) ⊢ payToks c := by
  rw [bigSep_sum', bigSep_bool', bigSep_univ_prod, bigSep_bool', ← bigSep_sep']
  unfold payToks
  iintro ⟨⟨H1, H2⟩, H3⟩
  iframe H1 H2
  iexact H3

omit [FloatOps F] in
theorem lineToks_deal :
    bigSep lineToks (fun x => (dutyTok ER x.1 x.2.1 x.2.2 : sProp 𝕄)) ⊢ bigSep Finset.univ fun c : Dev nD => payToks c := by
  rw [minted_eq]
  exact bigSep_mono fun c _ => payToks_of_minted c

omit [FloatOps F] in
theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Option J => Φ (kcell (c, k)) := by
    unfold lineCells; rw [bigSep_map, bigSep_univ_prod]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (lineToks_deal (F := F)) $$ Htok
  unfold G; simp only [bigSep_sep']
  iframe

omit [FloatOps F] in
theorem ownSems0_eq (c : Dev nD) : (Pipeline.ownSems0 (Ix := Unit) (Name := ℕ) (U := UU) (Lvl := ℕ) (Val := Elt F) (τ := τ) osemJ c : sProp 𝕄)
    = bigSep Finset.univ fun j : J => semVal (dcell c j) 0 := rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osemJ c ∗ unscopedSems0 c)
      ⊢ (bigSep Finset.univ fun k : Option J => semVal (kcell (c, k)) 0 : sProp 𝕄) := by
  rw [ownSems0_eq, unscopedSems0_eq, bigSep_option']

omit [FloatOps F] in
theorem core_alloc (c : Dev nD) :
    iprop(Pipeline.ownSems0 (Ix := Unit) (Name := ℕ) (U := UU) (Lvl := ℕ) (Val := Elt F) (τ := τ) osemJ c ∗ unscopedSems0 c ∗ G m ρ c)
      ⊢ |={Set.univ}=> iprop((bigSep Finset.univ fun k : Option J => iprop(∃ κ : ℕ, cellInv ER (lineRd m ρ) κ (kcell (c, k))))
          ∗ (bigSep Finset.univ fun k : Option J => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : Option J => semVal (kcell (c, k)) 0) ∗ bigSep Finset.univ fun k : Option J => roundState ER (lineRd m ρ) (kcell (c, k)) 0)
      ⊢ (|={Set.univ}=> bigSep Finset.univ fun k : Option J => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  iframe

omit [FloatOps F] in
theorem ghost_intro (K : Dev nD × Option J → ℕ) (c : Dev nD) : iprop(records m ρ K ∗ positions c ∗ payToks c) ⊢ G' m ρ c := by
  unfold G' ghost
  iintro H
  iexists K
  iexact H

omit [FloatOps F] in
theorem positions_intro (c : Dev nD) :
    (bigSep Finset.univ fun k : Option J => (atPos ER (kcell (c, k)) 0 ∅ 0 : sProp 𝕄)) ⊢ positions c := by
  rw [bigSep_option']
  unfold positions
  iintro ⟨HJ, HB⟩
  iframe

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Option J => (atPos ER (kcell (c, k)) 0 ∅ 0 : sProp 𝕄)) ∗ payToks c) ⊢ iprop(positions c ∗ payToks c) := by
  iintro ⟨Hat, Htok⟩
  isplitl [Hat]
  · iapply (positions_intro (F := F) c); iexact Hat
  iexact Htok

omit [FloatOps F] in
theorem regroup :
    (bigSep Finset.univ fun c : Dev nD => iprop((bigSep Finset.univ fun k : Option J => iprop(∃ κ : ℕ, cellInv ER (lineRd m ρ) κ (kcell (c, k))))
          ∗ (bigSep Finset.univ fun k : Option J => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Option J => iprop(∃ κ : ℕ, cellInv ER (lineRd m ρ) κ (kcell ck))),
    bigSep_congr (s := Finset.univ) (fun (c : Dev nD) _ => bigSep_sep' Finset.univ (fun k : Option J => (atPos ER (kcell (c, k)) 0 ∅ 0 : sProp 𝕄)) (fun k => reached ER (kcell (c, k)) 0)),
    bigSep_sep', ← bigSep_univ_prod (fun ck : Dev nD × Option J => (reached ER (kcell ck) 0 : sProp 𝕄))]
  iintro ⟨HI, ⟨Hat, #HR⟩, Htok⟩
  ihave HK := (BI.bigSep_exists_pi Finset.univ (fun (ck : Dev nD × Option J) (κ : ℕ) => (cellInv ER (lineRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Option J => (atPos ER (kcell (c, k)) 0 ∅ 0 : sProp 𝕄)) payToks).symm).trans
      (bigSep_mono fun c _ => linear_intro c))
    iframe

omit [FloatOps F] in
theorem glob : (bigSep Finset.univ fun c => iprop(Pipeline.ownSems0 (Ix := Unit) (Name := ℕ) (U := UU) (Lvl := ℕ) (Val := Elt F) (τ := τ) osemJ c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
theorem start_intro (hcred : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (hcred c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  iframe

theorem phi1_exit (c : Dev nD) :
    (dats m ρ 0 c).Φ (Fin.last cfg0.N) ⊢ iprop(emp ∗ Pipeline.ownSems0 osemJ c ∗ Pipeline.scopedRest cfg0.spec c) := by
  rw [show (dats m ρ 0 c).Φ (Fin.last cfg0.N) = Φ₁ c from rfl, scopedRest0_eq, ownSems0_eq]
  unfold Φ₁
  iintro ⟨Hr, Hz⟩
  isplitr; · iempintro
  iframe

set_option maxRecDepth 8000 in
theorem run_main_of
    (hb : ∀ c : Dev nD, BodyObligation (dats (F := F) m ρ 0 c) (defs₀ (F := F)) 𝒱₀ () Set.univ)
    (hcred : ∀ c : Dev nD, (Pipeline.launchCred O₀ c : sProp 𝕄) ⊢ creds c)
    (hwaits : ∀ c : Dev nD, (levAts L lv : sProp 𝕄) ⊢ Pipeline.cellsWaits cfgs (dats m ρ) () 0 c) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := hwaits)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ hcred) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Line.run_main_of' depends on axioms: [propext, Classical.choice, Quot.sound] -/
#guard_msgs in #print axioms run_main_of

end Cert.KernelIdeal.Line

end
-- ==== Proof.Account.lean ====
/- Levels and launch credit: each device is dealt what the others owe it; the final arrays read off the run. -/
import proofs.«900692_g7700000000000693_dist_ag_v7x_xyz2x4x4_y_m256_n256_f32_1_alg».proof.Proof.Ghost
import proofs.«900692_g7700000000000693_dist_ag_v7x_xyz2x4x4_y_m256_n256_f32_1_alg».proof.Proof.Gen.KernelIdeal.Points

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem lv_low (c : Dev nD) (q : DmaSem sig) (hq : semQ q = 0) : lv ((c : Thread nD τ), .dma q) () = 0 := by
  show (if semQ q = 1 then _ else if semQ q = 3 then _ else 0) = 0
  rw [hq, if_neg (by decide), if_neg (by decide)]

theorem oweList_above (c : Dev nD) : ∀ x ∈ oweList c, x.1.1.2 = .tc ∧ 0 < lv x.1 () := by
  intro x hx
  unfold oweList at hx
  rcases List.mem_append.mp hx with hx | hx
  · unfold barOwes at hx
    rcases List.mem_append.mp hx with hx | hx
    · split at hx
      · rw [List.mem_singleton.mp hx]; exact ⟨rfl, by rw [lv_bar]; exact Nat.one_pos⟩
      · exact absurd hx (List.not_mem_nil)
    · split at hx
      · rw [List.mem_singleton.mp hx]; exact ⟨rfl, by rw [lv_bar]; exact Nat.one_pos⟩
      · exact absurd hx (List.not_mem_nil)
  · unfold arriveOwes at hx
    obtain ⟨p, -, rfl⟩ := List.mem_map.mp hx
    exact ⟨rfl, by rw [lv_recv]; omega⟩

omit [FloatOps F] in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · show _ ⊢ MayWait _ _ () (Ol (oweList c))
      refine mayWait_list c _ (oweList c) fun x hx => ⟨(oweList_above c x hx).1, ?_⟩
      rw [lv_low c _ (by fin_cases w <;> fin_cases s <;> decide)]
      exact (oweList_above c x hx).2
    · show _ ⊢ MayWait _ _ () 0
      rw [MayWait_zero]; iintro -; iempintro

omit [FloatOps F] in
theorem Ol_append (l₁ l₂ : List (GSem nD τ sig × ℕ)) : Ol (l₁ ++ l₂) = Ol l₁ + Ol l₂ := by
  unfold Ol; rw [List.map_append, List.sum_append]

theorem Ol_apply (l : List (GSem nD τ sig × ℕ)) (g : GSem nD τ sig) :
    Ol l g () = (l.map fun x => if g = x.1 then x.2 else 0).sum := by
  induction l with
  | nil => rfl
  | cons x l ih =>
    rw [Ol_cons, Pi.add_apply, Finsupp.add_apply, ih, tallyAt_apply, List.map_cons, List.sum_cons, Nat.add_comm]
    congr 1
    by_cases h : g = x.1
    · rw [if_pos ⟨h, rfl⟩, if_pos h]
    · rw [if_neg (fun h' => h h'.1), if_neg h]

theorem Ol_opt (P : Prop) [Decidable P] (g' g : GSem nD τ sig) (n : ℕ) :
    Ol (if P then [(g', n)] else []) g () = if P ∧ g = g' then n else 0 := by
  by_cases h : P
  · rw [if_pos h, Ol_cons, Ol_nil, zero_add, tallyAt_apply]
    by_cases h' : g = g'
    · rw [if_pos ⟨h', rfl⟩, if_pos ⟨h, h'⟩]
    · rw [if_neg (fun x => h' x.1), if_neg (fun x => h' x.2)]
  · rw [if_neg h, if_neg (fun x => h x.1)]; rfl

theorem sum_map_ite {α : Type} (l : List α) (P : α → Prop) [DecidablePred P] (n : ℕ) :
    (l.map fun p => if P p then n else 0).sum = n * (l.map fun p => if P p then 1 else 0).sum := by
  induction l with
  | nil => rfl
  | cons x l ih =>
    rw [List.map_cons, List.sum_cons, List.map_cons, List.sum_cons, ih, Nat.mul_add]
    congr 1
    by_cases h : P x
    · rw [if_pos h, if_pos h, Nat.mul_one]
    · rw [if_neg h, if_neg h, Nat.mul_zero]

theorem bar_eq_iff {a b : Dev nD} : barCell a = barCell b ↔ a = b :=
  ⟨fun h => congrArg (fun g : GSem nD τ sig => g.1.1) h, fun h => h ▸ rfl⟩

theorem recv_eq_iff {a b : Dev nD} {p q : Bool × Fin 4 × Fin 2} :
    recvCell a p.1 p.2.1 p.2.2 = recvCell b q.1 q.2.1 q.2.2 ↔ a = b ∧ p = q := by
  constructor
  · intro h
    refine ⟨congrArg (fun g : GSem nD τ sig => g.1.1) h, ?_⟩
    have h2 : dsem (false, p) = dsem (false, q) := SemLoc.dma.inj (congrArg Prod.snd h)
    exact (Prod.mk.inj (dsem_injective h2)).2
  · rintro ⟨rfl, rfl⟩; rfl

theorem recv_ne_bar (a b : Dev nD) (p : Bool × Fin 4 × Fin 2) : recvCell a p.1 p.2.1 p.2.2 ≠ barCell b := fun h => by
  have h2 : (SemLoc.dma (semAt (recvA p.1) p.2.1 p.2.2) : SemLoc sig) = .reg barS := congrArg Prod.snd h
  cases h2

theorem owed_bar (d c : Dev nD) :
    O₀ d (barCell c) () = (if 0 < (yc d).val ∧ c = dn d then 1 else 0) + (if (yc d).val < 3 ∧ c = up d then 1 else 0) := by
  unfold O₀ oweList
  rw [Ol_append, Pi.add_apply, Finsupp.add_apply]
  have h0 : Ol (arriveOwes d (sendOrder (yc d))) (barCell c) () = 0 := by
    rw [Ol_apply]; unfold arriveOwes; rw [List.map_map]
    refine List.sum_eq_zero fun x hx => ?_
    obtain ⟨p, -, rfl⟩ := List.mem_map.mp hx
    exact if_neg fun h => recv_ne_bar _ _ _ h.symm
  rw [h0, Nat.add_zero]; unfold barOwes
  rw [Ol_append, Pi.add_apply, Finsupp.add_apply, Ol_opt, Ol_opt]
  simp only [bar_eq_iff]

theorem owed_recv (d c : Dev nD) (q : Bool × Fin 4 × Fin 2) :
    O₀ d (recvCell c q.1 q.2.1 q.2.2) ()
      = N * ((sendOrder (yc d)).map fun p => if c = nbr d p.1 ∧ q = p then 1 else 0).sum := by
  unfold O₀ oweList
  rw [Ol_append, Pi.add_apply, Finsupp.add_apply]
  have h0 : Ol (barOwes d) (recvCell c q.1 q.2.1 q.2.2) () = 0 := by
    unfold barOwes
    rw [Ol_append, Pi.add_apply, Finsupp.add_apply, Ol_opt, Ol_opt, if_neg (fun h => recv_ne_bar _ _ _ h.2),
      if_neg (fun h => recv_ne_bar _ _ _ h.2)]
  rw [h0, Nat.zero_add, Ol_apply]; unfold arriveOwes
  rw [List.map_map, ← sum_map_ite]
  refine congrArg List.sum (List.map_congr_left fun p _ => ?_)
  exact if_congr recv_eq_iff rfl rfl

theorem sum_bar (c : Dev nD) :
    (∑ d : Dev nD, ((if 0 < (yc d).val ∧ c = dn d then 1 else 0) + (if (yc d).val < 3 ∧ c = up d then 1 else 0)))
      = (barDuties (yc c)).card := by
  revert c; decide +kernel

theorem sum_recv (c : Dev nD) (q : Bool × Fin 4 × Fin 2) :
    (∑ d : Dev nD, ((sendOrder (yc d)).map fun p => if c = nbr d p.1 ∧ q = p then 1 else 0).sum)
      = if recvs (yc c) q.1 q.2.1 = true then 1 else 0 := by
  revert c q; decide +kernel

theorem launch_bar (c : Dev nD) :
    tallyOn (barCell c) (launchCredit (Pipeline.owing O₀) 0 (barCell c))
      = (tallyAt (barCell c) () (barDuties (yc c)).card : CellTallies nD τ sig Unit) := by
  unfold tallyAt; refine congrArg _ (Finsupp.ext fun u => ?_); cases u
  rw [Pipeline.launchCredit_owing, Finsupp.single_eq_same, Finset.sum_congr rfl fun d _ => owed_bar d c]
  exact sum_bar c

theorem launch_recv (c : Dev nD) (q : Bool × Fin 4 × Fin 2) :
    tallyOn (recvCell c q.1 q.2.1 q.2.2) (launchCredit (Pipeline.owing O₀) 0 (recvCell c q.1 q.2.1 q.2.2))
      = (tallyAt (recvCell c q.1 q.2.1 q.2.2) () (if recvs (yc c) q.1 q.2.1 = true then N else 0) : CellTallies nD τ sig Unit) := by
  unfold tallyAt; refine congrArg _ (Finsupp.ext fun u => ?_); cases u
  rw [Pipeline.launchCredit_owing, Finsupp.single_eq_same, Finset.sum_congr rfl fun d _ => owed_recv d c q, ← Finset.mul_sum,
    sum_recv]
  split
  · exact Nat.mul_one _
  · exact Nat.mul_zero _

def recvLoc : (Bool × Fin 4 × Fin 2) ↪ SemLoc sig :=
  ⟨fun p => .dma (semAt (recvA p.1) p.2.1 p.2.2), fun p q h => by
    have h2 : dsem (false, p) = dsem (false, q) := SemLoc.dma.inj h
    exact (Prod.mk.inj (dsem_injective h2)).2⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvLoc) fun sm hsm => ?_).trans ?_
  · obtain ⟨p, -, rfl⟩ := Finset.mem_map.mp hsm
    refine Finset.mem_erase.mpr ⟨fun h => ?_, Finset.mem_univ _⟩
    have h2 : (SemLoc.dma (semAt (recvA p.1) p.2.1 p.2.2) : SemLoc sig) = .reg barS := h
    cases h2
  · rw [bigSep_map]
    exact Entails.of_eq (bigSep_congr fun p _ => congrArg cred (launch_recv c p))

theorem xstg_eq (d : Dev nD) : xstg m ρ d = m ((d : Thread nD τ).loc main_arg0) := by
  unfold xstg
  exact Memref.read_access_unit_zero (Elt F) main_arg0 (funext fun a => Nat.zero_mul _) _ _

theorem final_arg (c : Dev nD) :
    (dats (F := F) m ρ 0 c).arrAt (0 : Fin 2) cfg0.N = (s₀ m ρ).mem (win0_0.arr.view.loc (c : Thread nD τ)) :=
  (dats (F := F) m ρ 0 c).arrAt_in (0 : Fin 2) rfl _

theorem final_out (c : Dev nD) :
    ((dats (F := F) m ρ 0 c).arrAt (1 : Fin 2) cfg0.N : Buf (Elt F) ((c : Thread nD τ).loc main_v1)) = gatheredA m c := by
  show (dats (F := F) m ρ 0 c).arrAt (1 : Fin 2) ((t0_0 : Fin cfg0.N).val + 1) = _
  rw [Dat.arrAt_succ, flush0_1 t0_0, if_pos rfl]
  refine (Memref.write_access_unit_zero_univ (Elt F) main_v1 (funext fun a => Nat.zero_mul _) _ _ _).trans ?_
  funext i
  show gathered m ρ c i = gatheredA m c i
  unfold gathered gatheredA
  rw [xstg_eq]

theorem post_of_arrays (r : MemSt nD τ sig (Elt F))
    (h : ∀ c : Dev nD, ∀ w : Fin cfg0.W, r.mem ((cfg0.win w).arr.view.loc (c : Thread nD τ)) = (dats m ρ 0 c).arrAt w cfg0.N) :
    ∀ c : Dev nD, r.mem ((c.tc : Thread nD τ).loc main_v1) = gatheredA m c
      ∧ r.mem ((c.tc : Thread nD τ).loc main_arg0) = m ((c.tc : Thread nD τ).loc main_arg0) :=
  fun c => ⟨(h c 1).trans (final_out m ρ c), (h c 0).trans (final_arg m ρ c)⟩

end Cert.KernelIdeal.Line

end
-- ==== Proof.Run.lean ====
/- Every device's body by its place, and the program's run with each result array named. -/
import proofs.«900692_g7700000000000693_dist_ag_v7x_xyz2x4x4_y_m256_n256_f32_1_alg».proof.Proof.Case0
import proofs.«900692_g7700000000000693_dist_ag_v7x_xyz2x4x4_y_m256_n256_f32_1_alg».proof.Proof.Case1
import proofs.«900692_g7700000000000693_dist_ag_v7x_xyz2x4x4_y_m256_n256_f32_1_alg».proof.Proof.Case2
import proofs.«900692_g7700000000000693_dist_ag_v7x_xyz2x4x4_y_m256_n256_f32_1_alg».proof.Proof.Case3
import proofs.«900692_g7700000000000693_dist_ag_v7x_xyz2x4x4_y_m256_n256_f32_1_alg».proof.Proof.Body
import proofs.«900692_g7700000000000693_dist_ag_v7x_xyz2x4x4_y_m256_n256_f32_1_alg».proof.Proof.Launch
import proofs.«900692_g7700000000000693_dist_ag_v7x_xyz2x4x4_y_m256_n256_f32_1_alg».proof.Proof.Account

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem case_all (K : Dev nD × Option J → ℕ) (c : Dev nD) : CaseSpec (F := F) m ρ K c := by
  have h : yc c = 0 ∨ yc c = 1 ∨ yc c = 2 ∨ yc c = 3 := by revert c; decide
  rcases h with h | h | h | h
  · exact case0 m ρ K c h
  · exact case1 m ρ K c h
  · exact case2 m ρ K c h
  · exact case3 m ρ K c h

theorem run_main :
    θ_run defs (onTc (τ := τ) (main (F := F))) ⟨m, fun _ => 0, ρ⟩ (fun r => ∀ c : Dev nD,
      r.2.mem ((c.tc : Thread nD τ).loc main_v1) = gatheredA m c
      ∧ r.2.mem ((c.tc : Thread nD τ).loc main_arg0) = m ((c.tc : Thread nD τ).loc main_arg0)) :=
  (θ_run defs _ _).mono (fun r h => post_of_arrays m ρ r.2 h)
    (run_main_of m ρ (body_obligation_of m ρ (case_all m ρ)) (creds_intro (F := F)) (waits m ρ))

/-- info: 'Cert.KernelIdeal.Line.run_main' depends on axioms: [propext, Classical.choice, Quot.sound] -/
#guard_msgs in #print axioms run_main

end Cert.KernelIdeal.Line

end
-- ==== Proof.Kernel.Mesh.lean ====
/- The 32 devices as eight lines of four along the mesh's second axis: places, neighbours, and the printed conditions and device ids in closed form. -/
import proofs.«900692_g7700000000000693_dist_ag_v7x_xyz2x4x4_y_m256_n256_f32_1_alg».proof.Proof.Gen.Kernel

namespace Cert.Kernel.Line

open Cert.Kernel Cert.Kernel.Gen
open Idealize.ShloMosaic Idealize.SL.Sem

/-- A device's place on its line. -/
def yc (c : Dev nD) : Fin 4 := ⟨(c.val / 4) % 4, Nat.mod_lt _ (by decide)⟩

/-- The device at place `j` of `c`'s line. -/
def devAt (c : Dev nD) (j : Fin 4) : Dev nD := ⟨16 * (c.val / 16) + 4 * j.val + c.val % 4, by have h1 : c.val < 32 := c.isLt; have := j.isLt; show _ < 32; omega⟩

theorem devAt_yc (c : Dev nD) : devAt c (yc c) = c := by revert c; decide
theorem yc_devAt (c : Dev nD) (j : Fin 4) : yc (devAt c j) = j := by revert c j; decide
theorem devAt_devAt (c : Dev nD) (i j : Fin 4) : devAt (devAt c i) j = devAt c j := by revert c i j; decide
/-- A printed device id in closed form is the device at place `j` of the same line. -/
theorem dev_eq (c : Dev nD) (j : Fin 4) {d : ℕ} {hd : d < nD} (h : d = 16 * (c.val / 16) + c.val % 4 + 4 * j.val) : (⟨d, hd⟩ : Dev nD) = devAt c j :=
  Fin.ext (by show d = 16 * (c.val / 16) + 4 * j.val + c.val % 4; omega)

/-- The neighbour one place up (wrapping; the wrap is never addressed). -/
def up (c : Dev nD) : Dev nD := devAt c (yc c + 1)
/-- The neighbour one place down. -/
def dn (c : Dev nD) : Dev nD := devAt c (yc c - 1)

theorem dn_up (c : Dev nD) : dn (up c) = c := by revert c; decide
theorem up_dn (c : Dev nD) : up (dn c) = c := by revert c; decide
theorem yc_up (c : Dev nD) : yc (up c) = yc c + 1 := by revert c; decide
theorem yc_dn (c : Dev nD) : yc (dn c) = yc c - 1 := by revert c; decide
theorem up_ne (c : Dev nD) : up c ≠ c := by revert c; decide
theorem dn_ne (c : Dev nD) : dn c ≠ c := by revert c; decide
theorem up_ne_dn (c : Dev nD) : up c ≠ dn c := by revert c; decide

theorem up_val (c : Dev nD) (h : (yc c).val < 3) : (up c).val = c.val + 4 := by revert c; decide
theorem dn_val (c : Dev nD) (h : 0 < (yc c).val) : (dn c).val = c.val - 4 := by revert c; decide
theorem devAt_up (c : Dev nD) (j : Fin 4) : devAt (up c) j = devAt c j := devAt_devAt c _ j
theorem devAt_dn (c : Dev nD) (j : Fin 4) : devAt (dn c) j = devAt c j := devAt_devAt c _ j

def line : Dev nD ≃ Dev nD := ⟨up, dn, dn_up, up_dn⟩

theorem cond1_iff (c : Dev nD) : k0_cond1 c = 1#1 ↔ 0 < (yc c).val := by revert c; decide +kernel
theorem cond2_iff (c : Dev nD) : k0_cond2 c = 1#1 ↔ (yc c).val < 3 := by revert c; decide +kernel
theorem cond3_iff (c : Dev nD) : k0_cond3 c = 1#1 ↔ yc c = 0 := by revert c; decide +kernel
theorem cond4_iff (c : Dev nD) : k0_cond4 c = 1#1 ↔ yc c = 1 := by revert c; decide +kernel
theorem cond5_iff (c : Dev nD) : k0_cond5 c = 1#1 ↔ yc c = 2 := by revert c; decide +kernel
theorem cond6_iff (c : Dev nD) : k0_cond6 c = 1#1 ↔ yc c = 3 := by revert c; decide +kernel

theorem amt1_eq (c : Dev nD) : (k0_amt1 c).toNat = (if 0 < (yc c).val then 1 else 0) + (if (yc c).val < 3 then 1 else 0) := by
  revert c; decide +kernel

theorem dev1_val (c : Dev nD) (h : k0_cond1 c = 1#1) : k0_dev1 c = (dn c).val := by revert c; decide +kernel
theorem dev2_val (c : Dev nD) (h : k0_cond2 c = 1#1) : k0_dev2 c = (up c).val := by revert c; decide +kernel

end Cert.Kernel.Line
-- ==== Proof.Kernel.Cells.lean ====
/- Vocabulary of the line all-gather: slot (o, h) of the receive buffer holds half h of the block from place o; one send and one receive semaphore per direction and slot. -/
import proofs.«900692_g7700000000000693_dist_ag_v7x_xyz2x4x4_y_m256_n256_f32_1_alg».proof.Proof.Kernel.Mesh
import proofs.«900692_g7700000000000693_dist_ag_v7x_xyz2x4x4_y_m256_n256_f32_1_alg».proof.Proof.Gen.Kernel.Skeleton
import proofs.«900692_g7700000000000693_dist_ag_v7x_xyz2x4x4_y_m256_n256_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev xM : Memref sig .tc .vmem S256x256 .f32 := Memref.whole cc0_stg0_0
abbrev oM : Memref sig .tc .vmem S1024x256 .f32 := Memref.whole cc0_stg1_0
abbrev cM : Memref sig .tc .vmem S4x256x256 .f32 := Memref.whole cc0_scratch0

theorem slot_inb (o : Fin 4) (h : Fin 2) : ∀ a, (![o.val, 128 * h.val, 0] : Fin 3 → Nat) a + S1x128x256.size a ≤ S4x256x256.size a := by
  revert o h; decide
theorem half_inb (h : Fin 2) : ∀ a, (![128 * h.val, 0] : Fin 2 → Nat) a + S128x256.size a ≤ S256x256.size a := by
  revert h; decide

abbrev slotR (o : Fin 4) (h : Fin 2) : Rect S4x256x256 := Rect.unit (s := S4x256x256) ![o.val, 128 * h.val, 0] S1x128x256.size (slot_inb o h)
/-- Slot (o, h): rows 128h … 128h + 127 of plane o of the receive buffer. -/
abbrev slotM (o : Fin 4) (h : Fin 2) : Memref sig .tc .vmem S128x256 .f32 :=
  (cM.slice (slotR o h) (fun _ => rfl)).squeeze S128x256 squeezes_S1x128x256_S128x256
abbrev halfR (h : Fin 2) : Rect S256x256 := Rect.unit (s := S256x256) ![128 * h.val, 0] S128x256.size (half_inb h)
/-- Half h of the device's own block. -/
abbrev halfM (h : Fin 2) : Memref sig .tc .vmem S128x256 .f32 := xM.slice (halfR h) (fun _ => rfl)

theorem sem_inb (o : Fin 4) (h : Fin 2) : ∀ a, (![o.val, h.val] : Fin 2 → Nat) a + S1x1.size a ≤ S4x2.size a := by
  revert o h; decide
abbrev semAt (A : DmaSems sig S4x2) (o : Fin 4) (h : Fin 2) : DmaSem sig :=
  ((A.slice (Rect.unit (s := S4x2) ![o.val, h.val] S1x1.size (sem_inb o h))).squeeze S_ squeezes_S1x1_S_).sem

abbrev sendA (dir : Bool) : DmaSems sig S4x2 := cond dir cc0_scratch1 cc0_scratch3
abbrev recvA (dir : Bool) : DmaSems sig S4x2 := cond dir cc0_scratch2 cc0_scratch4

abbrev barS : Sem sig := (SemArray.scalar (sig.barrier 0 rfl) : Sems sig S_).sem

abbrev barCell (c : Dev nD) : GSem nD τ sig := ((c : Thread nD τ), .reg barS)
abbrev sendCell (c : Dev nD) (dir : Bool) (o : Fin 4) (h : Fin 2) : GSem nD τ sig := ((c : Thread nD τ), .dma (semAt (sendA dir) o h))
abbrev recvCell (c : Dev nD) (dir : Bool) (o : Fin 4) (h : Fin 2) : GSem nD τ sig := ((c : Thread nD τ), .dma (semAt (recvA dir) o h))

abbrev osem : Fin 32 → SemLoc sig := fun j => .dma ⟨2 + j.val, by have := j.isLt; show _ < 34; omega⟩

theorem sendSem_val (dir : Bool) (o : Fin 4) (h : Fin 2) : (semAt (sendA dir) o h).val = 2 + (cond dir 0 16) + 2 * o.val + h.val := by
  revert dir o h; decide
theorem recvSem_val (dir : Bool) (o : Fin 4) (h : Fin 2) : (semAt (recvA dir) o h).val = 2 + (cond dir 8 24) + 2 * o.val + h.val := by
  revert dir o h; decide

abbrev N : ℕ := (slotM 0 0).view.dmaCredit
theorem N_pos : 0 < N := View.dmaCredit_pos _ (by decide)

/-- The neighbour in a direction (`true`: up). -/
abbrev nbr (c : Dev nD) (dir : Bool) : Dev nD := cond dir (up c) (dn c)

def xstg (c : Dev nD) : (cc0_stg0_0 : Ref sig .tc).ty.Contents (Elt F) :=
  (win0_0.blk (0 : Fin 1)).view.read (Elt F) ((s₀ m ρ).mem ((c : Thread nD τ).loc main_arg0))

/-- What a filled receive buffer holds on `c`'s line: plane o is the block of the device at place o. -/
def commVal (c : Dev nD) : (cc0_scratch0 : Ref sig .tc).ty.Contents (Elt F) :=
  fun i => xstg m ρ (devAt c (i 0)) (ix2 (i 1) (i 2))

/-- The gathered result: rows 256o … 256o + 255 are the block of the device at place o. -/
def gathered (c : Dev nD) : (cc0_stg1_0 : Ref sig .tc).ty.Contents (Elt F) :=
  fun i => xstg m ρ (devAt c ⟨(i 0).val / 256, by have h : (i 0).val < 1024 := (i 0).isLt; show _ < 4; omega⟩)
    (ix2 ⟨(i 0).val % 256, Nat.mod_lt _ (by decide)⟩ (i 1))

def gatheredA (c : Dev nD) : Buf (Elt F) ((c : Thread nD τ).loc main_v1) :=
  fun i => m (((devAt c ⟨(i 0).val / 256, by have h : (i 0).val < 1024 := (i 0).isLt; show _ < 4; omega⟩ : Dev nD) : Thread nD τ).loc main_arg0)
    (ix2 ⟨(i 0).val % 256, Nat.mod_lt _ (by decide)⟩ (i 1))

end Cert.Kernel.Line

end
-- ==== Proof.Kernel.Sched.lean ====
/- Who sends and receives what at each place, the resources that travel with each transfer, and the schedule of every semaphore's single round. -/
import proofs.«900692_g7700000000000693_dist_ag_v7x_xyz2x4x4_y_m256_n256_f32_1_alg».proof.Proof.Kernel.Cells

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Place k passes origin o on in direction `dir`: it lies on that side of the origin and is not the line's end. -/
def sends (k : Fin 4) (dir : Bool) (o : Fin 4) : Bool := cond dir (decide (o ≤ k ∧ k.val < 3)) (decide (k ≤ o ∧ 0 < k.val))
/-- Place k receives origin o travelling in direction `dir`. -/
def recvs (k : Fin 4) (dir : Bool) (o : Fin 4) : Bool := cond dir (decide (o < k)) (decide (k < o))

theorem recvs_nbr (c : Dev nD) (dir : Bool) (o : Fin 4) (h : sends (yc c) dir o = true) : recvs (yc (nbr c dir)) dir o = true := by
  revert c dir o; decide

/-- The share of its source a pending transfer holds, by direction; `fullShare.right.right` stays for reading. -/
abbrev shareOf (dir : Bool) : PosShare TreeShare := cond dir fullShare.left fullShare.right.left

def slotPts (c : Dev nD) (o : Fin 4) (h : Fin 2) (q : PosShare TreeShare) (f : Buf (Elt F) ((slotM o h).view.loc (c : Thread nD τ))) : sProp 𝕄 :=
  (slotM o h).view.loc (c : Thread nD τ) ↦[(slotM o h).view.set]{q} f
def halfPts (c : Dev nD) (h : Fin 2) (q : PosShare TreeShare) : sProp 𝕄 :=
  (halfM h).view.loc (c : Thread nD τ) ↦[(halfM h).view.set]{q} xstg m ρ c
def slotFull (c : Dev nD) (o : Fin 4) (h : Fin 2) (q : PosShare TreeShare) : sProp 𝕄 := slotPts c o h q (commVal m ρ c)
/-- A transfer's source: the own block half at the origin, else the slot the half arrived in. -/
def srcPts (c : Dev nD) (o : Fin 4) (h : Fin 2) (q : PosShare TreeShare) : sProp 𝕄 :=
  if o = yc c then halfPts m ρ c h q else slotFull m ρ c o h q
def slotsEx (c : Dev nD) : List (Fin 4 × Fin 2) → sProp 𝕄
  | [] => iprop(emp)
  | p :: l => iprop((∃ f, slotPts c p.1 p.2 fullShare f) ∗ slotsEx c l)

def slotsGE (k : Fin 4) : List (Fin 4 × Fin 2) := ((List.finRange 4).filter (fun o => k ≤ o)).flatMap fun o => [(o, 0), (o, 1)]
def slotsLE (k : Fin 4) : List (Fin 4 × Fin 2) := ((List.finRange 4).filter (fun o => o ≤ k)).flatMap fun o => [(o, 0), (o, 1)]

omit [FloatOps F] in
instance slotPts_storable (c : Dev nD) (o h q f) : BI.Storable (upEmb : UEmb _ 𝕄) (slotPts (F := F) c o h q f) := by unfold slotPts; infer_instance
omit [FloatOps F] in
instance halfPts_storable (c : Dev nD) (h q) : BI.Storable (upEmb : UEmb _ 𝕄) (halfPts (F := F) m ρ c h q) := by unfold halfPts; infer_instance
omit [FloatOps F] in
instance slotFull_storable (c : Dev nD) (o h q) : BI.Storable (upEmb : UEmb _ 𝕄) (slotFull (F := F) m ρ c o h q) := by unfold slotFull; infer_instance
omit [FloatOps F] in
instance srcPts_storable (c : Dev nD) (o h q) : BI.Storable (upEmb : UEmb _ 𝕄) (srcPts (F := F) m ρ c o h q) := by unfold srcPts; split <;> infer_instance
omit [FloatOps F] in
instance slotsEx_storable (c : Dev nD) (l : List (Fin 4 × Fin 2)) : BI.Storable (upEmb : UEmb _ 𝕄) (slotsEx (F := F) c l) := by
  induction l with
  | nil => unfold slotsEx; infer_instance
  | cons p l ih => unfold slotsEx; infer_instance

def semQ (s : DmaSem sig) : ℕ := (s.val - 2) / 8
def semO (s : DmaSem sig) : Fin 4 := ⟨((s.val - 2) % 8) / 2, by omega⟩
def semH (s : DmaSem sig) : Fin 2 := ⟨(s.val - 2) % 2, by omega⟩

theorem semQ_send (dir : Bool) (o : Fin 4) (h : Fin 2) : semQ (semAt (sendA dir) o h) = cond dir 0 2 := by revert dir o h; decide
theorem semQ_recv (dir : Bool) (o : Fin 4) (h : Fin 2) : semQ (semAt (recvA dir) o h) = cond dir 1 3 := by revert dir o h; decide
theorem semO_send (dir : Bool) (o : Fin 4) (h : Fin 2) : semO (semAt (sendA dir) o h) = o := by revert dir o h; decide
theorem semO_recv (dir : Bool) (o : Fin 4) (h : Fin 2) : semO (semAt (recvA dir) o h) = o := by revert dir o h; decide
theorem semH_send (dir : Bool) (o : Fin 4) (h : Fin 2) : semH (semAt (sendA dir) o h) = h := by revert dir o h; decide
theorem semH_recv (dir : Bool) (o : Fin 4) (h : Fin 2) : semH (semAt (recvA dir) o h) = h := by revert dir o h; decide
theorem two_le_send (dir : Bool) (o : Fin 4) (h : Fin 2) : 2 ≤ (semAt (sendA dir) o h).val := by revert dir o h; decide
theorem two_le_recv (dir : Bool) (o : Fin 4) (h : Fin 2) : 2 ≤ (semAt (recvA dir) o h).val := by revert dir o h; decide

def used (k : Fin 4) (s : DmaSem sig) : Bool :=
  decide (2 ≤ s.val) && (if semQ s = 0 then sends k true (semO s) else if semQ s = 1 then recvs k true (semO s)
    else if semQ s = 2 then sends k false (semO s) else recvs k false (semO s))

theorem used_send (k : Fin 4) (dir : Bool) (o : Fin 4) (h : Fin 2) : used k (semAt (sendA dir) o h) = sends k dir o := by
  revert k dir o h; decide
theorem used_recv (k : Fin 4) (dir : Bool) (o : Fin 4) (h : Fin 2) : used k (semAt (recvA dir) o h) = recvs k dir o := by
  revert k dir o h; decide

def barDuties (k : Fin 4) : Finset Bool := (if 0 < k.val then {false} else ∅) ∪ (if k.val < 3 then {true} else ∅)

/-- What a barrier unit hands over: the sender's slots that the receiver will fill. -/
def barPay (c : Dev nD) (d : Bool) : sProp 𝕄 :=
  if d then slotsEx (up c) (slotsLE (yc c)) else slotsEx (dn c) (slotsGE (yc c))

def dmaPay (c : Dev nD) (s : DmaSem sig) : sProp 𝕄 :=
  if semQ s = 0 then srcPts m ρ c (semO s) (semH s) (shareOf true)
  else if semQ s = 1 then slotFull m ρ c (semO s) (semH s) fullShare
  else if semQ s = 2 then srcPts m ρ c (semO s) (semH s) (shareOf false)
  else slotFull m ρ c (semO s) (semH s) fullShare

/-- One round per cell: a barrier cell has a unit per neighbour, a used DMA cell one duty worth a block half. -/
def lineRd : Rounds.Schedule (GSem nD τ sig) Bool 𝕄 where
  duties g r :=
    if r = 0 ∧ g.1.2 = .tc then
      match g.2 with
      | .reg b => if b = barS then barDuties (yc g.1.1) else ∅
      | .dma s => if used (yc g.1.1) s = true then {false} else ∅
    else ∅
  unitless _ := False
  amount g _ _ := match g.2 with | .reg _ => 1 | .dma _ => N
  payload g _ d := match g.2 with
    | .reg _ => barPay g.1.1 d
    | .dma s => dmaPay m ρ g.1.1 s
  amount_pos g _ _ _ := by
    cases g.2 with
    | reg _ => exact Nat.one_pos
    | dma _ => exact N_pos

instance lineRd_payload_storable (g : GSem nD τ sig) (r : ℕ) (d : Bool) :
    BI.Storable (upEmb : UEmb _ 𝕄) ((lineRd (F := F) m ρ).payload g r d) := by
  show BI.Storable upEmb (match g.2 with | .reg _ => barPay g.1.1 d | .dma s => dmaPay m ρ g.1.1 s)
  cases g.2 with
  | reg _ => show BI.Storable upEmb (barPay g.1.1 d); unfold barPay; split <;> infer_instance
  | dma s => show BI.Storable upEmb (dmaPay m ρ g.1.1 s); unfold dmaPay; (repeat' split) <;> infer_instance

section Tables
variable (c : Dev nD) (dir : Bool) (o : Fin 4) (h : Fin 2)

omit [FloatOps F] in
theorem duties_bar : (lineRd (F := F) m ρ).duties (barCell c) 0 = barDuties (yc c) := by
  dsimp only [lineRd]; rw [if_pos ⟨rfl, rfl⟩]; exact if_pos rfl
omit [FloatOps F] in
theorem duties_send (hs : sends (yc c) dir o = true) : (lineRd (F := F) m ρ).duties (sendCell c dir o h) 0 = {false} := by
  dsimp only [lineRd]; rw [if_pos ⟨rfl, rfl⟩]; show (if used (yc c) (semAt (sendA dir) o h) = true then _ else _) = _
  rw [used_send, if_pos hs]
omit [FloatOps F] in
theorem duties_recv (hs : recvs (yc c) dir o = true) : (lineRd (F := F) m ρ).duties (recvCell c dir o h) 0 = {false} := by
  dsimp only [lineRd]; rw [if_pos ⟨rfl, rfl⟩]; show (if used (yc c) (semAt (recvA dir) o h) = true then _ else _) = _
  rw [used_recv, if_pos hs]
omit [FloatOps F] in
theorem duties_send_unused (hs : sends (yc c) dir o = false) (r : ℕ) : (lineRd (F := F) m ρ).duties (sendCell c dir o h) r = ∅ := by
  dsimp only [lineRd]; split
  · show (if used (yc c) (semAt (sendA dir) o h) = true then _ else _) = _
    rw [used_send, hs]; rfl
  · rfl
omit [FloatOps F] in
theorem duties_recv_unused (hs : recvs (yc c) dir o = false) (r : ℕ) : (lineRd (F := F) m ρ).duties (recvCell c dir o h) r = ∅ := by
  dsimp only [lineRd]; split
  · show (if used (yc c) (semAt (recvA dir) o h) = true then _ else _) = _
    rw [used_recv, hs]; rfl
  · rfl
omit [FloatOps F] in
theorem duties_later (g : GSem nD τ sig) : ∀ r, 1 ≤ r → (lineRd (F := F) m ρ).duties g r = ∅ :=
  fun r hr => by dsimp only [lineRd]; rw [if_neg fun h => by omega]

omit [FloatOps F] in
theorem amount_bar (d : Bool) : (lineRd (F := F) m ρ).amount (barCell c) 0 d = 1 := rfl
omit [FloatOps F] in
theorem amount_send (d : Bool) : (lineRd (F := F) m ρ).amount (sendCell c dir o h) 0 d = N := rfl
omit [FloatOps F] in
theorem amount_recv (d : Bool) : (lineRd (F := F) m ρ).amount (recvCell c dir o h) 0 d = N := rfl

omit [FloatOps F] in
theorem expect_send (hs : sends (yc c) dir o = true) : (lineRd (F := F) m ρ).expect (sendCell c dir o h) 0 = N := by
  unfold Schedule.expect Schedule.amountOf; rw [duties_send m ρ c dir o h hs, Finset.sum_singleton, amount_send]
omit [FloatOps F] in
theorem expect_recv (hs : recvs (yc c) dir o = true) : (lineRd (F := F) m ρ).expect (recvCell c dir o h) 0 = N := by
  unfold Schedule.expect Schedule.amountOf; rw [duties_recv m ρ c dir o h hs, Finset.sum_singleton, amount_recv]
omit [FloatOps F] in
theorem expect_bar : (lineRd (F := F) m ρ).expect (barCell c) 0 = (barDuties (yc c)).card := by
  unfold Schedule.expect Schedule.amountOf
  rw [duties_bar, Finset.sum_congr rfl fun d _ => amount_bar m ρ c d, Finset.sum_const, smul_eq_mul, mul_one]

omit [FloatOps F] in
theorem payload_bar (d : Bool) : (lineRd (F := F) m ρ).payload (barCell c) 0 d = barPay c d := rfl
omit [FloatOps F] in
theorem payload_send (d : Bool) : (lineRd (F := F) m ρ).payload (sendCell c dir o h) 0 d = srcPts m ρ c o h (shareOf dir) := by
  show dmaPay m ρ c (semAt (sendA dir) o h) = _
  unfold dmaPay; rw [semQ_send, semO_send, semH_send]; cases dir <;> rfl
omit [FloatOps F] in
theorem payload_recv (d : Bool) : (lineRd (F := F) m ρ).payload (recvCell c dir o h) 0 d = slotFull m ρ c o h fullShare := by
  show dmaPay m ρ c (semAt (recvA dir) o h) = _
  unfold dmaPay; rw [semQ_recv, semO_recv, semH_recv]; cases dir <;> rfl

omit [FloatOps F] in
theorem rest_send (hs : sends (yc c) dir o = true) :
    bigSep ((lineRd (F := F) m ρ).duties (sendCell c dir o h) 0 \ ∅) (fun d => (lineRd (F := F) m ρ).payload (sendCell c dir o h) 0 d) = srcPts m ρ c o h (shareOf dir) := by
  rw [Finset.sdiff_empty, duties_send m ρ c dir o h hs, bigSep_singleton, payload_send]
omit [FloatOps F] in
theorem rest_recv (hs : recvs (yc c) dir o = true) :
    bigSep ((lineRd (F := F) m ρ).duties (recvCell c dir o h) 0 \ ∅) (fun d => (lineRd (F := F) m ρ).payload (recvCell c dir o h) 0 d) = slotFull m ρ c o h fullShare := by
  rw [Finset.sdiff_empty, duties_recv m ρ c dir o h hs, bigSep_singleton, payload_recv]

end Tables

end Cert.Kernel.Line

end
-- ==== Proof.Kernel.Ghost.lean ====
/- What each device owes in program order, the levels that order the waits, and the state a body starts from. -/
import proofs.«900692_g7700000000000693_dist_ag_v7x_xyz2x4x4_y_m256_n256_f32_1_alg».proof.Proof.Kernel.Sched

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev J : Type := Bool × Bool × Fin 4 × Fin 2
abbrev dsem (j : J) : DmaSem sig := cond j.1 (semAt (sendA j.2.1) j.2.2.1 j.2.2.2) (semAt (recvA j.2.1) j.2.2.1 j.2.2.2)
abbrev dcell (c : Dev nD) (j : J) : GSem nD τ sig := ((c : Thread nD τ), .dma (dsem j))
abbrev osemJ : J → SemLoc sig := fun j => .dma (dsem j)
abbrev kcell (ck : Dev nD × Option J) : GSem nD τ sig := match ck.2 with | none => barCell ck.1 | some j => dcell ck.1 j

theorem dsem_injective : Function.Injective dsem := by decide

/-- The tallies of a list of (cell, amount); the head is paid first. -/
def Ol (l : List (GSem nD τ sig × ℕ)) : CellTallies nD τ sig Unit := (l.map fun x => tallyAt x.1 () x.2).sum
theorem Ol_nil : Ol [] = 0 := rfl
theorem Ol_cons (x : GSem nD τ sig × ℕ) (l : List (GSem nD τ sig × ℕ)) : Ol (x :: l) = Ol l + tallyAt x.1 () x.2 := by
  unfold Ol; rw [List.map_cons, List.sum_cons, add_comm]

/-- The transfers of a place in program order: (direction, origin, half). -/
def sendOrder (k : Fin 4) : List (Bool × Fin 4 × Fin 2) :=
  match k with
  | 0 => [(true, 0, 0), (true, 0, 1)]
  | 1 => [(true, 1, 0), (false, 1, 0), (true, 1, 1), (false, 1, 1), (true, 0, 0), (false, 2, 0), (true, 0, 1), (false, 2, 1), (false, 3, 0), (false, 3, 1)]
  | 2 => [(true, 2, 0), (false, 2, 0), (true, 2, 1), (false, 2, 1), (true, 1, 0), (false, 3, 0), (true, 1, 1), (false, 3, 1), (true, 0, 0), (true, 0, 1)]
  | 3 => [(false, 3, 0), (false, 3, 1)]

theorem mem_sendOrder (k : Fin 4) (p : Bool × Fin 4 × Fin 2) : p ∈ sendOrder k ↔ sends k p.1 p.2.1 = true := by
  revert k p; decide

def arriveOwes (c : Dev nD) (l : List (Bool × Fin 4 × Fin 2)) : List (GSem nD τ sig × ℕ) :=
  l.map fun p => (recvCell (nbr c p.1) p.1 p.2.1 p.2.2, N)
def barOwes (c : Dev nD) : List (GSem nD τ sig × ℕ) :=
  (if 0 < (yc c).val then [(barCell (dn c), 1)] else []) ++ (if (yc c).val < 3 then [(barCell (up c), 1)] else [])

def oweList (c : Dev nD) : List (GSem nD τ sig × ℕ) := barOwes c ++ arriveOwes c (sendOrder (yc c))
def O₀ (c : Dev nD) : CellTallies nD τ sig Unit := Ol (oweList c)

def L (g : GSem nD τ sig) : Finset Unit := if g.1.2 = .tc then {()} else ∅
/-- Barrier cells at 1, a receive cell at 2 + the distance its half has travelled: a waiting device owes only halves that travel farther. -/
def lv (g : GSem nD τ sig) (_ : Unit) : ℕ :=
  match g.2 with
  | .reg _ => 1
  | .dma s => if semQ s = 1 then 2 + ((yc g.1.1).val - (semO s).val) else if semQ s = 3 then 2 + ((semO s).val - (yc g.1.1).val) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (dir : Bool) (o : Fin 4) (h : Fin 2) : lv (sendCell c dir o h) () = 0 := by
  show (if semQ (semAt (sendA dir) o h) = 1 then _ else if semQ (semAt (sendA dir) o h) = 3 then _ else 0) = 0
  rw [semQ_send]; cases dir <;> rfl
theorem lv_recv (c : Dev nD) (dir : Bool) (o : Fin 4) (h : Fin 2) :
    lv (recvCell c dir o h) () = 2 + cond dir ((yc c).val - o.val) (o.val - (yc c).val) := by
  show (if semQ (semAt (recvA dir) o h) = 1 then 2 + ((yc c).val - (semO (semAt (recvA dir) o h)).val)
    else if semQ (semAt (recvA dir) o h) = 3 then 2 + ((semO (semAt (recvA dir) o h)).val - (yc c).val) else 0) = _
  rw [semQ_recv, semO_recv]; cases dir <;> rfl

theorem Ol_pos {l : List (GSem nD τ sig × ℕ)} {g : GSem nD τ sig} {u : Unit} (h : 0 < Ol l g u) : ∃ x ∈ l, x.1 = g := by
  induction l with
  | nil => exact absurd h (Nat.lt_irrefl 0)
  | cons x l ih =>
    rw [Ol_cons] at h
    rcases Pipeline.add_pos_cases h with h | h
    · obtain ⟨y, hy, e⟩ := ih h; exact ⟨y, List.mem_cons_of_mem _ hy, e⟩
    · rw [tallyAt_apply] at h
      by_cases hx : g = x.1 ∧ u = ()
      · exact ⟨x, List.mem_cons_self, hx.1.symm⟩
      · rw [if_neg hx] at h; exact absurd h (Nat.lt_irrefl 0)

omit [FloatOps F] in
theorem mayWait_list (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (Ol l) :=
  Pipeline.mayWait_of_levAts (by rw [L_tc]; exact Finset.mem_singleton_self _) fun g i hg => by
    obtain ⟨x, hx, rfl⟩ := Ol_pos hg
    exact ⟨by unfold L; rw [if_pos (h x hx).1]; exact Finset.mem_singleton_self _, (h x hx).2⟩

/-- The persistent part: every cell's invariant, and round 0 reached. -/
def records (K : Dev nD × Option J → ℕ) : sProp 𝕄 :=
  iprop((bigSep Finset.univ fun ck : Dev nD × Option J => cellInv ER (lineRd m ρ) (K ck) (kcell ck))
    ∗ bigSep Finset.univ fun ck : Dev nD × Option J => reached ER (kcell ck) 0)

instance records_persistent (K : Dev nD × Option J → ℕ) : BI.Persistent (records m ρ K) := by unfold records; infer_instance

omit [FloatOps F] in
theorem inv_at' (K : Dev nD × Option J → ℕ) (ck : Dev nD × Option J) :
    (bigSep Finset.univ fun ck : Dev nD × Option J => (cellInv ER (lineRd m ρ) (K ck) (kcell ck) : sProp 𝕄)) ⊢ cellInv ER (lineRd m ρ) (K ck) (kcell ck) :=
  bigSep_elim (Finset.mem_univ ck)
omit [FloatOps F] in
theorem reached_at' (ck : Dev nD × Option J) :
    (bigSep Finset.univ fun ck : Dev nD × Option J => (reached ER (kcell ck) 0 : sProp 𝕄)) ⊢ reached ER (kcell ck) 0 :=
  bigSep_elim (Finset.mem_univ ck)
omit [FloatOps F] in
theorem inv_at (K : Dev nD × Option J → ℕ) (ck : Dev nD × Option J) : records m ρ K ⊢ cellInv ER (lineRd m ρ) (K ck) (kcell ck) := by
  unfold records; iintro ⟨H, -⟩; iapply (inv_at' m ρ K ck); iexact H
omit [FloatOps F] in
theorem reached_at (K : Dev nD × Option J → ℕ) (ck : Dev nD × Option J) : records m ρ K ⊢ reached ER (kcell ck) 0 := by
  unfold records; iintro ⟨-, H⟩; iapply (reached_at' (F := F) ck); iexact H

def payToks (c : Dev nD) : sProp 𝕄 :=
  iprop(dutyTok ER (barCell (dn c)) 0 true ∗ dutyTok ER (barCell (up c)) 0 false
    ∗ bigSep Finset.univ fun p : Bool × Fin 4 × Fin 2 =>
        iprop(dutyTok ER (sendCell c p.1 p.2.1 p.2.2) 0 false ∗ dutyTok ER (recvCell (nbr c p.1) p.1 p.2.1 p.2.2) 0 false))

def positions (c : Dev nD) : sProp 𝕄 :=
  iprop(atPos ER (barCell c) 0 ∅ 0 ∗ bigSep Finset.univ fun j : J => atPos ER (dcell c j) 0 ∅ 0)

def ghost (K : Dev nD × Option J → ℕ) (c : Dev nD) : sProp 𝕄 := iprop(records m ρ K ∗ positions c ∗ payToks c)

def creds (c : Dev nD) : sProp 𝕄 :=
  iprop(cred (tallyAt (barCell c) () (barDuties (yc c)).card)
    ∗ bigSep Finset.univ fun p : Bool × Fin 4 × Fin 2 => cred (tallyAt (recvCell c p.1 p.2.1 p.2.2) () (if recvs (yc c) p.1 p.2.1 = true then N else 0)))

def start (c : Dev nD) : sProp 𝕄 := iprop((∃ K, ghost m ρ K c) ∗ creds c ∗ levAts L lv)

def Φ₀ (c : Dev nD) : sProp 𝕄 := iprop(start m ρ c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ bigSep Finset.univ fun j : J => semVal (dcell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.Kernel.Line

end
-- ==== Proof.Kernel.Mem.lean ====
/- The buffers cut into the pieces the transfers move: shares, halves and slots, what a landing leaves, and the rows of the result known to be right. -/
import proofs.«900692_g7700000000000693_dist_ag_v7x_xyz2x4x4_y_m256_n256_f32_1_alg».proof.Proof.Kernel.Sched
import Idealize.ShloMosaic.Rules.PointsTo
import Idealize.ShloMosaic.Lib.Pipeline.Value
import Idealize.ShloMosaic.Lib.ValueLayout

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem slotPts_share (c : Dev nD) (o : Fin 4) (h : Fin 2) (q : PosShare TreeShare)
    (f : Buf (Elt F) ((slotM o h).view.loc (c : Thread nD τ))) :
    slotPts (F := F) c o h q f ⊣⊢ iprop(slotPts c o h q.left f ∗ slotPts c o h q.right f) :=
  by
  unfold slotPts; exact pointsTo_share (PosShare.mem_left_op_right q)

theorem halfPts_share (c : Dev nD) (h : Fin 2) (q : PosShare TreeShare) :
    halfPts m ρ c h q ⊣⊢ iprop(halfPts m ρ c h q.left ∗ halfPts m ρ c h q.right) :=
  by
  unfold halfPts; exact pointsTo_share (PosShare.mem_left_op_right q)

theorem x_share (c : Dev nD) (q : PosShare TreeShare) :
    (((c : Thread nD τ).loc cc0_stg0_0) ↦{q} xstg m ρ c : sProp 𝕄)
      ⊣⊢ iprop((((c : Thread nD τ).loc cc0_stg0_0) ↦{q.left} xstg m ρ c) ∗ (((c : Thread nD τ).loc cc0_stg0_0) ↦{q.right} xstg m ρ c)) :=
  pointsTo_share (PosShare.mem_left_op_right q)

theorem mem_half (h : Fin 2) (i : S256x256.Idx) :
    i ∈ (halfM h).view.set ↔ 128 * h.val ≤ (i 0).val ∧ (i 0).val < 128 * h.val + 128 :=
  by
  rw [show (halfM h).view.set = (halfR h).set from View.set_slice_whole _ _, Rect.mem_set_unit, Fin.forall_fin_two]
  have h1 : (i 1).val < 256 := (i 1).isLt
  show (128 * h.val ≤ (i 0).val ∧ (i 0).val < 128 * h.val + 128) ∧ (0 ≤ (i 1).val ∧ (i 1).val < 0 + 256) ↔ _
  omega

theorem x_halves (c : Dev nD) (q : PosShare TreeShare) :
    (((c : Thread nD τ).loc cc0_stg0_0) ↦{q} xstg m ρ c : sProp 𝕄) ⊣⊢ iprop(halfPts m ρ c 0 q ∗ halfPts m ρ c 1 q) :=
  by
  have hd : Disjoint (halfM 0).view.set (halfM 1).view.set := by
    rw [Finset.disjoint_left]; intro i h0 h1
    have a0 := (mem_half 0 i).mp h0; have a1 := (mem_half 1 i).mp h1
    simp only [Fin.val_zero, Fin.val_one] at a0 a1; omega
  have hu : (halfM 0).view.set ∪ (halfM 1).view.set = Finset.univ := by
    ext i
    simp only [Finset.mem_union, Finset.mem_univ, iff_true]
    have h0 : (i 0).val < 256 := (i 0).isLt
    rcases Nat.lt_or_ge (i 0).val 128 with hlt | hge
    · exact Or.inl ((mem_half 0 i).mpr (by simp only [Fin.val_zero]; omega))
    · exact Or.inr ((mem_half 1 i).mpr (by simp only [Fin.val_one]; omega))
  have key : (((c : Thread nD τ).loc cc0_stg0_0) ↦[(halfM 0).view.set ∪ (halfM 1).view.set]{q} xstg m ρ c : sProp 𝕄)
      ⊣⊢ iprop((((c : Thread nD τ).loc cc0_stg0_0) ↦[(halfM 0).view.set]{q} xstg m ρ c)
          ∗ (((c : Thread nD τ).loc cc0_stg0_0) ↦[(halfM 1).view.set]{q} xstg m ρ c)) := pointsTo_union hd
  rw [hu] at key
  unfold halfPts
  exact key

theorem mem_slot (o : Fin 4) (h : Fin 2) (i : S4x256x256.Idx) :
    i ∈ (slotM o h).view.set ↔ (i 0).val = o.val ∧ 128 * h.val ≤ (i 1).val ∧ (i 1).val < 128 * h.val + 128 :=
  by
  rw [show (slotM o h).view.set = (slotR o h).set from (View.set_reshape _ _).trans (View.set_slice_whole _ _)]
  rw [Rect.mem_set_unit]
  have h2 : (i 2).val < 256 := (i 2).isLt
  constructor
  · intro H
    have H0 : o.val ≤ (i 0).val ∧ (i 0).val < o.val + 1 := H 0
    have H1 : 128 * h.val ≤ (i 1).val ∧ (i 1).val < 128 * h.val + 128 := H 1
    omega
  · intro H a
    match a with
    | ⟨0, _⟩ => show o.val ≤ (i 0).val ∧ (i 0).val < o.val + 1; omega
    | ⟨1, _⟩ => show 128 * h.val ≤ (i 1).val ∧ (i 1).val < 128 * h.val + 128; omega
    | ⟨2, _⟩ => show 0 ≤ (i 2).val ∧ (i 2).val < 0 + 256; omega

abbrev slotSet (p : Fin 4 × Fin 2) : Finset S4x256x256.Idx := (slotM p.1 p.2).view.set

theorem slot_disjoint (p p' : Fin 4 × Fin 2) (hne : p ≠ p') : Disjoint (slotSet p) (slotSet p') :=
  by
  rw [Finset.disjoint_left]; intro i h0 h1
  have a0 := (mem_slot p.1 p.2 i).mp h0; have a1 := (mem_slot p'.1 p'.2 i).mp h1
  have := p.2.isLt; have := p'.2.isLt
  exact hne (Prod.ext (Fin.ext (by omega)) (Fin.ext (by omega)))

theorem slot_cover : (Finset.univ : Finset (Fin 4 × Fin 2)).biUnion slotSet = Finset.univ :=
  by
  ext i
  simp only [Finset.mem_biUnion, Finset.mem_univ, true_and, iff_true]
  have h0 : (i 0).val < 4 := (i 0).isLt
  have h1 : (i 1).val < 256 := (i 1).isLt
  have hb : (i 1).val / 128 < 2 := by omega
  refine ⟨(⟨(i 0).val, h0⟩, ⟨(i 1).val / 128, hb⟩), ?_⟩
  exact (mem_slot ⟨(i 0).val, h0⟩ ⟨(i 1).val / 128, hb⟩ i).mpr ⟨rfl, Nat.mul_div_le _ _, by
    show (i 1).val < 128 * ((i 1).val / 128) + 128; omega⟩

theorem slots_univ : (Finset.univ : Finset (Fin 4 × Fin 2))
    = insert (0, 0) (insert (0, 1) (insert (1, 0) (insert (1, 1) (insert (2, 0) (insert (2, 1) (insert (3, 0) {(3, 1)})))))) :=
  by decide

theorem bigSep_slots (Φ : Fin 4 × Fin 2 → sProp 𝕄) :
    bigSep (Finset.univ : Finset (Fin 4 × Fin 2)) Φ
      = iprop(Φ (0, 0) ∗ Φ (0, 1) ∗ Φ (1, 0) ∗ Φ (1, 1) ∗ Φ (2, 0) ∗ Φ (2, 1) ∗ Φ (3, 0) ∗ Φ (3, 1)) :=
  by
  rw [slots_univ, bigSep_insert (by decide), bigSep_insert (by decide), bigSep_insert (by decide), bigSep_insert (by decide),
    bigSep_insert (by decide), bigSep_insert (by decide), bigSep_insert (by decide), bigSep_singleton]
  rfl

/-- The slots are disjoint and cover the receive buffer. -/
theorem comm_split (c : Dev nD) (f : Buf (Elt F) ((c : Thread nD τ).loc cc0_scratch0)) :
    (((c : Thread nD τ).loc cc0_scratch0) ↦{fullShare} f : sProp 𝕄)
      ⊢ iprop(slotPts c 0 0 fullShare f ∗ slotPts c 0 1 fullShare f ∗ slotPts c 1 0 fullShare f ∗ slotPts c 1 1 fullShare f
          ∗ slotPts c 2 0 fullShare f ∗ slotPts c 2 1 fullShare f ∗ slotPts c 3 0 fullShare f ∗ slotPts c 3 1 fullShare f) :=
  by
  have hK : (((c : Thread nD τ).loc cc0_scratch0) ↦[(Finset.univ : Finset (Fin 4 × Fin 2)).biUnion slotSet]{fullShare} f : sProp 𝕄)
      = bigSep (Finset.univ : Finset (Fin 4 × Fin 2)) fun p => ((c : Thread nD τ).loc cc0_scratch0) ↦[slotSet p]{fullShare} f :=
    pointsTo_biUnion _ _ (fun t _ t' _ hne => slot_disjoint t t' hne)
  rw [slot_cover] at hK
  rw [hK, bigSep_slots]
  unfold slotPts
  exact .rfl

theorem slots_join_aux (c : Dev nD) (S : Finset (Fin 4 × Fin 2)) :
    bigSep S (fun p => (iprop(∃ f, ((c : Thread nD τ).loc cc0_scratch0) ↦[slotSet p]{fullShare} f) : sProp 𝕄))
      ⊢ (iprop(∃ g, ((c : Thread nD τ).loc cc0_scratch0) ↦[S.biUnion slotSet]{fullShare} g) : sProp 𝕄) :=
  by
  classical
  induction S using Finset.induction_on with
  | empty =>
    iintro -
    iexists (fun _ => default)
    rw [Finset.biUnion_empty, pointsTo_empty]; iempintro
  | insert t S ht ih =>
    rw [bigSep_insert ht, Finset.biUnion_insert]
    have hd : Disjoint (slotSet t) (S.biUnion slotSet) :=
      (Finset.disjoint_biUnion_right _ _ _).mpr fun t' ht' => slot_disjoint t t' (fun e => ht (e ▸ ht'))
    refine (show iprop((∃ f, ((c : Thread nD τ).loc cc0_scratch0) ↦[slotSet t]{fullShare} f)
        ∗ bigSep S (fun p => (iprop(∃ f, ((c : Thread nD τ).loc cc0_scratch0) ↦[slotSet p]{fullShare} f) : sProp 𝕄))) ⊢ _ from ?_)
    iintro ⟨⟨%f, Ht⟩, HS⟩
    ihave H := ih $$ HS
    icases H with ⟨%g, HS⟩
    iexists (S.biUnion slotSet).piecewise g f
    iapply (pointsTo_join hd)
    isplitl [Ht]; · iexact Ht
    iexact HS

theorem comm_join (c : Dev nD) :
    iprop((∃ f, slotPts (F := F) c 0 0 fullShare f) ∗ (∃ f, slotPts c 0 1 fullShare f) ∗ (∃ f, slotPts c 1 0 fullShare f)
        ∗ (∃ f, slotPts c 1 1 fullShare f) ∗ (∃ f, slotPts c 2 0 fullShare f) ∗ (∃ f, slotPts c 2 1 fullShare f)
        ∗ (∃ f, slotPts c 3 0 fullShare f) ∗ (∃ f, slotPts c 3 1 fullShare f))
      ⊢ (iprop(∃ f : Buf (Elt F) ((c : Thread nD τ).loc cc0_scratch0), ((c : Thread nD τ).loc cc0_scratch0) ↦{fullShare} f) : sProp 𝕄) :=
  by
  have h1 := slots_join_aux (F := F) c Finset.univ
  rw [slot_cover, bigSep_slots] at h1
  unfold slotPts
  exact h1

theorem slot_load_sub (o : Fin 4) (h : Fin 2) :
    (cM : Memref sig .tc .vmem S4x256x256 .f32).view.setOn ((slotR o h).toLoadRect).set ⊆ (slotM o h).view.set :=
  by
  rw [show (slotM o h).view.set = (slotR o h).set from (View.set_reshape _ _).trans (View.set_slice_whole _ _)]
  intro i hi
  obtain ⟨x, hx, rfl⟩ := Finset.mem_map.mp hi
  exact hx

theorem x_load_sub (r : LoadRect S256x256) :
    (xM : Memref sig .tc .vmem S256x256 .f32).view.setOn r.set ⊆ Finset.univ :=
  Finset.subset_univ _

theorem o_load_sub (r : LoadRect S1024x256) :
    (oM : Memref sig .tc .vmem S1024x256 .f32).view.setOn r.set ⊆ Finset.univ :=
  Finset.subset_univ _

theorem xstg_congr (d d' : Dev nD) (a a' : S256x256.Idx) (hd : d = d') (ha : ∀ k, (a k).val = (a' k).val) :
    xstg m ρ d a = xstg m ρ d' a' :=
  by
  subst hd; exact congrArg _ (funext fun k => Fin.ext (ha k))

theorem read_slot (c : Dev nD) (o : Fin 4) (h : Fin 2) :
    (cM : Memref sig .tc .vmem S4x256x256 .f32).view.readAt (Elt F) (slotR o h).toLoadRect (commVal m ρ c)
      = fun y => xstg m ρ (devAt c o)
          (ix2 (n0 := 256) (n1 := 256) ⟨128 * h.val + (y 1).val, by
            have h1 : (y 1).val < 128 := (y 1).isLt
            have := h.isLt; omega⟩ (y 2)) :=
  by
  funext y
  have hy0 : (y 0).val < 1 := (y 0).isLt
  show commVal m ρ c ((slotR o h).toLoadRect.idx y) = _
  unfold commVal
  exact xstg_congr m ρ _ _ _ _
    (congrArg (devAt c) (Fin.ext (by show o.val + 1 * (y 0).val = o.val; omega)))
    (fun k => match k with
      | ⟨0, _⟩ => by show 128 * h.val + 1 * (y 1).val = 128 * h.val + (y 1).val; omega
      | ⟨1, _⟩ => by show 0 + 1 * (y 2).val = (y 2).val; omega)

theorem read_x (c : Dev nD) :
    (xM : Memref sig .tc .vmem S256x256 .f32).view.readAt (Elt F)
        (Rect.unit (s := S256x256) ![0, 0] S256x256.size inb_S256x256_S256x256_0_0).toLoadRect (xstg m ρ c)
      = xstg m ρ c :=
  Memref.readAt_unit_zero (Elt F) cc0_stg0_0 (by funext a; match a with | ⟨0, _⟩ => rfl | ⟨1, _⟩ => rfl) _ (xstg m ρ c)

theorem slot_read (c : Dev nD) (o : Fin 4) (h : Fin 2) (a : Fin 128) (b : Fin 256) :
    (slotM o h).view.read (Elt F) (commVal m ρ c) (ix2 a b)
      = xstg m ρ (devAt c o) (ix2 (n0 := 256) (n1 := 256) ⟨128 * h.val + a.val, by have := a.isLt; have := h.isLt; omega⟩ b) :=
  by
  have e := reshapeEquiv_ix2_1ab (a := 128) (b := 256) shapeCasts_S1x128x256_S128x256 a b
  refine (congrArg ((cM : Memref sig .tc .vmem S4x256x256 .f32).view.readAt (Elt F) (slotR o h).toLoadRect (commVal m ρ c)) e).trans ?_
  exact congrFun (read_slot m ρ c o h) (ix3 (⟨0, Nat.one_pos⟩ : Fin 1) a b)

theorem slot_fill (c' : Dev nD) (o : Fin 4) (h : Fin 2) (fd : Buf (Elt F) ((slotM o h).view.loc (c' : Thread nD τ)))
    (g : (cc0_scratch0 : Ref sig .tc).ty.Contents (Elt F)) :
    slotPts c' o h fullShare ((slotM o h).view.write (Elt F) fd ((slotM o h).view.read (Elt F) g) Finset.univ)
      = slotPts c' o h fullShare g :=
  by
  unfold slotPts
  refine pointsTo_congr fun i hi => ?_
  rw [View.write_read_eq_piecewise]
  exact Finset.piecewise_eq_of_mem _ _ _ hi

/-- Forwarding a filled slot fills the neighbour's: both lie on one line. -/
theorem landing_fwd (c c' : Dev nD) (hl : devAt c' = devAt c) (o : Fin 4) (h : Fin 2)
    (fd : Buf (Elt F) ((slotM o h).view.loc (c' : Thread nD τ))) :
    slotPts c' o h fullShare ((slotM o h).view.write (Elt F) fd ((slotM o h).view.read (Elt F) (commVal m ρ c)) Finset.univ)
      = slotFull m ρ c' o h fullShare :=
  by
  have hc : commVal m ρ c = commVal m ρ c' := by unfold commVal; rw [hl]
  rw [hc]; unfold slotFull
  exact slot_fill c' o h fd _

/-- The own half lands as the origin's block in the neighbour's slot. -/
theorem landing_own (c c' : Dev nD) (hl : devAt c' (yc c) = c) (h : Fin 2)
    (fd : Buf (Elt F) ((slotM (yc c) h).view.loc (c' : Thread nD τ))) :
    slotPts c' (yc c) h fullShare ((slotM (yc c) h).view.write (Elt F) fd ((halfM h).view.read (Elt F) (xstg m ρ c)) Finset.univ)
      = slotFull m ρ c' (yc c) h fullShare :=
  by
  have hw : (halfM h).view.read (Elt F) (xstg m ρ c) = (slotM (yc c) h).view.read (Elt F) (commVal m ρ c') := by
    funext x
    obtain ⟨a, b, rfl⟩ : ∃ (a : Fin 128) (b : Fin 256), x = ix2 a b := ⟨x 0, x 1, eq_ix2 x⟩
    rw [slot_read, hl]
    show xstg m ρ c ((halfR h).emb (ix2 a b)) = _
    exact xstg_congr m ρ _ _ _ _ rfl (fun k => match k with
      | ⟨0, _⟩ => by show 128 * h.val + 1 * a.val = 128 * h.val + a.val; omega
      | ⟨1, _⟩ => by show 0 + 1 * b.val = b.val; omega)
  rw [hw]; unfold slotFull
  exact slot_fill c' (yc c) h fd _

/-- The bands of 128 rows in `T` hold the gathered rows. -/
def okRows (c : Dev nD) (f : (cc0_stg1_0 : Ref sig .tc).ty.Contents (Elt F)) (T : Finset (Fin 8)) : Prop :=
  ∀ i : (cc0_stg1_0 : Ref sig .tc).ty.Idx,
    (⟨(i 0).val / 128, by have h0 : (i 0).val < 1024 := (i 0).isLt; omega⟩ : Fin 8) ∈ T → f i = gathered m ρ c i

abbrev band (i : S1024x256.Idx) : Fin 8 := ⟨(i 0).val / 128, by have h0 : (i 0).val < 1024 := (i 0).isLt; omega⟩

theorem ok_empty (c : Dev nD) (f : (cc0_stg1_0 : Ref sig .tc).ty.Contents (Elt F)) : okRows m ρ c f ∅ :=
  fun i hi => absurd hi (Finset.notMem_empty _)

theorem ok_store_aux (c : Dev nD) (f : (cc0_stg1_0 : Ref sig .tc).ty.Contents (Elt F)) (T T' B : Finset (Fin 8))
    (hf : okRows m ρ c f T) (R : Rect S1024x256) (w : R.shape.Idx → Elt F .f32)
    (hT' : ∀ j ∈ T', j ∈ B ∨ j ∈ T)
    (hit : ∀ i : S1024x256.Idx, band i ∈ B → ∃ x, R.emb x = i ∧ w x = gathered m ρ c i)
    (miss : ∀ i : S1024x256.Idx, band i ∉ B → i ∉ R.set) :
    okRows m ρ c (((oM : Memref sig .tc .vmem S1024x256 .f32).access R : View sig .tc _ _ _).write (Elt F) f w Finset.univ) T' :=
  by
  intro i hi
  by_cases hB : band i ∈ B
  · obtain ⟨x, rfl, hx⟩ := hit i hB
    have hwr := View.write_emb_of_mem (v := ((oM : Memref sig .tc .vmem S1024x256 .f32).access R : View sig .tc _ _ _))
      (Val := Elt F) f w (M := Finset.univ) (x := x) (Finset.mem_univ _)
    exact hwr.trans ((cast_eq _ _).trans hx)
  · have hT : band i ∈ T := (hT' _ hi).resolve_left hB
    have hs : ((oM : Memref sig .tc .vmem S1024x256 .f32).access R : View sig .tc _ _ _).setOn Finset.univ = R.set :=
      View.set_slice_whole _ _
    rw [View.write_of_not_mem _ _ _ (by rw [hs]; exact miss i hB)]
    exact hf i hT

theorem ok_store_half (c : Dev nD) (o : Fin 4) (h : Fin 2) (f : (cc0_stg1_0 : Ref sig .tc).ty.Contents (Elt F)) (T : Finset (Fin 8))
    (hf : okRows m ρ c f T)
    (inb : ∀ a, (![256 * o.val + 128 * h.val, 0] : Fin 2 → Nat) a + S128x256.size a ≤ S1024x256.size a) :
    okRows m ρ c
      (((oM : Memref sig .tc .vmem S1024x256 .f32).access (Rect.unit (s := S1024x256) ![256 * o.val + 128 * h.val, 0] S128x256.size inb)
          : View sig .tc _ _ _).write (Elt F) f
        (shapeCast S128x256 ((cM : Memref sig .tc .vmem S4x256x256 .f32).view.readAt (Elt F) (slotR o h).toLoadRect (commVal m ρ c))
          shapeCasts_S1x128x256_S128x256) Finset.univ)
      (insert ⟨2 * o.val + h.val, by have := o.isLt; have := h.isLt; omega⟩ T) :=
  by
  have ho := o.isLt; have hh := h.isLt
  refine ok_store_aux m ρ c f T _ {⟨2 * o.val + h.val, by omega⟩} hf _ _
    (fun j hj => (Finset.mem_insert.mp hj).imp (fun e => Finset.mem_singleton.mpr e) id) ?_ ?_
  · intro i hi
    have hb : (i 0).val / 128 = 2 * o.val + h.val := congrArg Fin.val (Finset.mem_singleton.mp hi)
    have h0 : (i 0).val < 1024 := (i 0).isLt
    have h1 : (i 1).val < 256 := (i 1).isLt
    refine ⟨ix2 (n0 := 128) (n1 := 256) ⟨(i 0).val - (256 * o.val + 128 * h.val), by omega⟩ ⟨(i 1).val, h1⟩, ?_, ?_⟩
    · funext k; apply Fin.ext
      match k with
      | ⟨0, _⟩ => show 256 * o.val + 128 * h.val + 1 * ((i 0).val - (256 * o.val + 128 * h.val)) = (i 0).val; omega
      | ⟨1, _⟩ => show 0 + 1 * (i 1).val = (i 1).val; omega
    · refine (slot_read m ρ c o h _ _).trans ?_
      unfold gathered
      exact xstg_congr m ρ _ _ _ _ (congrArg (devAt c) (Fin.ext (by show o.val = (i 0).val / 256; omega)))
        (fun k => match k with
          | ⟨0, _⟩ => by show 128 * h.val + ((i 0).val - (256 * o.val + 128 * h.val)) = (i 0).val % 256; omega
          | ⟨1, _⟩ => rfl)
  · intro i hi hmem
    rw [Rect.mem_set_unit] at hmem
    have H0 : 256 * o.val + 128 * h.val ≤ (i 0).val ∧ (i 0).val < 256 * o.val + 128 * h.val + 128 := hmem 0
    exact hi (Finset.mem_singleton.mpr (Fin.ext (by show (i 0).val / 128 = 2 * o.val + h.val; omega)))

theorem ok_store_own (c : Dev nD) (f : (cc0_stg1_0 : Ref sig .tc).ty.Contents (Elt F)) (T : Finset (Fin 8))
    (hf : okRows m ρ c f T)
    (inb : ∀ a, (![256 * (yc c).val, 0] : Fin 2 → Nat) a + S256x256.size a ≤ S1024x256.size a) :
    okRows m ρ c
      (((oM : Memref sig .tc .vmem S1024x256 .f32).access (Rect.unit (s := S1024x256) ![256 * (yc c).val, 0] S256x256.size inb)
          : View sig .tc _ _ _).write (Elt F) f
        (shapeCast S256x256 (xstg m ρ c) shapeCasts_S256x256_S256x256) Finset.univ)
      (insert ⟨2 * (yc c).val, by have := (yc c).isLt; omega⟩ (insert ⟨2 * (yc c).val + 1, by have := (yc c).isLt; omega⟩ T)) :=
  by
  have hk := (yc c).isLt
  refine ok_store_aux m ρ c f T _ {⟨2 * (yc c).val, by omega⟩, ⟨2 * (yc c).val + 1, by omega⟩} hf _ _
    (fun j hj => by
      rcases Finset.mem_insert.mp hj with e | hj
      · exact Or.inl (Finset.mem_insert.mpr (Or.inl e))
      · rcases Finset.mem_insert.mp hj with e | hj
        · exact Or.inl (Finset.mem_insert.mpr (Or.inr (Finset.mem_singleton.mpr e)))
        · exact Or.inr hj) ?_ ?_
  · intro i hi
    have hb : (i 0).val / 128 = 2 * (yc c).val ∨ (i 0).val / 128 = 2 * (yc c).val + 1 := by
      rcases Finset.mem_insert.mp hi with e | e
      · exact Or.inl (congrArg Fin.val e)
      · exact Or.inr (congrArg Fin.val (Finset.mem_singleton.mp e))
    have h0 : (i 0).val < 1024 := (i 0).isLt
    have h1 : (i 1).val < 256 := (i 1).isLt
    refine ⟨ix2 (n0 := 256) (n1 := 256) ⟨(i 0).val - 256 * (yc c).val, by omega⟩ ⟨(i 1).val, h1⟩, ?_, ?_⟩
    · funext k; apply Fin.ext
      match k with
      | ⟨0, _⟩ => show 256 * (yc c).val + 1 * ((i 0).val - 256 * (yc c).val) = (i 0).val; omega
      | ⟨1, _⟩ => show 0 + 1 * (i 1).val = (i 1).val; omega
    · refine (congrFun (shapeCast_self (s := S256x256) (xstg m ρ c) shapeCasts_S256x256_S256x256) _).trans ?_
      unfold gathered
      exact xstg_congr m ρ _ _ _ _
        ((devAt_yc c).symm.trans (congrArg (devAt c) (Fin.ext (by show (yc c).val = (i 0).val / 256; omega))))
        (fun k => match k with
          | ⟨0, _⟩ => by show (i 0).val - 256 * (yc c).val = (i 0).val % 256; omega
          | ⟨1, _⟩ => rfl)
  · intro i hi hmem
    rw [Rect.mem_set_unit] at hmem
    have H0 : 256 * (yc c).val ≤ (i 0).val ∧ (i 0).val < 256 * (yc c).val + 256 := hmem 0
    have h0 : (i 0).val < 1024 := (i 0).isLt
    refine hi ?_
    rcases Nat.lt_or_ge (i 0).val (256 * (yc c).val + 128) with hlt | hge
    · exact Finset.mem_insert.mpr (Or.inl (Fin.ext (by show (i 0).val / 128 = 2 * (yc c).val; omega)))
    · exact Finset.mem_insert.mpr (Or.inr (Finset.mem_singleton.mpr (Fin.ext (by show (i 0).val / 128 = 2 * (yc c).val + 1; omega))))

/-- All eight bands right: the buffer is the gathered array. -/
theorem ok_all (c : Dev nD) (f : (cc0_stg1_0 : Ref sig .tc).ty.Contents (Elt F)) (hf : okRows m ρ c f Finset.univ) :
    f = gathered m ρ c :=
  funext fun i => hf i (Finset.mem_univ _)

/-- info: 'Cert.Kernel.Line.ok_all' depends on axioms: [propext, Classical.choice, Quot.sound] -/
#guard_msgs in #print axioms ok_all

end Cert.Kernel.Line

end
-- ==== Proof.Kernel.Steps.lean ====
/- One rule per kind of step of the body, over the list of transfers still owed; the pieces of the buffers lent and taken back. -/
import proofs.«900692_g7700000000000693_dist_ag_v7x_xyz2x4x4_y_m256_n256_f32_1_alg».proof.Proof.Kernel.Ghost
import proofs.«900692_g7700000000000693_dist_ag_v7x_xyz2x4x4_y_m256_n256_f32_1_alg».proof.Proof.Kernel.Mem

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

/-- The weakest precondition of a piece of device `c`'s kernel body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- A barrier cell sits below every receive cell, and a receive cell below those of halves that travel farther. -/
theorem mayWait_arrivals (c : Dev nD) (sm : SemLoc sig) (l : List (Bool × Fin 4 × Fin 2)) (cut : ℕ) (hcut : lv ((c : Thread nD τ), sm) () = cut)
    (h : ∀ p ∈ l, cut < 2 + cond p.1 ((yc c + 1).val - p.2.1.val) (p.2.1.val - (yc c - 1).val)) :
    (levAts L lv : sProp 𝕄) ⊢ MayWait (c : Thread nD τ) sm () (Ol (arriveOwes c l)) :=
  mayWait_list c sm _ fun x hx => by
    obtain ⟨p, hp, rfl⟩ := List.mem_map.mp hx
    refine ⟨rfl, ?_⟩
    rw [lv_recv, hcut]
    have := h p hp
    rcases p with ⟨dir, o, hh⟩
    cases dir
    · show _ < 2 + (o.val - (yc (dn c)).val); rw [yc_dn]; exact this
    · show _ < 2 + ((yc (up c)).val - o.val); rw [yc_up]; exact this

theorem wp_bar_signal (c dst : Dev nD) (d : Bool) (l : List (GSem nD τ sig × ℕ)) (hd : d ∈ barDuties (yc dst)) {W : Waits sig Unit}
    {k' : ℕ} (hk' : k' = 1 := by decide)
    {α : Type} {Q : α → sProp 𝕄} {k : PUnit → Prog (TpuEff nD τ sig (Elt F) Λ₀ .tc) α} :
    iprop(records m ρ K ∗ owes (c : Thread nD τ) (Ol ((barCell dst, 1) :: l)) W ∗ dutyTok ER (barCell dst) 0 d ∗ barPay dst d)
      ⊢ iprop((owes (c : Thread nD τ) (Ol l) W -∗ wpc c (k ⟨⟩) Q) -∗ wpc c (.op (.semSignal (dst : Thread nD τ) barS k') k) Q) := by
  subst hk'
  rw [Ol_cons]
  iintro ⟨#HR, HO, Ht, Hp⟩
  iapply (Rounds.wp_signal 𝒱₀ ER (lineRd m ρ) (c : Thread nD τ) none (dst := (dst : Thread nD τ)) (κ := K (dst, none))
      (d := d) (by rw [duties_bar]; exact hd) (amount_bar m ρ dst d) () (Ol l) rfl) $$ [HO Ht Hp]
  · isplitr; · iapply (inv_at m ρ K (dst, none)); iexact HR
    isplitl [HO]; · iexact HO
    isplitl [Ht]; · iexact Ht
    isplitl [Hp]; · rw [payload_bar]; iexact Hp
    iapply (reached_at m ρ K (dst, none)); iexact HR

theorem wp_bar_wait (c : Dev nD) (l : List (Bool × Fin 4 × Fin 2)) {W : Waits sig Unit}
    {k' : ℕ} (hk' : k' = (barDuties (yc c)).card)
    {α : Type} {Q : α → sProp 𝕄} {k : PUnit → Prog (TpuEff nD τ sig (Elt F) Λ₀ .tc) α} :
    iprop(records m ρ K ∗ levAts L lv ∗ cred (tallyAt (barCell c) () (barDuties (yc c)).card) ∗ owes (c : Thread nD τ) (Ol (arriveOwes c l)) W
        ∗ atPos ER (barCell c) 0 ∅ 0)
      ⊢ iprop(((owes (c : Thread nD τ) (Ol (arriveOwes c l)) (insert (SemLoc.reg barS, ()) W) ∗ bigSep (barDuties (yc c)) (fun d => barPay (F := F) c d))
            -∗ wpc c (k ⟨⟩) Q)
          -∗ wpc c (.op (.semWait barS k') k) Q) := by
  subst hk'
  iintro ⟨#HR, #Hlev, Hc, HO, Hat⟩ Hk
  iapply (Rounds.wp_wait_rest_token 𝒱₀ ER (lineRd m ρ) (c : Thread nD τ) none (κ := K (c, none))
      (wpE_semWait_eq 𝒱₀ (c : Thread nD τ) none Set.univ) (Set.mem_univ _) () (O := Ol (arriveOwes c l)) (W := W) (R := 0) (m := 0) (T := ∅)
      (by rw [Nat.zero_add, expect_bar])) $$ [Hc HO Hat]
  · isplitr; · iapply (inv_at m ρ K (c, none)); iexact HR
    isplitl [Hc]; · iexact Hc
    isplitl [HO]; · iexact HO
    isplitr
    · iapply (mayWait_arrivals (F := F) c (.reg barS) l 1 rfl fun _ _ => Nat.lt_of_lt_of_le (by decide) (Nat.le_add_right 2 _)); iexact Hlev
    iexact Hat
  iintro ⟨HO, -, -, Hpay⟩
  iapply Hk
  isplitl [HO]; · iexact HO
  rw [Finset.sdiff_empty, duties_bar]
  iexact Hpay

/-- A transfer of half `h` of origin `o` to the neighbour in direction `dir`, from a source whose lent share is the
    send cell's payload and whose landing fills the neighbour's slot. -/
theorem wp_send (c n : Dev nD) (dir : Bool) (o : Fin 4) (h : Fin 2) (l : List (Bool × Fin 4 × Fin 2)) (hn : n = nbr c dir)
    (hs : sends (yc c) dir o = true) {W : Waits sig Unit}
    (src : Memref sig .tc .vmem S128x256 .f32) (fs : Buf (Elt F) (src.view.loc (c : Thread nD τ)))
    (hp₁ : (src.view.loc (c : Thread nD τ) ↦[src.view.set]{shareOf dir} fs : sProp 𝕄) = srcPts m ρ c o h (shareOf dir))
    (hp₂ : ∀ fd, slotPts (nbr c dir) o h fullShare ((slotM o h).view.write (Elt F) fd (src.view.read (Elt F) fs) Finset.univ)
      = slotFull m ρ (nbr c dir) o h fullShare)
    {hsc : (slotM o h : Memref sig (Dev.tc n : Thread nD τ).2.kind .vmem S128x256 .f32).view.ref.isScScratch = false}
    {hsrc : src.view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ srcPts m ρ c o h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma src (.remote (Dev.tc n : Thread nD τ) (slotM o h) (.dma (semAt (sendA dir) o h)) hsc) (.dma (semAt (recvA dir) o h)) hsrc hdst hsem) k) Q) := by
  subst hn
  rw [show arriveOwes c ((dir, o, h) :: l) = (recvCell (nbr c dir) dir o h, N) :: arriveOwes c l from rfl, Ol_cons, ← hp₁]
  iintro ⟨#HR, Hsrc, ⟨%fd, Hdst⟩, HO, Ht1, Ht2⟩
  iapply (Rounds.wp_send_pointsTo 𝒱₀ ER (lineRd m ρ) (c : Thread nD τ) none
      (c' := (nbr c dir : Thread nD τ)) (src := src) (dst := slotM o h)
      (q := shareOf dir) (fs := fs) (fd := fd) (r₁ := 0) (r₂ := 0) (d₁ := false) (d₂ := false)
      (κ₁ := K (c, some (true, dir, o, h))) (κ₂ := K (nbr c dir, some (false, dir, o, h)))
      (by rw [duties_send m ρ c dir o h hs]; exact Finset.mem_singleton_self _)
      (by rw [duties_recv m ρ (nbr c dir) dir o h (recvs_nbr c dir o hs)]; exact Finset.mem_singleton_self _)
      () () N rfl (amount_send m ρ c dir o h false) (amount_recv m ρ (nbr c dir) dir o h false) (Ol (arriveOwes c l)) rfl
      (Entails.of_eq (by rw [payload_send]; exact hp₁)) (Entails.of_eq (by rw [payload_recv]; exact hp₂ fd))) $$ [HO Ht1 Ht2 Hsrc Hdst]
  isplitr; · iapply (inv_at m ρ K (c, some (true, dir, o, h))); iexact HR
  isplitr; · iapply (inv_at m ρ K (nbr c dir, some (false, dir, o, h))); iexact HR
  isplitl [Hsrc]; · iexact Hsrc
  isplitl [Hdst]; · unfold slotPts; iexact Hdst
  isplitl [HO]; · iexact HO
  isplitl [Ht1]; · iexact Ht1
  isplitr; · iapply (reached_at m ρ K (c, some (true, dir, o, h))); iexact HR
  isplitl [Ht2]; · iexact Ht2
  iapply (reached_at m ρ K (nbr c dir, some (false, dir, o, h))); iexact HR

omit [FloatOps F] in
theorem srcPts_own (c : Dev nD) (o : Fin 4) (h : Fin 2) (q : PosShare TreeShare) (hy : yc c = o) : srcPts m ρ c o h q = halfPts m ρ c h q := by
  unfold srcPts; rw [if_pos hy.symm]
omit [FloatOps F] in
theorem srcPts_fwd (c : Dev nD) {y : Fin 4} (hy : yc c = y) (o : Fin 4) (h : Fin 2) (q : PosShare TreeShare) (ho : o ≠ y := by decide) :
    srcPts m ρ c o h q = slotFull m ρ c o h q := by
  subst hy; unfold srcPts; rw [if_neg ho]

/-- The source is the device's own block half (`o` its place): its landing is the block of the device at place `o`. -/
theorem wp_send_own (c n : Dev nD) (dir : Bool) (o : Fin 4) (h : Fin 2) (l : List (Bool × Fin 4 × Fin 2)) (hn : n = nbr c dir) (hy : yc c = o)
    (hs : sends o dir o = true := by decide) {W : Waits sig Unit}
    {hsc : (slotM o h : Memref sig (Dev.tc n : Thread nD τ).2.kind .vmem S128x256 .f32).view.ref.isScScratch = false}
    {hsrc : (halfM h : Memref sig .tc .vmem S128x256 .f32).view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ halfPts m ρ c h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma (halfM h) (.remote (Dev.tc n : Thread nD τ) (slotM o h) (.dma (semAt (sendA dir) o h)) hsc) (.dma (semAt (recvA dir) o h)) hsrc hdst hsem) k) Q) := by
  subst hy
  rw [← srcPts_own m ρ c (yc c) h (shareOf dir) rfl]
  exact wp_send m ρ K c n dir (yc c) h l hn hs (halfM h) (xstg m ρ c) (by unfold srcPts; rw [if_pos rfl]; rfl)
    fun fd => landing_own m ρ c (nbr c dir) (by cases dir; exacts [(devAt_dn c _).trans (devAt_yc c), (devAt_up c _).trans (devAt_yc c)]) h fd

/-- The source is the slot the half arrived in: neighbours on a line expect the same contents in it. -/
theorem wp_send_fwd (c n : Dev nD) (dir : Bool) (o : Fin 4) (h : Fin 2) (l : List (Bool × Fin 4 × Fin 2)) (hn : n = nbr c dir) {y : Fin 4} (hy : yc c = y)
    (hs : sends y dir o = true := by decide) (ho : o ≠ y := by decide) {W : Waits sig Unit}
    {hsc : (slotM o h : Memref sig (Dev.tc n : Thread nD τ).2.kind .vmem S128x256 .f32).view.ref.isScScratch = false}
    {hsrc : (slotM o h : Memref sig .tc .vmem S128x256 .f32).view.WordExact} {hdst : (slotM o h : Memref sig .tc .vmem S128x256 .f32).view.WordExact}
    {hsem : DmaTarget.Typed .vmem (.dma (semAt (recvA dir) o h)) (.remote (Dev.tc n : Thread nD τ) (slotM o h : Memref sig .tc .vmem S128x256 .f32) (.dma (semAt (sendA dir) o h)) hsc)}
    {α : Type} {Q : α → sProp 𝕄} {k : PUnit → Prog (TpuEff nD τ sig (Elt F) Λ₀ .tc) α} :
    iprop(records m ρ K ∗ slotFull m ρ c o h (shareOf dir) ∗ (∃ fd, slotPts (nbr c dir) o h fullShare fd)
        ∗ owes (c : Thread nD τ) (Ol (arriveOwes c ((dir, o, h) :: l))) W
        ∗ dutyTok ER (sendCell c dir o h) 0 false ∗ dutyTok ER (recvCell (nbr c dir) dir o h) 0 false)
      ⊢ iprop(((cred (tallyAt (sendCell c dir o h) () N) ∗ owes (c : Thread nD τ) (Ol (arriveOwes c l)) W) -∗ wpc c (k ⟨⟩) Q)
          -∗ wpc c (.op (.enqueueDma (slotM o h) (.remote (Dev.tc n : Thread nD τ) (slotM o h) (.dma (semAt (sendA dir) o h)) hsc) (.dma (semAt (recvA dir) o h)) hsrc hdst hsem) k) Q) := by
  subst hy
  rw [← srcPts_fwd m ρ c rfl o h (shareOf dir) ho]
  exact wp_send m ρ K c n dir o h l hn hs (slotM o h) (commVal m ρ c) (by unfold srcPts; rw [if_neg ho]; rfl)
    fun fd => landing_fwd m ρ c (nbr c dir) (by funext j; cases dir; exacts [devAt_dn c j, devAt_up c j]) o h fd

/-- The wait for an arrival, allowed while every transfer still owed carries a half farther than this one has come. -/
theorem wp_recv_wait (c : Dev nD) {y : Fin 4} (hy : yc c = y) (dir : Bool) (o : Fin 4) (h : Fin 2) (l : List (Bool × Fin 4 × Fin 2))
    (hs : recvs y dir o = true := by decide)
    (hl : ∀ p ∈ l, cond dir (y.val - o.val) (o.val - y.val) < cond p.1 ((y + 1).val - p.2.1.val) (p.2.1.val - (y - 1).val) := by decide)
    {W : Waits sig Unit}
    {sp' : Space} {s' : Shape} {e' : EltTy} {src : Memref sig (c : Thread nD τ).2.kind sp' s' e'} {κ' : Kind} {sp : Space} {s : Shape} {e : EltTy} {dst : Memref sig κ' sp s e}
    {hsrc : src.view.WordExact} {hdst : dst.view.WordExact} (hd : dst.view.dmaCredit = N := by rfl)
    {α : Type} {Q : α → sProp 𝕄} {k : PUnit → Prog (TpuEff nD τ sig (Elt F) Λ₀ .tc) α} :
    iprop(records m ρ K ∗ levAts L lv ∗ cred (tallyAt (recvCell c dir o h) () (if recvs (yc c) dir o = true then N else 0))
        ∗ owes (c : Thread nD τ) (Ol (arriveOwes c l)) W ∗ atPos ER (dcell c (false, dir, o, h)) 0 ∅ 0)
      ⊢ iprop(((owes (c : Thread nD τ) (Ol (arriveOwes c l)) (insert (SemLoc.dma (semAt (recvA dir) o h), ()) W) ∗ slotFull m ρ c o h fullShare
              ∗ semVal (dcell c (false, dir, o, h)) 0) -∗ wpc c (k ⟨⟩) Q)
          -∗ wpc c (.op (.waitDma2 (semAt (recvA dir) o h) src dst hsrc hdst) k) Q) := by
  subst hy
  have hw : ∀ Kt : PUnit → sProp 𝕄, wpE (defs₀ (F := F)) 𝒱₀ (c : Thread nD τ) none Set.univ (.waitDma2 (semAt (recvA dir) o h) src dst hsrc hdst) Kt
      = waitSpec (c : Thread nD τ) Set.univ (.dma (semAt (recvA dir) o h)) N Kt := fun Kt => by rw [← hd]; rfl
  rw [if_pos hs]
  iintro ⟨#HR, #Hlev, Hc, HO, Hat⟩ Hk
  iapply (Rounds.wp_wait_rest_token 𝒱₀ ER (lineRd m ρ) (c : Thread nD τ) none (κ := K (c, some (false, dir, o, h)))
      hw (Set.mem_univ _) () (O := Ol (arriveOwes c l)) (W := W) (R := 0) (m := 0) (T := ∅)
      (by rw [Nat.zero_add, expect_recv m ρ c dir o h hs])) $$ [Hc HO Hat]
  · isplitr; · iapply (inv_at m ρ K (c, some (false, dir, o, h))); iexact HR
    isplitl [Hc]; · iexact Hc
    isplitl [HO]; · iexact HO
    isplitr
    · iapply (mayWait_arrivals (F := F) c _ l _ (lv_recv c dir o h) fun p hp => Nat.add_lt_add_left (hl p hp) 2); iexact Hlev
    iexact Hat
  iintro ⟨HO, Hat, -, Hpay⟩
  imod (Rounds.cell_close ER (lineRd m ρ) (Set.mem_univ (K (c, some (false, dir, o, h)))) (fun h => h) (R := 0 + 1)
      (duties_later m ρ _)) $$ [Hat] with Hz
  · isplitr; · iapply (inv_at m ρ K (c, some (false, dir, o, h))); iexact HR
    iexact Hat
  iapply Hk
  isplitl [HO]; · iexact HO
  isplitl [Hpay]; · iapply (Entails.of_eq (rest_recv m ρ c dir o h hs)); iexact Hpay
  iexact Hz

/-- The wait for a transfer's source to have been read, nothing owed any more: the lent share comes back. -/
theorem wp_send_wait (c : Dev nD) {y : Fin 4} (hy : yc c = y) (dir : Bool) (o : Fin 4) (h : Fin 2)
    {P : sProp 𝕄} (hP : srcPts m ρ c o h (shareOf dir) = P) (hs : sends y dir o = true := by decide) {W : Waits sig Unit}
    {sp' : Space} {s' : Shape} {e' : EltTy} {src : Memref sig (c : Thread nD τ).2.kind sp' s' e'} {κ' : Kind} {sp : Space} {s : Shape} {e : EltTy} {dst : Memref sig κ' sp s e}
    {hsrc : src.view.WordExact} {hdst : dst.view.WordExact} (hd : dst.view.dmaCredit = N := by rfl)
    {α : Type} {Q : α → sProp 𝕄} {k : PUnit → Prog (TpuEff nD τ sig (Elt F) Λ₀ .tc) α} :
    iprop(records m ρ K ∗ cred (tallyAt (sendCell c dir o h) () N) ∗ owes (c : Thread nD τ) 0 W ∗ atPos ER (dcell c (true, dir, o, h)) 0 ∅ 0)
      ⊢ iprop(((owes (c : Thread nD τ) 0 (insert (SemLoc.dma (semAt (sendA dir) o h), ()) W) ∗ P ∗ semVal (dcell c (true, dir, o, h)) 0)
            -∗ wpc c (k ⟨⟩) Q)
          -∗ wpc c (.op (.waitDma2 (semAt (sendA dir) o h) src dst hsrc hdst) k) Q) := by
  subst hy
  subst hP
  have hw : ∀ Kt : PUnit → sProp 𝕄, wpE (defs₀ (F := F)) 𝒱₀ (c : Thread nD τ) none Set.univ (.waitDma2 (semAt (sendA dir) o h) src dst hsrc hdst) Kt
      = waitSpec (c : Thread nD τ) Set.univ (.dma (semAt (sendA dir) o h)) N Kt := fun Kt => by rw [← hd]; rfl
  iintro ⟨#HR, Hc, HO, Hat⟩ Hk
  iapply (Rounds.wp_wait_rest_token 𝒱₀ ER (lineRd m ρ) (c : Thread nD τ) none (κ := K (c, some (true, dir, o, h)))
      hw (Set.mem_univ _) () (O := 0) (W := W) (R := 0) (m := 0) (T := ∅)
      (by rw [Nat.zero_add, expect_send m ρ c dir o h hs])) $$ [Hc HO Hat]
  · isplitr; · iapply (inv_at m ρ K (c, some (true, dir, o, h))); iexact HR
    isplitl [Hc]; · iexact Hc
    isplitl [HO]; · iexact HO
    isplitr; · rw [MayWait_zero]; iempintro
    iexact Hat
  iintro ⟨HO, Hat, -, Hpay⟩
  imod (Rounds.cell_close ER (lineRd m ρ) (Set.mem_univ (K (c, some (true, dir, o, h)))) (fun h => h) (R := 0 + 1)
      (duties_later m ρ _)) $$ [Hat] with Hz
  · isplitr; · iapply (inv_at m ρ K (c, some (true, dir, o, h))); iexact HR
    iexact Hat
  iapply Hk
  isplitl [HO]; · iexact HO
  isplitl [Hpay]; · iapply (Entails.of_eq (rest_send m ρ c dir o h hs)); iexact Hpay
  iexact Hz

/-- A cell whose schedule has no duty closes at once. -/
theorem close_unused (c : Dev nD) (j : J) (hj : used (yc c) (dsem j) = false) :
    iprop(records m ρ K ∗ atPos ER (dcell c j) 0 ∅ 0) ⊢ iprop(|={Set.univ}=> semVal (dcell c j) 0) := by
  obtain ⟨b, dir, o, h⟩ := j
  have hd : ∀ r, (lineRd (F := F) m ρ).duties (dcell c (b, dir, o, h)) r = ∅ := fun r => by
    cases b
    · exact duties_recv_unused m ρ c dir o h (by rw [← used_recv (yc c) dir o h]; exact hj) r
    · exact duties_send_unused m ρ c dir o h (by rw [← used_send (yc c) dir o h]; exact hj) r
  iintro ⟨#HR, Hat⟩
  iapply (Rounds.cell_close ER (lineRd m ρ) (Set.mem_univ (K (c, some (b, dir, o, h)))) (fun h => h) (R := 0) (fun r _ => hd r))
  isplitr; · iapply (inv_at m ρ K (c, some (b, dir, o, h))); iexact HR
  iexact Hat

/-- A filled slot in three shares: one to lend to a transfer in either direction, one to read through. -/
theorem slot_shares (c : Dev nD) (o : Fin 4) (h : Fin 2) :
    slotFull m ρ c o h fullShare ⊣⊢ iprop(slotFull m ρ c o h (shareOf true) ∗ slotFull m ρ c o h (shareOf false) ∗ slotFull m ρ c o h fullShare.right.right) := by
  unfold slotFull
  exact (slotPts_share c o h fullShare _).trans (sep_congr .rfl (slotPts_share c o h fullShare.right _))

/-- The own block likewise, the lent shares cut into the two halves. -/
theorem x_shares (c : Dev nD) :
    (((c : Thread nD τ).loc cc0_stg0_0) ↦{fullShare} xstg m ρ c : sProp 𝕄)
      ⊣⊢ iprop((halfPts m ρ c 0 (shareOf true) ∗ halfPts m ρ c 1 (shareOf true)) ∗ (halfPts m ρ c 0 (shareOf false) ∗ halfPts m ρ c 1 (shareOf false))
          ∗ (((c : Thread nD τ).loc cc0_stg0_0) ↦{fullShare.right.right} xstg m ρ c)) :=
  (x_share m ρ c fullShare).trans (sep_congr (x_halves m ρ c _) ((x_share m ρ c fullShare.right).trans (sep_congr (x_halves m ρ c _) .rfl)))

theorem slotFull_ex (c : Dev nD) (o : Fin 4) (h : Fin 2) :
    slotFull m ρ c o h fullShare ⊢ iprop(∃ f, slotPts (F := F) c o h fullShare f) := by
  unfold slotFull; iintro H; iexists _; iexact H

/-- The result buffer with the bands of rows `T` known to hold the gathered rows. -/
def outOk (c : Dev nD) (T : Finset (Fin 8)) : sProp 𝕄 :=
  iprop(∃ f : Buf (Elt F) ((c : Thread nD τ).loc cc0_stg1_0), ⌜okRows m ρ c f T⌝ ∗ (((c : Thread nD τ).loc cc0_stg1_0) ↦{fullShare} f))

/-- An arrived half read through any share of its slot and stored into its rows of the result. -/
theorem wp_copy_half (c : Dev nD) (o : Fin 4) (h : Fin 2) (q : PosShare TreeShare) (T : Finset (Fin 8))
    {inb : ∀ a, (![256 * o.val + 128 * h.val, 0] : Fin 2 → Nat) a + S128x256.size a ≤ S1024x256.size a}
    {pay : Vec F S1x128x256 .f32 → FVec F S128x256 .f32} (hpay : ∀ x, pay x = shapeCast S128x256 x shapeCasts_S1x128x256_S128x256 := by intro; rfl)
    {hl1 : (cM : Memref sig .tc .vmem S4x256x256 .f32).view.LoadsAt (slotR o h).toLoadRect}
    {hl2 : (oM : Memref sig .tc .vmem S1024x256 .f32).view.LoadsAt (Rect.unit (s := S1024x256) ![256 * o.val + 128 * h.val, 0] S128x256.size inb).toLoadRect}
    {hx : ((oM : Memref sig .tc .vmem S1024x256 .f32).access (Rect.unit (s := S1024x256) ![256 * o.val + 128 * h.val, 0] S128x256.size inb)).Stores Finset.univ}
    {hm : (Finset.univ : Finset (Rect.unit (s := S1024x256) ![256 * o.val + 128 * h.val, 0] S128x256.size inb).shape.Idx) = Finset.univ ∨ ∀ a, (Rect.unit (s := S1024x256) ![256 * o.val + 128 * h.val, 0] S128x256.size inb).stride a = 1}
    {α : Type} {Q : α → sProp 𝕄} {k : PUnit → Prog (TpuEff nD τ sig (Elt F) Λ₀ .tc) α} :
    iprop(slotFull m ρ c o h q ∗ outOk m ρ c T)
      ⊢ iprop(((slotFull m ρ c o h q ∗ outOk m ρ c (insert ⟨2 * o.val + h.val, by have := o.isLt; have := h.isLt; omega⟩ T)) -∗ wpc c (k ⟨⟩) Q)
          -∗ wpc c (.op (.load cM (slotR o h).toLoadRect hl1) fun x =>
                .op (.load oM (Rect.unit (s := S1024x256) ![256 * o.val + 128 * h.val, 0] S128x256.size inb).toLoadRect hl2) fun _ =>
                  .op (.store oM (Rect.unit (s := S1024x256) ![256 * o.val + 128 * h.val, 0] S128x256.size inb) (pay x) Finset.univ hx hm) k) Q) := by
  unfold outOk slotFull slotPts
  iintro ⟨Hs, %f, %hf, Ho⟩ Hk
  iapply (wp_load 𝒱₀ (c : Thread nD τ) none Set.univ (m := cM) (slot_load_sub o h)) $$ Hs; iintro Hs
  iapply (wp_load 𝒱₀ (c : Thread nD τ) none Set.univ (m := oM) (o_load_sub _)) $$ Ho; iintro Ho
  iapply (wp_store 𝒱₀ (c : Thread nD τ) none Set.univ (m := oM) (r := (Rect.unit (s := S1024x256) ![256 * o.val + 128 * h.val, 0] S128x256.size inb)) (Mk := Finset.univ) (Finset.subset_univ _)) $$ Ho; iintro Ho
  rw [hpay]
  iapply Hk
  isplitl [Hs]; · iexact Hs
  iexists _
  isplitr; · ipureintro; exact ok_store_half m ρ c o h f T hf inb
  iexact Ho

/-- The own block read through any share and stored into its rows of the result. -/
theorem wp_copy_own (c : Dev nD) (o : Fin 4) (hy : yc c = o) (q : PosShare TreeShare) (T : Finset (Fin 8))
    {inb : ∀ a, (![256 * o.val, 0] : Fin 2 → Nat) a + S256x256.size a ≤ S1024x256.size a}
    {pay : Vec F S256x256 .f32 → FVec F S256x256 .f32} (hpay : ∀ x, pay x = shapeCast S256x256 x shapeCasts_S256x256_S256x256 := by intro; rfl)
    {hl1 : (xM : Memref sig .tc .vmem S256x256 .f32).view.LoadsAt (Rect.unit (s := S256x256) ![0, 0] S256x256.size inb_S256x256_S256x256_0_0).toLoadRect}
    {hl2 : (oM : Memref sig .tc .vmem S1024x256 .f32).view.LoadsAt (Rect.unit (s := S1024x256) ![256 * o.val, 0] S256x256.size inb).toLoadRect}
    {hx : ((oM : Memref sig .tc .vmem S1024x256 .f32).access (Rect.unit (s := S1024x256) ![256 * o.val, 0] S256x256.size inb)).Stores Finset.univ}
    {hm : (Finset.univ : Finset (Rect.unit (s := S1024x256) ![256 * o.val, 0] S256x256.size inb).shape.Idx) = Finset.univ ∨ ∀ a, (Rect.unit (s := S1024x256) ![256 * o.val, 0] S256x256.size inb).stride a = 1}
    {α : Type} {Q : α → sProp 𝕄} {k : PUnit → Prog (TpuEff nD τ sig (Elt F) Λ₀ .tc) α} :
    iprop((((c : Thread nD τ).loc cc0_stg0_0) ↦{q} xstg m ρ c) ∗ outOk m ρ c T)
      ⊢ iprop((((((c : Thread nD τ).loc cc0_stg0_0) ↦{q} xstg m ρ c)
              ∗ outOk m ρ c (insert ⟨2 * o.val, by have := o.isLt; omega⟩ (insert ⟨2 * o.val + 1, by have := o.isLt; omega⟩ T))) -∗ wpc c (k ⟨⟩) Q)
          -∗ wpc c (.op (.load xM (Rect.unit (s := S256x256) ![0, 0] S256x256.size inb_S256x256_S256x256_0_0).toLoadRect hl1) fun x =>
                .op (.load oM (Rect.unit (s := S1024x256) ![256 * o.val, 0] S256x256.size inb).toLoadRect hl2) fun _ =>
                  .op (.store oM (Rect.unit (s := S1024x256) ![256 * o.val, 0] S256x256.size inb) (pay x) Finset.univ hx hm) k) Q) := by
  subst hy
  unfold outOk
  iintro ⟨Hx, %f, %hf, Ho⟩ Hk
  iapply (wp_load 𝒱₀ (c : Thread nD τ) none Set.univ (m := xM) (x_load_sub _)) $$ Hx; iintro Hx
  iapply (wp_load 𝒱₀ (c : Thread nD τ) none Set.univ (m := oM) (o_load_sub _)) $$ Ho; iintro Ho
  iapply (wp_store 𝒱₀ (c : Thread nD τ) none Set.univ (m := oM) (r := (Rect.unit (s := S1024x256) ![256 * (yc c).val, 0] S256x256.size inb)) (Mk := Finset.univ) (Finset.subset_univ _)) $$ Ho; iintro Ho
  rw [hpay, read_x]
  iapply Hk
  isplitl [Hx]; · iexact Hx
  iexists _
  isplitr; · ipureintro; exact ok_store_own m ρ c f T hf inb
  iexact Ho

/-- Once all eight bands are known the buffer is the gathered array. -/
theorem outOk_all (c : Dev nD) (T : Finset (Fin 8)) (hT : Finset.univ ⊆ T) :
    outOk m ρ c T ⊢ (((c : Thread nD τ).loc cc0_stg1_0) ↦{fullShare} gathered m ρ c : sProp 𝕄) := by
  unfold outOk
  iintro ⟨%f, %hf, H⟩
  rw [← ok_all m ρ c f fun i hi => hf i (hT hi)]
  iexact H

/-- Both halves of an origin's cell pair at once: the schedule does not depend on the half. -/
theorem close_unused2 (c : Dev nD) {y : Fin 4} (hy : yc c = y) (b dir : Bool) (o : Fin 4) (hj : used y (dsem (b, dir, o, 0)) = false := by decide) :
    iprop(records m ρ K ∗ atPos ER (dcell c (b, dir, o, 0)) 0 ∅ 0 ∗ atPos ER (dcell c (b, dir, o, 1)) 0 ∅ 0)
      ⊢ iprop(|={Set.univ}=> (semVal (dcell c (b, dir, o, 0)) 0 ∗ semVal (dcell c (b, dir, o, 1)) 0)) := by
  subst hy
  have hj' : used (yc c) (dsem (b, dir, o, 1)) = false := by
    cases b
    · exact ((used_recv _ dir o 1).trans (used_recv _ dir o 0).symm).trans hj
    · exact ((used_send _ dir o 1).trans (used_send _ dir o 0).symm).trans hj
  iintro ⟨#HR, H0, H1⟩
  iapply fupd_sep
  isplitl [H0]
  · iapply (close_unused m ρ K c _ hj); isplitr; · iexact HR
    iexact H0
  · iapply (close_unused m ρ K c _ hj'); isplitr; · iexact HR
    iexact H1

theorem outOk_empty (c : Dev nD) (g : Buf (Elt F) ((c : Thread nD τ).loc cc0_stg1_0)) :
    (((c : Thread nD τ).loc cc0_stg1_0) ↦{fullShare} g : sProp 𝕄) ⊢ outOk m ρ c ∅ := by
  unfold outOk
  iintro H
  iexists g
  isplitr; · ipureintro; exact ok_empty m ρ c g
  iexact H

/-- The receive buffer as its eight slots, each at some contents. -/
theorem comm_split_ex (c : Dev nD) (f : Buf (Elt F) ((c : Thread nD τ).loc cc0_scratch0)) :
    (((c : Thread nD τ).loc cc0_scratch0) ↦{fullShare} f : sProp 𝕄)
      ⊢ iprop((∃ f, slotPts c 0 0 fullShare f) ∗ (∃ f, slotPts c 0 1 fullShare f) ∗ (∃ f, slotPts c 1 0 fullShare f) ∗ (∃ f, slotPts c 1 1 fullShare f) ∗ (∃ f, slotPts c 2 0 fullShare f) ∗ (∃ f, slotPts c 2 1 fullShare f) ∗ (∃ f, slotPts c 3 0 fullShare f) ∗ (∃ f, slotPts c 3 1 fullShare f)) := by
  iintro H
  ihave Hs := (comm_split (F := F) c f) $$ H
  icases Hs with ⟨S00, S01, S10, S11, S20, S21, S30, S31⟩
  isplitl [S00]; · iexists f; iexact S00
  isplitl [S01]; · iexists f; iexact S01
  isplitl [S10]; · iexists f; iexact S10
  isplitl [S11]; · iexists f; iexact S11
  isplitl [S20]; · iexists f; iexact S20
  isplitl [S21]; · iexists f; iexact S21
  isplitl [S30]; · iexists f; iexact S30
  iexists f; iexact S31

/-- A slot back from its three shares, as the buffer's reassembly wants it. -/
theorem slot_rejoin (c : Dev nD) (o : Fin 4) (h : Fin 2) :
    iprop(slotFull m ρ c o h (shareOf true) ∗ slotFull m ρ c o h (shareOf false) ∗ slotFull m ρ c o h fullShare.right.right)
      ⊢ iprop(∃ f, slotPts (F := F) c o h fullShare f) :=
  (slot_shares m ρ c o h).2.trans (slotFull_ex m ρ c o h)

end Cert.Kernel.Line

end
-- ==== Proof.Kernel.BodySpec.lean ====
/- What a device's body is given and what it leaves; each place proves this. -/
import proofs.«900692_g7700000000000693_dist_ag_v7x_xyz2x4x4_y_m256_n256_f32_1_alg».proof.Proof.Kernel.Steps

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

def casePre (c : Dev nD) (W : Waits sig Unit) (f0 : Buf (Elt F) ((c : Thread nD τ).loc cc0_scratch0)) (g1 : Buf (Elt F) ((c : Thread nD τ).loc cc0_stg1_0)) : sProp 𝕄 :=
  iprop(records m ρ K ∗ positions c ∗ payToks c ∗ creds c ∗ levAts L lv
    ∗ (((c : Thread nD τ).loc cc0_scratch0) ↦{fullShare} f0)
    ∗ owes (c : Thread nD τ) (O₀ c) W
    ∗ (((c : Thread nD τ).loc cc0_stg0_0) ↦{fullShare} xstg m ρ c)
    ∗ (((c : Thread nD τ).loc cc0_stg1_0) ↦{fullShare} g1))

def casePost (c : Dev nD) : sProp 𝕄 :=
  iprop((∃ f : Buf (Elt F) ((c : Thread nD τ).loc cc0_scratch0), ((c : Thread nD τ).loc cc0_scratch0) ↦{fullShare} f)
    ∗ (bigSep Finset.univ fun j : J => semVal (dcell c j) 0)
    ∗ (∃ W' : Waits sig Unit, owes (c : Thread nD τ) 0 W')
    ∗ (((c : Thread nD τ).loc cc0_stg0_0) ↦{fullShare} xstg m ρ c)
    ∗ (((c : Thread nD τ).loc cc0_stg1_0) ↦{fullShare} gathered m ρ c))

def CaseSpec (c : Dev nD) : Prop :=
  ∀ (W : Waits sig Unit) (f0 : Buf (Elt F) ((c : Thread nD τ).loc cc0_scratch0)) (g1 : Buf (Elt F) ((c : Thread nD τ).loc cc0_stg1_0)) (Kt : PUnit → sProp 𝕄),
    iprop(casePre m ρ K c W f0 g1 ∗ (casePost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt

end Cert.Kernel.Line

end
-- ==== Proof.Kernel.Unroll.lean ====
/- Products over (direction, origin, half) and over the 32 DMA cells written out factor by factor. -/
import proofs.«900692_g7700000000000693_dist_ag_v7x_xyz2x4x4_y_m256_n256_f32_1_alg».proof.Proof.Kernel.Mem
import proofs.«900692_g7700000000000693_dist_ag_v7x_xyz2x4x4_y_m256_n256_f32_1_alg».proof.Proof.Kernel.Ghost

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_bool2 (Φ : Bool → sProp 𝕄) : bigSep (Finset.univ : Finset Bool) Φ = iprop(Φ true ∗ Φ false) := by
  rw [show (Finset.univ : Finset Bool) = {true, false} from by decide, bigSep_insert (by decide), bigSep_singleton]
  rfl

theorem bigSep_dirs (Φ : Bool × Fin 4 × Fin 2 → sProp 𝕄) :
    bigSep (Finset.univ : Finset (Bool × Fin 4 × Fin 2)) Φ
      = iprop((Φ (true, 0, 0) ∗ Φ (true, 0, 1) ∗ Φ (true, 1, 0) ∗ Φ (true, 1, 1) ∗ Φ (true, 2, 0) ∗ Φ (true, 2, 1) ∗ Φ (true, 3, 0) ∗ Φ (true, 3, 1))
          ∗ (Φ (false, 0, 0) ∗ Φ (false, 0, 1) ∗ Φ (false, 1, 0) ∗ Φ (false, 1, 1) ∗ Φ (false, 2, 0) ∗ Φ (false, 2, 1) ∗ Φ (false, 3, 0) ∗ Φ (false, 3, 1))) := by
  rw [bigSep_univ_prod, bigSep_bool2, bigSep_slots, bigSep_slots]

theorem bigSep_J (Φ : J → sProp 𝕄) :
    bigSep (Finset.univ : Finset J) Φ
      = iprop(((Φ (true, true, 0, 0) ∗ Φ (true, true, 0, 1) ∗ Φ (true, true, 1, 0) ∗ Φ (true, true, 1, 1) ∗ Φ (true, true, 2, 0) ∗ Φ (true, true, 2, 1) ∗ Φ (true, true, 3, 0) ∗ Φ (true, true, 3, 1))
            ∗ (Φ (true, false, 0, 0) ∗ Φ (true, false, 0, 1) ∗ Φ (true, false, 1, 0) ∗ Φ (true, false, 1, 1) ∗ Φ (true, false, 2, 0) ∗ Φ (true, false, 2, 1) ∗ Φ (true, false, 3, 0) ∗ Φ (true, false, 3, 1)))
          ∗ ((Φ (false, true, 0, 0) ∗ Φ (false, true, 0, 1) ∗ Φ (false, true, 1, 0) ∗ Φ (false, true, 1, 1) ∗ Φ (false, true, 2, 0) ∗ Φ (false, true, 2, 1) ∗ Φ (false, true, 3, 0) ∗ Φ (false, true, 3, 1))
            ∗ (Φ (false, false, 0, 0) ∗ Φ (false, false, 0, 1) ∗ Φ (false, false, 1, 0) ∗ Φ (false, false, 1, 1) ∗ Φ (false, false, 2, 0) ∗ Φ (false, false, 2, 1) ∗ Φ (false, false, 3, 0) ∗ Φ (false, false, 3, 1)))) := by
  rw [bigSep_univ_prod, bigSep_bool2, bigSep_dirs, bigSep_dirs]

end Cert.Kernel.Line

end
-- ==== Proof.Kernel.Case0.lean ====
/- The body at the first place of a line. -/
import proofs.«900692_g7700000000000693_dist_ag_v7x_xyz2x4x4_y_m256_n256_f32_1_alg».proof.Proof.Kernel.BodySpec
import proofs.«900692_g7700000000000693_dist_ag_v7x_xyz2x4x4_y_m256_n256_f32_1_alg».proof.Proof.Kernel.Steps
import proofs.«900692_g7700000000000693_dist_ag_v7x_xyz2x4x4_y_m256_n256_f32_1_alg».proof.Proof.Kernel.Unroll

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn0 (c : Dev nD) (hk : yc c = 0) :
    bigSep (barDuties (yc c)) (fun d => barPay (F := F) c d) = iprop((∃ f, slotPts (nbr c true) 0 0 fullShare f) ∗ (∃ f, slotPts (nbr c true) 0 1 fullShare f) ∗ emp) := by
  rw [hk, show barDuties (0 : Fin 4) = {true} from by decide, bigSep_singleton]
  unfold barPay; rw [if_pos rfl, hk, show slotsLE (0 : Fin 4) = [(0, 0), (0, 1)] from by decide]
  simp only [slotsEx] <;> rfl

set_option maxHeartbeats 800000 in
/-- The first place of a line: one neighbour, above; its block goes up, the six other halves come down. -/
theorem case0 (c : Dev nD) (hk : yc c = 0) : CaseSpec m ρ K c := by
  intro W f0 g1 Kt
  have h1 : ¬ k0_cond1 c = 1#1 := by rw [cond1_iff, hk]; decide
  have h2 : k0_cond2 c = 1#1 := by rw [cond2_iff, hk]; decide
  have h3 : k0_cond3 c = 1#1 := by rw [cond3_iff, hk]
  have h4 : ¬ k0_cond4 c = 1#1 := by rw [cond4_iff, hk]; decide
  have h5 : ¬ k0_cond5 c = 1#1 := by rw [cond5_iff, hk]; decide
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_neg h1, dif_pos h2, dif_pos h3, dif_neg h4, dif_neg h5, dif_neg h6, Prog.bind_op, Prog.bind_ret, Prog.pure_eq_ret]
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_assoc, Prog.bind_op, Prog.bind_ret, Prog.pure_eq_ret, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (up c), 1) :: arriveOwes c [(true, 0, 0), (true, 0, 1)]) from by unfold O₀ oweList barOwes; rw [hk]; rfl]
  have hup : up c = devAt c 1 := by unfold up; rw [hk]; rfl
  have e0 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e0]
  iapply (wp_bar_signal m ρ K c (up c) false _ (by rw [yc_up, hk]; decide)) $$ [$HR $HO $HtU S10 S11 S20 S21 S30 S31]
  · unfold barPay; rw [if_neg Bool.false_ne_true, dn_up, yc_up, hk]
    rw [show slotsGE ((0 : Fin 4) + 1) = [(1, 0), (1, 1), (2, 0), (2, 1), (3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn0 (F := F) c hk)) $$ Hpay
  icases Hp with ⟨U0, U1, -⟩
  iapply (wp_send_own m ρ K c _ true 0 0 _ ((dev_eq c 1 (k0_dev3_eq c)).trans hup.symm) hk) $$ [$HR $XT0 $U0 $HO $TS_T00 $TR_T00]
  iintro ⟨CS0, HO⟩
  iapply (wp_send_own m ρ K c _ true 0 1 _ ((dev_eq c 1 (k0_dev4_eq c)).trans hup.symm) hk) $$ [$HR $XT1 $U1 $HO $TS_T01 $TR_T01]
  iintro ⟨CS1, HO⟩
  iapply (wp_copy_own m ρ c 0 hk _ _) $$ [$HxR $Hout]; iintro ⟨HxR, Hout⟩
  iapply (wp_recv_wait m ρ K c hk false 1 0 []) $$ [$HR $Hlev $CR_F10 $HO $AR_F10]
  iintro ⟨HO, F10, AR_F10⟩
  iapply (wp_copy_half m ρ c 1 0 fullShare _) $$ [$F10 $Hout]; iintro ⟨F10, Hout⟩
  iapply (wp_recv_wait m ρ K c hk false 1 1 []) $$ [$HR $Hlev $CR_F11 $HO $AR_F11]
  iintro ⟨HO, F11, AR_F11⟩
  iapply (wp_copy_half m ρ c 1 1 fullShare _) $$ [$F11 $Hout]; iintro ⟨F11, Hout⟩
  iapply (wp_recv_wait m ρ K c hk false 2 0 []) $$ [$HR $Hlev $CR_F20 $HO $AR_F20]
  iintro ⟨HO, F20, AR_F20⟩
  iapply (wp_copy_half m ρ c 2 0 fullShare _) $$ [$F20 $Hout]; iintro ⟨F20, Hout⟩
  iapply (wp_recv_wait m ρ K c hk false 2 1 []) $$ [$HR $Hlev $CR_F21 $HO $AR_F21]
  iintro ⟨HO, F21, AR_F21⟩
  iapply (wp_copy_half m ρ c 2 1 fullShare _) $$ [$F21 $Hout]; iintro ⟨F21, Hout⟩
  iapply (wp_recv_wait m ρ K c hk false 3 0 []) $$ [$HR $Hlev $CR_F30 $HO $AR_F30]
  iintro ⟨HO, F30, AR_F30⟩
  iapply (wp_copy_half m ρ c 3 0 fullShare _) $$ [$F30 $Hout]; iintro ⟨F30, Hout⟩
  iapply (wp_recv_wait m ρ K c hk false 3 1 []) $$ [$HR $Hlev $CR_F31 $HO $AR_F31]
  iintro ⟨HO, F31, AR_F31⟩
  iapply (wp_copy_half m ρ c 3 1 fullShare _) $$ [$F31 $Hout]; iintro ⟨F31, Hout⟩
  rw [show Ol (arriveOwes c []) = 0 from rfl]
  iapply (wp_send_wait m ρ K c hk true 0 0 (srcPts_own m ρ c 0 0 _ hk)) $$ [$HR $CS0 $HO $AS_T00]
  iintro ⟨HO, XT0, AS_T00⟩
  iapply (wp_send_wait m ρ K c hk true 0 1 (srcPts_own m ρ c 0 1 _ hk)) $$ [$HR $CS1 $HO $AS_T01]
  iintro ⟨HO, XT1, AS_T01⟩
  imod (close_unused2 m ρ K c hk true true 1) $$ [$HR $AS_T10 $AS_T11] with ⟨AS_T10, AS_T11⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk true false 2) $$ [$HR $AS_F20 $AS_F21] with ⟨AS_F20, AS_F21⟩
  imod (close_unused2 m ρ K c hk true false 3) $$ [$HR $AS_F30 $AS_F31] with ⟨AS_F30, AS_F31⟩
  imod (close_unused2 m ρ K c hk false true 0) $$ [$HR $AR_T00 $AR_T01] with ⟨AR_T00, AR_T01⟩
  imod (close_unused2 m ρ K c hk false true 1) $$ [$HR $AR_T10 $AR_T11] with ⟨AR_T10, AR_T11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  ihave Hx := (x_shares m ρ c).2 $$ [$XT0 $XT1 $XF0 $XF1 $HxR]
  ihave F10 := (slotFull_ex m ρ c 1 0) $$ F10
  ihave F11 := (slotFull_ex m ρ c 1 1) $$ F11
  ihave F20 := (slotFull_ex m ρ c 2 0) $$ F20
  ihave F21 := (slotFull_ex m ρ c 2 1) $$ F21
  ihave F30 := (slotFull_ex m ρ c 3 0) $$ F30
  ihave F31 := (slotFull_ex m ρ c 3 1) $$ F31
  ihave Hc := (comm_join (F := F) c) $$ [$S00 $S01 $F10 $F11 $F20 $F21 $F30 $F31]
  ihave Hout := (outOk_all m ρ c _ (by decide +revert)) $$ Hout
  rw [wp_ret]; imodintro
  iapply Hk
  unfold casePost
  rw [bigSep_J]
  iframe
  iexists _; iexact HO

/-- info: 'Cert.Kernel.Line.case0' depends on axioms: [propext, Classical.choice, Quot.sound] -/
#guard_msgs in #print axioms case0

end Cert.Kernel.Line
end
-- ==== Proof.Kernel.Case1.lean ====
/- The body at the second place of a line. -/
import proofs.«900692_g7700000000000693_dist_ag_v7x_xyz2x4x4_y_m256_n256_f32_1_alg».proof.Proof.Kernel.BodySpec
import proofs.«900692_g7700000000000693_dist_ag_v7x_xyz2x4x4_y_m256_n256_f32_1_alg».proof.Proof.Kernel.Steps
import proofs.«900692_g7700000000000693_dist_ag_v7x_xyz2x4x4_y_m256_n256_f32_1_alg».proof.Proof.Kernel.Unroll

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn1 (c : Dev nD) (hk : yc c = 1) :
    bigSep (barDuties (yc c)) (fun d => barPay (F := F) c d)
      = iprop(((∃ f, slotPts (nbr c false) 1 0 fullShare f) ∗ (∃ f, slotPts (nbr c false) 1 1 fullShare f) ∗ (∃ f, slotPts (nbr c false) 2 0 fullShare f) ∗ (∃ f, slotPts (nbr c false) 2 1 fullShare f) ∗ (∃ f, slotPts (nbr c false) 3 0 fullShare f) ∗ (∃ f, slotPts (nbr c false) 3 1 fullShare f) ∗ emp) ∗ ((∃ f, slotPts (nbr c true) 0 0 fullShare f) ∗ (∃ f, slotPts (nbr c true) 0 1 fullShare f) ∗ (∃ f, slotPts (nbr c true) 1 0 fullShare f) ∗ (∃ f, slotPts (nbr c true) 1 1 fullShare f) ∗ emp)) := by
  rw [hk, show barDuties (1 : Fin 4) = insert false {true} from by decide, bigSep_insert (by decide), bigSep_singleton]
  unfold barPay
  rw [if_neg Bool.false_ne_true, if_pos rfl, hk, show slotsGE (1 : Fin 4) = [(1, 0), (1, 1), (2, 0), (2, 1), (3, 0), (3, 1)] from by decide, show slotsLE (1 : Fin 4) = [(0, 0), (0, 1), (1, 0), (1, 1)] from by decide]
  simp only [slotsEx] <;> rfl

set_option maxHeartbeats 1600000 in
/-- The second place of a line: its block goes both ways, origin 0 is passed up and origins 2 and 3 down. -/
theorem case1 (c : Dev nD) (hk : yc c = 1) : CaseSpec m ρ K c := by
  intro W f0 g1 Kt
  have h1 : k0_cond1 c = 1#1 := by rw [cond1_iff, hk]; decide
  have h2 : k0_cond2 c = 1#1 := by rw [cond2_iff, hk]; decide
  have h3 : ¬ k0_cond3 c = 1#1 := by rw [cond3_iff, hk]; decide
  have h4 : k0_cond4 c = 1#1 := by rw [cond4_iff, hk]
  have h5 : ¬ k0_cond5 c = 1#1 := by rw [cond5_iff, hk]; decide
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_pos h2, dif_neg h3, dif_pos h4, dif_neg h5, dif_neg h6, Prog.bind_op, Prog.bind_ret, Prog.pure_eq_ret]
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part6_skel k0_part7_skel k0_part8_skel k0_part9_skel k0_part10_skel k0_part11_skel k0_part12_skel k0_part13_skel k0_part14_skel k0_part15_skel k0_part16_skel
  simp only [Prog.lift, Prog.bind_assoc, Prog.bind_op, Prog.bind_ret, Prog.pure_eq_ret, dif_neg h5, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: (barCell (up c), 1) :: arriveOwes c [(true, 1, 0), (false, 1, 0), (true, 1, 1), (false, 1, 1), (true, 0, 0), (false, 2, 0), (true, 0, 1), (false, 2, 1), (false, 3, 0), (false, 3, 1)]) from by unfold O₀ oweList barOwes; rw [hk]; rfl]
  have hup : up c = devAt c 2 := by unfold up; rw [hk]; rfl
  have hdn : dn c = devAt c 0 := by unfold dn; rw [hk]; rfl
  have e1 : (⟨k0_dev1 c, k0_dev1_lt c h1⟩ : Dev nD) = dn c := Fin.ext (dev1_val c h1)
  have e2 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e1]
  iapply (wp_bar_signal m ρ K c (dn c) true _ (by rw [yc_dn, hk]; decide)) $$ [$HR $HO $HtD S00 S01]
  · unfold barPay; rw [if_pos rfl, up_dn, yc_dn, hk]
    rw [show slotsLE ((1 : Fin 4) - 1) = [(0, 0), (0, 1)] from by decide]
    simp only [slotsEx]
    iframe
  iintro HO
  rw [e2]
  iapply (wp_bar_signal m ρ K c (up c) false _ (by rw [yc_up, hk]; decide)) $$ [$HR $HO $HtU S20 S21 S30 S31]
  · unfold barPay; rw [if_neg Bool.false_ne_true, dn_up, yc_up, hk]
    rw [show slotsGE ((1 : Fin 4) + 1) = [(2, 0), (2, 1), (3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn1 (F := F) c hk)) $$ Hpay
  icases Hp with ⟨⟨D10, D11, D20, D21, D30, D31, -⟩, ⟨U00, U01, U10, U11, -⟩⟩
  iapply (wp_send_own m ρ K c _ true 1 0 _ ((dev_eq c 2 (k0_dev5_eq c)).trans hup.symm) hk) $$ [$HR $XT0 $U10 $HO $TS_T10 $TR_T10]
  iintro ⟨CS_T10, HO⟩
  iapply (wp_send_own m ρ K c _ false 1 0 _ ((dev_eq c 0 (k0_dev6_eq c)).trans hdn.symm) hk) $$ [$HR $XF0 $D10 $HO $TS_F10 $TR_F10]
  iintro ⟨CS_F10, HO⟩
  iapply (wp_send_own m ρ K c _ true 1 1 _ ((dev_eq c 2 (k0_dev7_eq c)).trans hup.symm) hk) $$ [$HR $XT1 $U11 $HO $TS_T11 $TR_T11]
  iintro ⟨CS_T11, HO⟩
  iapply (wp_send_own m ρ K c _ false 1 1 _ ((dev_eq c 0 (k0_dev8_eq c)).trans hdn.symm) hk) $$ [$HR $XF1 $D11 $HO $TS_F11 $TR_F11]
  iintro ⟨CS_F11, HO⟩
  iapply (wp_copy_own m ρ c 1 hk _ _) $$ [$HxR $Hout]; iintro ⟨HxR, Hout⟩
  iapply (wp_recv_wait m ρ K c hk true 0 0 [(true, 0, 0), (false, 2, 0), (true, 0, 1), (false, 2, 1), (false, 3, 0), (false, 3, 1)]) $$ [$HR $Hlev $CR_T00 $HO $AR_T00]
  iintro ⟨HO, F00, AR_T00⟩
  ihave Fs := (slot_shares m ρ c 0 0).1 $$ F00
  icases Fs with ⟨FT00, FF00, FR00⟩
  iapply (wp_send_fwd m ρ K c _ true 0 0 _ ((dev_eq c 2 (k0_dev9_eq c)).trans hup.symm) hk) $$ [$HR $FT00 $U00 $HO $TS_T00 $TR_T00]
  iintro ⟨CS_T00, HO⟩
  iapply (wp_copy_half m ρ c 0 0 fullShare.right.right _) $$ [$FR00 $Hout]; iintro ⟨FR00, Hout⟩
  iapply (wp_recv_wait m ρ K c hk false 2 0 [(false, 2, 0), (true, 0, 1), (false, 2, 1), (false, 3, 0), (false, 3, 1)]) $$ [$HR $Hlev $CR_F20 $HO $AR_F20]
  iintro ⟨HO, F20, AR_F20⟩
  ihave Fs := (slot_shares m ρ c 2 0).1 $$ F20
  icases Fs with ⟨FT20, FF20, FR20⟩
  iapply (wp_send_fwd m ρ K c _ false 2 0 _ ((dev_eq c 0 (k0_dev10_eq c)).trans hdn.symm) hk) $$ [$HR $FF20 $D20 $HO $TS_F20 $TR_F20]
  iintro ⟨CS_F20, HO⟩
  iapply (wp_copy_half m ρ c 2 0 fullShare.right.right _) $$ [$FR20 $Hout]; iintro ⟨FR20, Hout⟩
  iapply (wp_recv_wait m ρ K c hk true 0 1 [(true, 0, 1), (false, 2, 1), (false, 3, 0), (false, 3, 1)]) $$ [$HR $Hlev $CR_T01 $HO $AR_T01]
  iintro ⟨HO, F01, AR_T01⟩
  ihave Fs := (slot_shares m ρ c 0 1).1 $$ F01
  icases Fs with ⟨FT01, FF01, FR01⟩
  iapply (wp_send_fwd m ρ K c _ true 0 1 _ ((dev_eq c 2 (k0_dev11_eq c)).trans hup.symm) hk) $$ [$HR $FT01 $U01 $HO $TS_T01 $TR_T01]
  iintro ⟨CS_T01, HO⟩
  iapply (wp_copy_half m ρ c 0 1 fullShare.right.right _) $$ [$FR01 $Hout]; iintro ⟨FR01, Hout⟩
  iapply (wp_recv_wait m ρ K c hk false 2 1 [(false, 2, 1), (false, 3, 0), (false, 3, 1)]) $$ [$HR $Hlev $CR_F21 $HO $AR_F21]
  iintro ⟨HO, F21, AR_F21⟩
  ihave Fs := (slot_shares m ρ c 2 1).1 $$ F21
  icases Fs with ⟨FT21, FF21, FR21⟩
  iapply (wp_send_fwd m ρ K c _ false 2 1 _ ((dev_eq c 0 (k0_dev12_eq c)).trans hdn.symm) hk) $$ [$HR $FF21 $D21 $HO $TS_F21 $TR_F21]
  iintro ⟨CS_F21, HO⟩
  iapply (wp_copy_half m ρ c 2 1 fullShare.right.right _) $$ [$FR21 $Hout]; iintro ⟨FR21, Hout⟩
  iapply (wp_recv_wait m ρ K c hk false 3 0 [(false, 3, 0), (false, 3, 1)]) $$ [$HR $Hlev $CR_F30 $HO $AR_F30]
  iintro ⟨HO, F30, AR_F30⟩
  ihave Fs := (slot_shares m ρ c 3 0).1 $$ F30
  icases Fs with ⟨FT30, FF30, FR30⟩
  iapply (wp_send_fwd m ρ K c _ false 3 0 _ ((dev_eq c 0 (k0_dev13_eq c)).trans hdn.symm) hk) $$ [$HR $FF30 $D30 $HO $TS_F30 $TR_F30]
  iintro ⟨CS_F30, HO⟩
  iapply (wp_copy_half m ρ c 3 0 fullShare.right.right _) $$ [$FR30 $Hout]; iintro ⟨FR30, Hout⟩
  iapply (wp_recv_wait m ρ K c hk false 3 1 [(false, 3, 1)]) $$ [$HR $Hlev $CR_F31 $HO $AR_F31]
  iintro ⟨HO, F31, AR_F31⟩
  ihave Fs := (slot_shares m ρ c 3 1).1 $$ F31
  icases Fs with ⟨FT31, FF31, FR31⟩
  iapply (wp_send_fwd m ρ K c _ false 3 1 _ ((dev_eq c 0 (k0_dev14_eq c)).trans hdn.symm) hk) $$ [$HR $FF31 $D31 $HO $TS_F31 $TR_F31]
  iintro ⟨CS_F31, HO⟩
  iapply (wp_copy_half m ρ c 3 1 fullShare.right.right _) $$ [$FR31 $Hout]; iintro ⟨FR31, Hout⟩
  rw [show Ol (arriveOwes c []) = 0 from rfl]
  iapply (wp_send_wait m ρ K c hk true 1 0 (srcPts_own m ρ c 1 0 _ hk)) $$ [$HR $CS_T10 $HO $AS_T10]
  iintro ⟨HO, XT0, AS_T10⟩
  iapply (wp_send_wait m ρ K c hk false 1 0 (srcPts_own m ρ c 1 0 _ hk)) $$ [$HR $CS_F10 $HO $AS_F10]
  iintro ⟨HO, XF0, AS_F10⟩
  iapply (wp_send_wait m ρ K c hk true 1 1 (srcPts_own m ρ c 1 1 _ hk)) $$ [$HR $CS_T11 $HO $AS_T11]
  iintro ⟨HO, XT1, AS_T11⟩
  iapply (wp_send_wait m ρ K c hk false 1 1 (srcPts_own m ρ c 1 1 _ hk)) $$ [$HR $CS_F11 $HO $AS_F11]
  iintro ⟨HO, XF1, AS_F11⟩
  iapply (wp_send_wait m ρ K c hk true 0 0 (srcPts_fwd m ρ c hk 0 0 _)) $$ [$HR $CS_T00 $HO $AS_T00]
  iintro ⟨HO, FT00, AS_T00⟩
  iapply (wp_send_wait m ρ K c hk false 2 0 (srcPts_fwd m ρ c hk 2 0 _)) $$ [$HR $CS_F20 $HO $AS_F20]
  iintro ⟨HO, FF20, AS_F20⟩
  iapply (wp_send_wait m ρ K c hk true 0 1 (srcPts_fwd m ρ c hk 0 1 _)) $$ [$HR $CS_T01 $HO $AS_T01]
  iintro ⟨HO, FT01, AS_T01⟩
  iapply (wp_send_wait m ρ K c hk false 2 1 (srcPts_fwd m ρ c hk 2 1 _)) $$ [$HR $CS_F21 $HO $AS_F21]
  iintro ⟨HO, FF21, AS_F21⟩
  iapply (wp_send_wait m ρ K c hk false 3 0 (srcPts_fwd m ρ c hk 3 0 _)) $$ [$HR $CS_F30 $HO $AS_F30]
  iintro ⟨HO, FF30, AS_F30⟩
  iapply (wp_send_wait m ρ K c hk false 3 1 (srcPts_fwd m ρ c hk 3 1 _)) $$ [$HR $CS_F31 $HO $AS_F31]
  iintro ⟨HO, FF31, AS_F31⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk false true 1) $$ [$HR $AR_T10 $AR_T11] with ⟨AR_T10, AR_T11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  ihave Hx := (x_shares m ρ c).2 $$ [$XT0 $XT1 $XF0 $XF1 $HxR]
  ihave F00 := (slot_rejoin m ρ c 0 0) $$ [$FT00 $FF00 $FR00]
  ihave F20 := (slot_rejoin m ρ c 2 0) $$ [$FT20 $FF20 $FR20]
  ihave F01 := (slot_rejoin m ρ c 0 1) $$ [$FT01 $FF01 $FR01]
  ihave F21 := (slot_rejoin m ρ c 2 1) $$ [$FT21 $FF21 $FR21]
  ihave F30 := (slot_rejoin m ρ c 3 0) $$ [$FT30 $FF30 $FR30]
  ihave F31 := (slot_rejoin m ρ c 3 1) $$ [$FT31 $FF31 $FR31]
  ihave Hc := (comm_join (F := F) c) $$ [$F00 $F01 $S10 $S11 $F20 $F21 $F30 $F31]
  ihave Hout := (outOk_all m ρ c _ (by decide +revert)) $$ Hout
  iapply (le_wp_ret _ _ _ _ _)
  iapply Hk
  unfold casePost
  rw [bigSep_J]
  iframe
  iexists _; iexact HO

/-- info: 'Cert.Kernel.Line.case1' depends on axioms: [propext, Classical.choice, Quot.sound] -/
#guard_msgs in #print axioms case1

end Cert.Kernel.Line
end
-- ==== Proof.Kernel.Case2.lean ====
/- The body at the third place of a line. -/
import proofs.«900692_g7700000000000693_dist_ag_v7x_xyz2x4x4_y_m256_n256_f32_1_alg».proof.Proof.Kernel.BodySpec
import proofs.«900692_g7700000000000693_dist_ag_v7x_xyz2x4x4_y_m256_n256_f32_1_alg».proof.Proof.Kernel.Steps
import proofs.«900692_g7700000000000693_dist_ag_v7x_xyz2x4x4_y_m256_n256_f32_1_alg».proof.Proof.Kernel.Unroll

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn2 (c : Dev nD) (hk : yc c = 2) :
    bigSep (barDuties (yc c)) (fun d => barPay (F := F) c d)
      = iprop(((∃ f, slotPts (nbr c false) 2 0 fullShare f) ∗ (∃ f, slotPts (nbr c false) 2 1 fullShare f) ∗ (∃ f, slotPts (nbr c false) 3 0 fullShare f) ∗ (∃ f, slotPts (nbr c false) 3 1 fullShare f) ∗ emp) ∗ ((∃ f, slotPts (nbr c true) 0 0 fullShare f) ∗ (∃ f, slotPts (nbr c true) 0 1 fullShare f) ∗ (∃ f, slotPts (nbr c true) 1 0 fullShare f) ∗ (∃ f, slotPts (nbr c true) 1 1 fullShare f) ∗ (∃ f, slotPts (nbr c true) 2 0 fullShare f) ∗ (∃ f, slotPts (nbr c true) 2 1 fullShare f) ∗ emp)) := by
  rw [hk, show barDuties (2 : Fin 4) = insert false {true} from by decide, bigSep_insert (by decide), bigSep_singleton]
  unfold barPay
  rw [if_neg Bool.false_ne_true, if_pos rfl, hk, show slotsGE (2 : Fin 4) = [(2, 0), (2, 1), (3, 0), (3, 1)] from by decide, show slotsLE (2 : Fin 4) = [(0, 0), (0, 1), (1, 0), (1, 1), (2, 0), (2, 1)] from by decide]
  simp only [slotsEx] <;> rfl

set_option maxHeartbeats 1600000 in
/-- The third place of a line: its block goes both ways, origins 0 and 1 are passed up and origin 3 down. -/
theorem case2 (c : Dev nD) (hk : yc c = 2) : CaseSpec m ρ K c := by
  intro W f0 g1 Kt
  have h1 : k0_cond1 c = 1#1 := by rw [cond1_iff, hk]; decide
  have h2 : k0_cond2 c = 1#1 := by rw [cond2_iff, hk]; decide
  have h3 : ¬ k0_cond3 c = 1#1 := by rw [cond3_iff, hk]; decide
  have h4 : ¬ k0_cond4 c = 1#1 := by rw [cond4_iff, hk]; decide
  have h5 : k0_cond5 c = 1#1 := by rw [cond5_iff, hk]
  have h6 : ¬ k0_cond6 c = 1#1 := by rw [cond6_iff, hk]; decide
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_pos h2, dif_neg h3, dif_neg h4, dif_pos h5, dif_neg h6, Prog.bind_op, Prog.bind_ret, Prog.pure_eq_ret]
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part17_skel k0_part18_skel k0_part19_skel k0_part20_skel k0_part21_skel k0_part22_skel k0_part23_skel k0_part24_skel k0_part25_skel k0_part26_skel k0_part27_skel
  simp only [Prog.lift, Prog.bind_assoc, Prog.bind_op, Prog.bind_ret, Prog.pure_eq_ret, dif_neg h6]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: (barCell (up c), 1) :: arriveOwes c [(true, 2, 0), (false, 2, 0), (true, 2, 1), (false, 2, 1), (true, 1, 0), (false, 3, 0), (true, 1, 1), (false, 3, 1), (true, 0, 0), (true, 0, 1)]) from by unfold O₀ oweList barOwes; rw [hk]; rfl]
  have hup : up c = devAt c 3 := by unfold up; rw [hk]; rfl
  have hdn : dn c = devAt c 1 := by unfold dn; rw [hk]; rfl
  have e1 : (⟨k0_dev1 c, k0_dev1_lt c h1⟩ : Dev nD) = dn c := Fin.ext (dev1_val c h1)
  have e2 : (⟨k0_dev2 c, k0_dev2_lt c h2⟩ : Dev nD) = up c := Fin.ext (dev2_val c h2)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e1]
  iapply (wp_bar_signal m ρ K c (dn c) true _ (by rw [yc_dn, hk]; decide)) $$ [$HR $HO $HtD S00 S01 S10 S11]
  · unfold barPay; rw [if_pos rfl, up_dn, yc_dn, hk]
    rw [show slotsLE ((2 : Fin 4) - 1) = [(0, 0), (0, 1), (1, 0), (1, 1)] from by decide]
    simp only [slotsEx]
    iframe
  iintro HO
  rw [e2]
  iapply (wp_bar_signal m ρ K c (up c) false _ (by rw [yc_up, hk]; decide)) $$ [$HR $HO $HtU S30 S31]
  · unfold barPay; rw [if_neg Bool.false_ne_true, dn_up, yc_up, hk]
    rw [show slotsGE ((2 : Fin 4) + 1) = [(3, 0), (3, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn2 (F := F) c hk)) $$ Hpay
  icases Hp with ⟨⟨D20, D21, D30, D31, -⟩, ⟨U00, U01, U10, U11, U20, U21, -⟩⟩
  iapply (wp_send_own m ρ K c _ true 2 0 _ ((dev_eq c 3 (k0_dev15_eq c)).trans hup.symm) hk) $$ [$HR $XT0 $U20 $HO $TS_T20 $TR_T20]
  iintro ⟨CS_T20, HO⟩
  iapply (wp_send_own m ρ K c _ false 2 0 _ ((dev_eq c 1 (k0_dev16_eq c)).trans hdn.symm) hk) $$ [$HR $XF0 $D20 $HO $TS_F20 $TR_F20]
  iintro ⟨CS_F20, HO⟩
  iapply (wp_send_own m ρ K c _ true 2 1 _ ((dev_eq c 3 (k0_dev17_eq c)).trans hup.symm) hk) $$ [$HR $XT1 $U21 $HO $TS_T21 $TR_T21]
  iintro ⟨CS_T21, HO⟩
  iapply (wp_send_own m ρ K c _ false 2 1 _ ((dev_eq c 1 (k0_dev18_eq c)).trans hdn.symm) hk) $$ [$HR $XF1 $D21 $HO $TS_F21 $TR_F21]
  iintro ⟨CS_F21, HO⟩
  iapply (wp_copy_own m ρ c 2 hk _ _) $$ [$HxR $Hout]; iintro ⟨HxR, Hout⟩
  iapply (wp_recv_wait m ρ K c hk true 1 0 [(true, 1, 0), (false, 3, 0), (true, 1, 1), (false, 3, 1), (true, 0, 0), (true, 0, 1)]) $$ [$HR $Hlev $CR_T10 $HO $AR_T10]
  iintro ⟨HO, F10, AR_T10⟩
  ihave Fs := (slot_shares m ρ c 1 0).1 $$ F10
  icases Fs with ⟨FT10, FF10, FR10⟩
  iapply (wp_send_fwd m ρ K c _ true 1 0 _ ((dev_eq c 3 (k0_dev19_eq c)).trans hup.symm) hk) $$ [$HR $FT10 $U10 $HO $TS_T10 $TR_T10]
  iintro ⟨CS_T10, HO⟩
  iapply (wp_copy_half m ρ c 1 0 fullShare.right.right _) $$ [$FR10 $Hout]; iintro ⟨FR10, Hout⟩
  iapply (wp_recv_wait m ρ K c hk false 3 0 [(false, 3, 0), (true, 1, 1), (false, 3, 1), (true, 0, 0), (true, 0, 1)]) $$ [$HR $Hlev $CR_F30 $HO $AR_F30]
  iintro ⟨HO, F30, AR_F30⟩
  ihave Fs := (slot_shares m ρ c 3 0).1 $$ F30
  icases Fs with ⟨FT30, FF30, FR30⟩
  iapply (wp_send_fwd m ρ K c _ false 3 0 _ ((dev_eq c 1 (k0_dev20_eq c)).trans hdn.symm) hk) $$ [$HR $FF30 $D30 $HO $TS_F30 $TR_F30]
  iintro ⟨CS_F30, HO⟩
  iapply (wp_copy_half m ρ c 3 0 fullShare.right.right _) $$ [$FR30 $Hout]; iintro ⟨FR30, Hout⟩
  iapply (wp_recv_wait m ρ K c hk true 1 1 [(true, 1, 1), (false, 3, 1), (true, 0, 0), (true, 0, 1)]) $$ [$HR $Hlev $CR_T11 $HO $AR_T11]
  iintro ⟨HO, F11, AR_T11⟩
  ihave Fs := (slot_shares m ρ c 1 1).1 $$ F11
  icases Fs with ⟨FT11, FF11, FR11⟩
  iapply (wp_send_fwd m ρ K c _ true 1 1 _ ((dev_eq c 3 (k0_dev21_eq c)).trans hup.symm) hk) $$ [$HR $FT11 $U11 $HO $TS_T11 $TR_T11]
  iintro ⟨CS_T11, HO⟩
  iapply (wp_copy_half m ρ c 1 1 fullShare.right.right _) $$ [$FR11 $Hout]; iintro ⟨FR11, Hout⟩
  iapply (wp_recv_wait m ρ K c hk false 3 1 [(false, 3, 1), (true, 0, 0), (true, 0, 1)]) $$ [$HR $Hlev $CR_F31 $HO $AR_F31]
  iintro ⟨HO, F31, AR_F31⟩
  ihave Fs := (slot_shares m ρ c 3 1).1 $$ F31
  icases Fs with ⟨FT31, FF31, FR31⟩
  iapply (wp_send_fwd m ρ K c _ false 3 1 _ ((dev_eq c 1 (k0_dev22_eq c)).trans hdn.symm) hk) $$ [$HR $FF31 $D31 $HO $TS_F31 $TR_F31]
  iintro ⟨CS_F31, HO⟩
  iapply (wp_copy_half m ρ c 3 1 fullShare.right.right _) $$ [$FR31 $Hout]; iintro ⟨FR31, Hout⟩
  iapply (wp_recv_wait m ρ K c hk true 0 0 [(true, 0, 0), (true, 0, 1)]) $$ [$HR $Hlev $CR_T00 $HO $AR_T00]
  iintro ⟨HO, F00, AR_T00⟩
  ihave Fs := (slot_shares m ρ c 0 0).1 $$ F00
  icases Fs with ⟨FT00, FF00, FR00⟩
  iapply (wp_send_fwd m ρ K c _ true 0 0 _ ((dev_eq c 3 (k0_dev23_eq c)).trans hup.symm) hk) $$ [$HR $FT00 $U00 $HO $TS_T00 $TR_T00]
  iintro ⟨CS_T00, HO⟩
  iapply (wp_copy_half m ρ c 0 0 fullShare.right.right _) $$ [$FR00 $Hout]; iintro ⟨FR00, Hout⟩
  iapply (wp_recv_wait m ρ K c hk true 0 1 [(true, 0, 1)]) $$ [$HR $Hlev $CR_T01 $HO $AR_T01]
  iintro ⟨HO, F01, AR_T01⟩
  ihave Fs := (slot_shares m ρ c 0 1).1 $$ F01
  icases Fs with ⟨FT01, FF01, FR01⟩
  iapply (wp_send_fwd m ρ K c _ true 0 1 _ ((dev_eq c 3 (k0_dev24_eq c)).trans hup.symm) hk) $$ [$HR $FT01 $U01 $HO $TS_T01 $TR_T01]
  iintro ⟨CS_T01, HO⟩
  iapply (wp_copy_half m ρ c 0 1 fullShare.right.right _) $$ [$FR01 $Hout]; iintro ⟨FR01, Hout⟩
  rw [show Ol (arriveOwes c []) = 0 from rfl]
  iapply (wp_send_wait m ρ K c hk true 2 0 (srcPts_own m ρ c 2 0 _ hk)) $$ [$HR $CS_T20 $HO $AS_T20]
  iintro ⟨HO, XT0, AS_T20⟩
  iapply (wp_send_wait m ρ K c hk false 2 0 (srcPts_own m ρ c 2 0 _ hk)) $$ [$HR $CS_F20 $HO $AS_F20]
  iintro ⟨HO, XF0, AS_F20⟩
  iapply (wp_send_wait m ρ K c hk true 2 1 (srcPts_own m ρ c 2 1 _ hk)) $$ [$HR $CS_T21 $HO $AS_T21]
  iintro ⟨HO, XT1, AS_T21⟩
  iapply (wp_send_wait m ρ K c hk false 2 1 (srcPts_own m ρ c 2 1 _ hk)) $$ [$HR $CS_F21 $HO $AS_F21]
  iintro ⟨HO, XF1, AS_F21⟩
  iapply (wp_send_wait m ρ K c hk true 1 0 (srcPts_fwd m ρ c hk 1 0 _)) $$ [$HR $CS_T10 $HO $AS_T10]
  iintro ⟨HO, FT10, AS_T10⟩
  iapply (wp_send_wait m ρ K c hk false 3 0 (srcPts_fwd m ρ c hk 3 0 _)) $$ [$HR $CS_F30 $HO $AS_F30]
  iintro ⟨HO, FF30, AS_F30⟩
  iapply (wp_send_wait m ρ K c hk true 1 1 (srcPts_fwd m ρ c hk 1 1 _)) $$ [$HR $CS_T11 $HO $AS_T11]
  iintro ⟨HO, FT11, AS_T11⟩
  iapply (wp_send_wait m ρ K c hk false 3 1 (srcPts_fwd m ρ c hk 3 1 _)) $$ [$HR $CS_F31 $HO $AS_F31]
  iintro ⟨HO, FF31, AS_F31⟩
  iapply (wp_send_wait m ρ K c hk true 0 0 (srcPts_fwd m ρ c hk 0 0 _)) $$ [$HR $CS_T00 $HO $AS_T00]
  iintro ⟨HO, FT00, AS_T00⟩
  iapply (wp_send_wait m ρ K c hk true 0 1 (srcPts_fwd m ρ c hk 0 1 _)) $$ [$HR $CS_T01 $HO $AS_T01]
  iintro ⟨HO, FT01, AS_T01⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk false true 2) $$ [$HR $AR_T20 $AR_T21] with ⟨AR_T20, AR_T21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  imod (close_unused2 m ρ K c hk false false 2) $$ [$HR $AR_F20 $AR_F21] with ⟨AR_F20, AR_F21⟩
  ihave Hx := (x_shares m ρ c).2 $$ [$XT0 $XT1 $XF0 $XF1 $HxR]
  ihave F10 := (slot_rejoin m ρ c 1 0) $$ [$FT10 $FF10 $FR10]
  ihave F30 := (slot_rejoin m ρ c 3 0) $$ [$FT30 $FF30 $FR30]
  ihave F11 := (slot_rejoin m ρ c 1 1) $$ [$FT11 $FF11 $FR11]
  ihave F31 := (slot_rejoin m ρ c 3 1) $$ [$FT31 $FF31 $FR31]
  ihave F00 := (slot_rejoin m ρ c 0 0) $$ [$FT00 $FF00 $FR00]
  ihave F01 := (slot_rejoin m ρ c 0 1) $$ [$FT01 $FF01 $FR01]
  ihave Hc := (comm_join (F := F) c) $$ [$F00 $F01 $F10 $F11 $S20 $S21 $F30 $F31]
  ihave Hout := (outOk_all m ρ c _ (by decide +revert)) $$ Hout
  rw [wp_ret]; imodintro
  iapply Hk
  unfold casePost
  rw [bigSep_J]
  iframe
  iexists _; iexact HO

/-- info: 'Cert.Kernel.Line.case2' depends on axioms: [propext, Classical.choice, Quot.sound] -/
#guard_msgs in #print axioms case2

end Cert.Kernel.Line
end
-- ==== Proof.Kernel.Case3.lean ====
/- The body at the last place of a line. -/
import proofs.«900692_g7700000000000693_dist_ag_v7x_xyz2x4x4_y_m256_n256_f32_1_alg».proof.Proof.Kernel.BodySpec
import proofs.«900692_g7700000000000693_dist_ag_v7x_xyz2x4x4_y_m256_n256_f32_1_alg».proof.Proof.Kernel.Steps
import proofs.«900692_g7700000000000693_dist_ag_v7x_xyz2x4x4_y_m256_n256_f32_1_alg».proof.Proof.Kernel.Unroll

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option J → ℕ)

omit [FloatOps F] in
theorem barIn3 (c : Dev nD) (hk : yc c = 3) :
    bigSep (barDuties (yc c)) (fun d => barPay (F := F) c d) = iprop((∃ f, slotPts (nbr c false) 3 0 fullShare f) ∗ (∃ f, slotPts (nbr c false) 3 1 fullShare f) ∗ emp) := by
  rw [hk, show barDuties (3 : Fin 4) = {false} from by decide, bigSep_singleton]
  unfold barPay; rw [if_neg Bool.false_ne_true, hk, show slotsGE (3 : Fin 4) = [(3, 0), (3, 1)] from by decide]
  simp only [slotsEx] <;> rfl

set_option maxHeartbeats 800000 in
/-- The last place of a line: one neighbour, below; its block goes down, the six other halves come up. -/
theorem case3 (c : Dev nD) (hk : yc c = 3) : CaseSpec m ρ K c := by
  intro W f0 g1 Kt
  have h1 : k0_cond1 c = 1#1 := by rw [cond1_iff, hk]; decide
  have h2 : ¬ k0_cond2 c = 1#1 := by rw [cond2_iff, hk]; decide
  have h3 : ¬ k0_cond3 c = 1#1 := by rw [cond3_iff, hk]; decide
  have h4 : ¬ k0_cond4 c = 1#1 := by rw [cond4_iff, hk]; decide
  have h5 : ¬ k0_cond5 c = 1#1 := by rw [cond5_iff, hk]; decide
  have h6 : k0_cond6 c = 1#1 := by rw [cond6_iff, hk]
  simp only [cc0_body_eq_skeleton]; unfold cc0_body_skel
  simp only [k0_part33_eq_skeleton]; unfold k0_part33_skel
  simp only [semSignalWord, semWaitWord, Prog.lift, Prog.bind_op, Prog.bind_ret, Prog.pure_eq_ret, wp_deviceId]
  simp only [dif_pos h1, dif_neg h2, dif_neg h3, dif_neg h4, dif_neg h5, dif_pos h6, Prog.bind_op, Prog.bind_ret, Prog.pure_eq_ret]
  simp only [k0_part28_eq_skeleton, k0_part29_eq_skeleton, k0_part30_eq_skeleton, k0_part31_eq_skeleton, k0_part32_eq_skeleton]
  unfold k0_part28_skel k0_part29_skel k0_part30_skel k0_part31_skel k0_part32_skel
  simp only [Prog.lift, Prog.bind_assoc, Prog.bind_op, Prog.bind_ret, Prog.pure_eq_ret]
  unfold casePre positions payToks creds
  iintro ⟨⟨#HR, ⟨HatB, HatJ⟩, ⟨HtD, HtU, HtJ⟩, ⟨HcB, HcJ⟩, #Hlev, Hc, HO, Hx, Hout⟩, Hk⟩
  rw [show O₀ c = Ol ((barCell (dn c), 1) :: arriveOwes c [(false, 3, 0), (false, 3, 1)]) from by unfold O₀ oweList barOwes; rw [hk]; rfl]
  have hdn : dn c = devAt c 2 := by unfold dn; rw [hk]; rfl
  have e0 : (⟨k0_dev1 c, k0_dev1_lt c h1⟩ : Dev nD) = dn c := Fin.ext (dev1_val c h1)
  ihave Hs := (comm_split_ex (F := F) c f0) $$ Hc
  icases Hs with ⟨S00, S01, S10, S11, S20, S21, S30, S31⟩
  ihave Hat := (Entails.of_eq (bigSep_J _)) $$ HatJ
  icases Hat with ⟨⟨⟨AS_T00, AS_T01, AS_T10, AS_T11, AS_T20, AS_T21, AS_T30, AS_T31⟩, ⟨AS_F00, AS_F01, AS_F10, AS_F11, AS_F20, AS_F21, AS_F30, AS_F31⟩⟩, ⟨⟨AR_T00, AR_T01, AR_T10, AR_T11, AR_T20, AR_T21, AR_T30, AR_T31⟩, ⟨AR_F00, AR_F01, AR_F10, AR_F11, AR_F20, AR_F21, AR_F30, AR_F31⟩⟩⟩
  ihave Ht := (Entails.of_eq (bigSep_dirs _)) $$ HtJ
  icases Ht with ⟨⟨⟨TS_T00, TR_T00⟩, ⟨TS_T01, TR_T01⟩, ⟨TS_T10, TR_T10⟩, ⟨TS_T11, TR_T11⟩, ⟨TS_T20, TR_T20⟩, ⟨TS_T21, TR_T21⟩, ⟨TS_T30, TR_T30⟩, ⟨TS_T31, TR_T31⟩⟩, ⟨⟨TS_F00, TR_F00⟩, ⟨TS_F01, TR_F01⟩, ⟨TS_F10, TR_F10⟩, ⟨TS_F11, TR_F11⟩, ⟨TS_F20, TR_F20⟩, ⟨TS_F21, TR_F21⟩, ⟨TS_F30, TR_F30⟩, ⟨TS_F31, TR_F31⟩⟩⟩
  ihave Hcr := (Entails.of_eq (bigSep_dirs _)) $$ HcJ
  icases Hcr with ⟨⟨CR_T00, CR_T01, CR_T10, CR_T11, CR_T20, CR_T21, CR_T30, CR_T31⟩, ⟨CR_F00, CR_F01, CR_F10, CR_F11, CR_F20, CR_F21, CR_F30, CR_F31⟩⟩
  ihave Hx' := (x_shares m ρ c).1 $$ Hx
  icases Hx' with ⟨⟨XT0, XT1⟩, ⟨XF0, XF1⟩, HxR⟩
  ihave Hout := (outOk_empty m ρ c g1) $$ Hout
  rw [e0]
  iapply (wp_bar_signal m ρ K c (dn c) true _ (by rw [yc_dn, hk]; decide)) $$ [$HR $HO $HtD S00 S01 S10 S11 S20 S21]
  · unfold barPay; rw [if_pos rfl, up_dn, yc_dn, hk]
    rw [show slotsLE ((3 : Fin 4) - 1) = [(0, 0), (0, 1), (1, 0), (1, 1), (2, 0), (2, 1)] from by decide]
    simp only [slotsEx]
    iframe
  iintro HO
  iapply (wp_bar_wait m ρ K c _ (by rw [amt1_eq, hk]; decide)) $$ [$HR $Hlev $HcB $HO $HatB]
  iintro ⟨HO, Hpay⟩
  ihave Hp := (Entails.of_eq (barIn3 (F := F) c hk)) $$ Hpay
  icases Hp with ⟨U0, U1, -⟩
  iapply (wp_send_own m ρ K c _ false 3 0 _ ((dev_eq c 2 (k0_dev25_eq c)).trans hdn.symm) hk) $$ [$HR $XF0 $U0 $HO $TS_F30 $TR_F30]
  iintro ⟨CS0, HO⟩
  iapply (wp_send_own m ρ K c _ false 3 1 _ ((dev_eq c 2 (k0_dev26_eq c)).trans hdn.symm) hk) $$ [$HR $XF1 $U1 $HO $TS_F31 $TR_F31]
  iintro ⟨CS1, HO⟩
  iapply (wp_copy_own m ρ c 3 hk _ _) $$ [$HxR $Hout]; iintro ⟨HxR, Hout⟩
  iapply (wp_recv_wait m ρ K c hk true 2 0 []) $$ [$HR $Hlev $CR_T20 $HO $AR_T20]
  iintro ⟨HO, F20, AR_T20⟩
  iapply (wp_copy_half m ρ c 2 0 fullShare _) $$ [$F20 $Hout]; iintro ⟨F20, Hout⟩
  iapply (wp_recv_wait m ρ K c hk true 2 1 []) $$ [$HR $Hlev $CR_T21 $HO $AR_T21]
  iintro ⟨HO, F21, AR_T21⟩
  iapply (wp_copy_half m ρ c 2 1 fullShare _) $$ [$F21 $Hout]; iintro ⟨F21, Hout⟩
  iapply (wp_recv_wait m ρ K c hk true 1 0 []) $$ [$HR $Hlev $CR_T10 $HO $AR_T10]
  iintro ⟨HO, F10, AR_T10⟩
  iapply (wp_copy_half m ρ c 1 0 fullShare _) $$ [$F10 $Hout]; iintro ⟨F10, Hout⟩
  iapply (wp_recv_wait m ρ K c hk true 1 1 []) $$ [$HR $Hlev $CR_T11 $HO $AR_T11]
  iintro ⟨HO, F11, AR_T11⟩
  iapply (wp_copy_half m ρ c 1 1 fullShare _) $$ [$F11 $Hout]; iintro ⟨F11, Hout⟩
  iapply (wp_recv_wait m ρ K c hk true 0 0 []) $$ [$HR $Hlev $CR_T00 $HO $AR_T00]
  iintro ⟨HO, F00, AR_T00⟩
  iapply (wp_copy_half m ρ c 0 0 fullShare _) $$ [$F00 $Hout]; iintro ⟨F00, Hout⟩
  iapply (wp_recv_wait m ρ K c hk true 0 1 []) $$ [$HR $Hlev $CR_T01 $HO $AR_T01]
  iintro ⟨HO, F01, AR_T01⟩
  iapply (wp_copy_half m ρ c 0 1 fullShare _) $$ [$F01 $Hout]; iintro ⟨F01, Hout⟩
  rw [show Ol (arriveOwes c []) = 0 from rfl]
  iapply (wp_send_wait m ρ K c hk false 3 0 (srcPts_own m ρ c 3 0 _ hk)) $$ [$HR $CS0 $HO $AS_F30]
  iintro ⟨HO, XF0, AS_F30⟩
  iapply (wp_send_wait m ρ K c hk false 3 1 (srcPts_own m ρ c 3 1 _ hk)) $$ [$HR $CS1 $HO $AS_F31]
  iintro ⟨HO, XF1, AS_F31⟩
  imod (close_unused2 m ρ K c hk true true 0) $$ [$HR $AS_T00 $AS_T01] with ⟨AS_T00, AS_T01⟩
  imod (close_unused2 m ρ K c hk true true 1) $$ [$HR $AS_T10 $AS_T11] with ⟨AS_T10, AS_T11⟩
  imod (close_unused2 m ρ K c hk true true 2) $$ [$HR $AS_T20 $AS_T21] with ⟨AS_T20, AS_T21⟩
  imod (close_unused2 m ρ K c hk true true 3) $$ [$HR $AS_T30 $AS_T31] with ⟨AS_T30, AS_T31⟩
  imod (close_unused2 m ρ K c hk true false 0) $$ [$HR $AS_F00 $AS_F01] with ⟨AS_F00, AS_F01⟩
  imod (close_unused2 m ρ K c hk true false 1) $$ [$HR $AS_F10 $AS_F11] with ⟨AS_F10, AS_F11⟩
  imod (close_unused2 m ρ K c hk true false 2) $$ [$HR $AS_F20 $AS_F21] with ⟨AS_F20, AS_F21⟩
  imod (close_unused2 m ρ K c hk false true 3) $$ [$HR $AR_T30 $AR_T31] with ⟨AR_T30, AR_T31⟩
  imod (close_unused2 m ρ K c hk false false 0) $$ [$HR $AR_F00 $AR_F01] with ⟨AR_F00, AR_F01⟩
  imod (close_unused2 m ρ K c hk false false 1) $$ [$HR $AR_F10 $AR_F11] with ⟨AR_F10, AR_F11⟩
  imod (close_unused2 m ρ K c hk false false 2) $$ [$HR $AR_F20 $AR_F21] with ⟨AR_F20, AR_F21⟩
  imod (close_unused2 m ρ K c hk false false 3) $$ [$HR $AR_F30 $AR_F31] with ⟨AR_F30, AR_F31⟩
  ihave Hx := (x_shares m ρ c).2 $$ [$XT0 $XT1 $XF0 $XF1 $HxR]
  ihave F20 := (slotFull_ex m ρ c 2 0) $$ F20
  ihave F21 := (slotFull_ex m ρ c 2 1) $$ F21
  ihave F10 := (slotFull_ex m ρ c 1 0) $$ F10
  ihave F11 := (slotFull_ex m ρ c 1 1) $$ F11
  ihave F00 := (slotFull_ex m ρ c 0 0) $$ F00
  ihave F01 := (slotFull_ex m ρ c 0 1) $$ F01
  ihave Hc := (comm_join (F := F) c) $$ [$F00 $F01 $F10 $F11 $F20 $F21 $S30 $S31]
  ihave Hout := (outOk_all m ρ c _ (by decide +revert)) $$ Hout
  rw [wp_ret]; imodintro
  iapply Hk
  unfold casePost
  rw [bigSep_J]
  iframe
  iexists _; iexact HO

/-- info: 'Cert.Kernel.Line.case3' depends on axioms: [propext, Classical.choice, Quot.sound] -/
#guard_msgs in #print axioms case3

end Cert.Kernel.Line
end
-- ==== Proof.Kernel.Body.lean ====
/- The four places' proofs as the launch theorem's body obligation. -/
import proofs.«900692_g7700000000000693_dist_ag_v7x_xyz2x4x4_y_m256_n256_f32_1_alg».proof.Proof.Kernel.BodySpec
import proofs.«900692_g7700000000000693_dist_ag_v7x_xyz2x4x4_y_m256_n256_f32_1_alg».proof.Proof.Gen.Kernel.Points

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gathered m ρ c))

set_option maxRecDepth 4000 in
theorem body_obligation_of (hc : ∀ (K : Dev nD × Option J → ℕ) (c : Dev nD), CaseSpec (F := F) m ρ K c) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start ghost
  iintro ⟨⟨⟨⟨%K, HR, Hpos, Htok⟩, Hcred, Hlev⟩, ⟨%f0, Hcomm⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (hc K c W f0 g1 (fun _ => bodyPost m ρ c))
  isplitl
  · unfold casePre; iframe
  · unfold casePost bodyPost Φ₁ Dat.owesAt Pipeline.owesWithin
    rw [show (dats m ρ 0 c).owed t₀.succ = 0 from rfl]
    iintro ⟨Hcomm, Hsem, ⟨%W', HO⟩, Hx, Hout⟩
    iframe Hcomm Hsem
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Cert.Kernel.Line

end
-- ==== Proof.Kernel.Launch.lean ====
/- The launch: ghost state minted and dealt to the devices, each body run from its share, the semaphores back at zero. -/
import proofs.«900692_g7700000000000693_dist_ag_v7x_xyz2x4x4_y_m256_n256_f32_1_alg».proof.Proof.Kernel.Ghost

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osemJ :=
  ⟨by decide, fun a b h => dsem_injective (SemLoc.dma.inj h), by decide⟩

theorem share_eq (c : Dev nD) (w : Fin cfg0.W) : (dats m ρ 0 c).share w = fullShare := by unfold Dat.share; split <;> rfl

theorem kcell_injective : Function.Injective (kcell : Dev nD × Option J → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none =>
    cases k' with
    | none => rfl
    | some j' => exact absurd h2 (fun h' => by cases h')
  | some j =>
    cases k' with
    | none => exact absurd h2 (fun h' => by cases h')
    | some j' => rw [dsem_injective (SemLoc.dma.inj h2)]

def lineCells : Finset (GSem nD τ sig) := Finset.univ.map ⟨kcell, kcell_injective⟩

abbrev TI : Type := Bool ⊕ J

abbrev tokOf (ci : Dev nD × TI) : GSem nD τ sig × ℕ × Bool := match ci.2 with
  | .inl true => (barCell (dn ci.1), 0, true)
  | .inl false => (barCell (up ci.1), 0, false)
  | .inr j => (dcell (cond j.1 ci.1 (nbr ci.1 j.2.1)) j, 0, false)

theorem up_injective : Function.Injective (up : Dev nD → Dev nD) := fun a b h => by rw [← dn_up a, ← dn_up b, h]
theorem dn_injective : Function.Injective (dn : Dev nD → Dev nD) := fun a b h => by rw [← up_dn a, ← up_dn b, h]

theorem tokOf_injective : Function.Injective (tokOf : Dev nD × TI → GSem nD τ sig × ℕ × Bool) := by
  rintro ⟨c, i⟩ ⟨c', i'⟩ h
  have hd := congrArg (fun x : GSem nD τ sig × ℕ × Bool => x.1.1.1) h
  have hs := congrArg (fun x : GSem nD τ sig × ℕ × Bool => x.1.2) h
  have hb := congrArg (fun x : GSem nD τ sig × ℕ × Bool => x.2.2) h
  rcases i with (_ | _) | j <;> rcases i' with (_ | _) | j'
  · obtain rfl : c = c' := up_injective hd
    rfl
  · exact absurd (show false = true from hb) (by decide)
  · exact absurd hs (fun h' => by cases h')
  · exact absurd (show true = false from hb) (by decide)
  · obtain rfl : c = c' := dn_injective hd
    rfl
  · exact absurd hs (fun h' => by cases h')
  · exact absurd hs (fun h' => by cases h')
  · exact absurd hs (fun h' => by cases h')
  · have hj : j = j' := dsem_injective (SemLoc.dma.inj hs)
    subst hj
    obtain ⟨a, dir, o, hf⟩ := j
    have hc : c = c' := by
      cases a
      · cases dir
        · exact dn_injective hd
        · exact up_injective hd
      · exact hd
    rw [hc]

def lineToks : Finset (GSem nD τ sig × ℕ × Bool) := Finset.univ.map ⟨tokOf, tokOf_injective⟩

def u₀ : UU :=
  (initOf (Pipeline.cells cfgs cellOf_inj) (Pipeline.launchToks cfgs cellOf_inj), initOf lineCells lineToks)

def G (c : Dev nD) : sProp 𝕄 :=
  iprop((bigSep Finset.univ fun k : Option J => roundState ER (lineRd m ρ) (kcell (c, k)) 0)
    ∗ (bigSep Finset.univ fun k : Option J => iprop(atPos ER (kcell (c, k)) 0 ∅ 0 ∗ reached ER (kcell (c, k)) 0)) ∗ payToks c)

def G' (c : Dev nD) : sProp 𝕄 := iprop(∃ K, ghost m ρ K c)

omit [FloatOps F] in
theorem bigSep_bool' (Φ : Bool → sProp 𝕄) : bigSep Finset.univ Φ = iprop(Φ true ∗ Φ false) :=
  bigSep_univ_eq_bigSepL [true, false] (by decide) (by decide) Φ

omit [FloatOps F] in
theorem bigSep_sum' {A B : Type} [Fintype A] [Fintype B] (Φ : A ⊕ B → sProp 𝕄) :
    bigSep Finset.univ Φ = iprop((bigSep Finset.univ fun a : A => Φ (.inl a)) ∗ bigSep Finset.univ fun b : B => Φ (.inr b)) :=
  bigSep_univ_sum Φ

omit [FloatOps F] in
theorem bigSep_option' {A : Type} [Fintype A] (Φ : Option A → sProp 𝕄) :
    bigSep Finset.univ Φ = iprop((bigSep Finset.univ fun a : A => Φ (some a)) ∗ Φ none) := by
  rw [bigSep_univ_equiv (Equiv.optionEquivSumPUnit.{0, 0} A).symm Φ, bigSep_univ_sum, bigSep_univ_of_subsingleton (PUnit.unit : PUnit.{1})]
  rfl

omit [FloatOps F] in
theorem minted_eq : bigSep lineToks (fun x => (dutyTok ER x.1 x.2.1 x.2.2 : sProp 𝕄))
    = bigSep Finset.univ fun c : Dev nD => bigSep Finset.univ fun i : TI =>
        dutyTok ER (tokOf (c, i)).1 (tokOf (c, i)).2.1 (tokOf (c, i)).2.2 := by
  unfold lineToks; rw [bigSep_map, bigSep_univ_prod]; rfl

omit [FloatOps F] in
theorem payToks_of_minted (c : Dev nD) :
    (bigSep Finset.univ fun i : TI => (dutyTok ER (tokOf (c, i)).1 (tokOf (c, i)).2.1 (tokOf (c, i)).2.2 : sProp 𝕄)) ⊢ payToks c := by
  rw [bigSep_sum', bigSep_bool', bigSep_univ_prod, bigSep_bool', ← bigSep_sep']
  unfold payToks
  iintro ⟨⟨H1, H2⟩, H3⟩
  iframe H1 H2
  iexact H3

omit [FloatOps F] in
theorem lineToks_deal :
    bigSep lineToks (fun x => (dutyTok ER x.1 x.2.1 x.2.2 : sProp 𝕄)) ⊢ bigSep Finset.univ fun c : Dev nD => payToks c := by
  rw [minted_eq]
  exact bigSep_mono fun c _ => payToks_of_minted c

omit [FloatOps F] in
theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Option J => Φ (kcell (c, k)) := by
    unfold lineCells; rw [bigSep_map, bigSep_univ_prod]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (lineToks_deal (F := F)) $$ Htok
  unfold G; simp only [bigSep_sep']
  iframe

omit [FloatOps F] in
theorem ownSems0_eq (c : Dev nD) : (Pipeline.ownSems0 (Ix := Unit) (Name := ℕ) (U := UU) (Lvl := ℕ) (Val := Elt F) (τ := τ) osemJ c : sProp 𝕄)
    = bigSep Finset.univ fun j : J => semVal (dcell c j) 0 := rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osemJ c ∗ unscopedSems0 c)
      ⊢ (bigSep Finset.univ fun k : Option J => semVal (kcell (c, k)) 0 : sProp 𝕄) := by
  rw [ownSems0_eq, unscopedSems0_eq, bigSep_option']

omit [FloatOps F] in
theorem core_alloc (c : Dev nD) :
    iprop(Pipeline.ownSems0 (Ix := Unit) (Name := ℕ) (U := UU) (Lvl := ℕ) (Val := Elt F) (τ := τ) osemJ c ∗ unscopedSems0 c ∗ G m ρ c)
      ⊢ |={Set.univ}=> iprop((bigSep Finset.univ fun k : Option J => iprop(∃ κ : ℕ, cellInv ER (lineRd m ρ) κ (kcell (c, k))))
          ∗ (bigSep Finset.univ fun k : Option J => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : Option J => semVal (kcell (c, k)) 0) ∗ bigSep Finset.univ fun k : Option J => roundState ER (lineRd m ρ) (kcell (c, k)) 0)
      ⊢ (|={Set.univ}=> bigSep Finset.univ fun k : Option J => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  iframe

omit [FloatOps F] in
theorem ghost_intro (K : Dev nD × Option J → ℕ) (c : Dev nD) : iprop(records m ρ K ∗ positions c ∗ payToks c) ⊢ G' m ρ c := by
  unfold G' ghost
  iintro H
  iexists K
  iexact H

omit [FloatOps F] in
theorem positions_intro (c : Dev nD) :
    (bigSep Finset.univ fun k : Option J => (atPos ER (kcell (c, k)) 0 ∅ 0 : sProp 𝕄)) ⊢ positions c := by
  rw [bigSep_option']
  unfold positions
  iintro ⟨HJ, HB⟩
  iframe

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Option J => (atPos ER (kcell (c, k)) 0 ∅ 0 : sProp 𝕄)) ∗ payToks c) ⊢ iprop(positions c ∗ payToks c) := by
  iintro ⟨Hat, Htok⟩
  isplitl [Hat]
  · iapply (positions_intro (F := F) c); iexact Hat
  iexact Htok

omit [FloatOps F] in
theorem regroup :
    (bigSep Finset.univ fun c : Dev nD => iprop((bigSep Finset.univ fun k : Option J => iprop(∃ κ : ℕ, cellInv ER (lineRd m ρ) κ (kcell (c, k))))
          ∗ (bigSep Finset.univ fun k : Option J => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Option J => iprop(∃ κ : ℕ, cellInv ER (lineRd m ρ) κ (kcell ck))),
    bigSep_congr (s := Finset.univ) (fun (c : Dev nD) _ => bigSep_sep' Finset.univ (fun k : Option J => (atPos ER (kcell (c, k)) 0 ∅ 0 : sProp 𝕄)) (fun k => reached ER (kcell (c, k)) 0)),
    bigSep_sep', ← bigSep_univ_prod (fun ck : Dev nD × Option J => (reached ER (kcell ck) 0 : sProp 𝕄))]
  iintro ⟨HI, ⟨Hat, #HR⟩, Htok⟩
  ihave HK := (BI.bigSep_exists_pi Finset.univ (fun (ck : Dev nD × Option J) (κ : ℕ) => (cellInv ER (lineRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Option J => (atPos ER (kcell (c, k)) 0 ∅ 0 : sProp 𝕄)) payToks).symm).trans
      (bigSep_mono fun c _ => linear_intro c))
    iframe

omit [FloatOps F] in
theorem glob : (bigSep Finset.univ fun c => iprop(Pipeline.ownSems0 (Ix := Unit) (Name := ℕ) (U := UU) (Lvl := ℕ) (Val := Elt F) (τ := τ) osemJ c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
theorem start_intro (hcred : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (hcred c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  iframe

theorem phi1_exit (c : Dev nD) :
    (dats m ρ 0 c).Φ (Fin.last cfg0.N) ⊢ iprop(emp ∗ Pipeline.ownSems0 osemJ c ∗ Pipeline.scopedRest cfg0.spec c) := by
  rw [show (dats m ρ 0 c).Φ (Fin.last cfg0.N) = Φ₁ c from rfl, scopedRest0_eq, ownSems0_eq]
  unfold Φ₁
  iintro ⟨Hr, Hz⟩
  isplitr; · iempintro
  iframe

set_option maxRecDepth 8000 in
theorem run_main_of
    (hb : ∀ c : Dev nD, BodyObligation (dats (F := F) m ρ 0 c) (defs₀ (F := F)) 𝒱₀ () Set.univ)
    (hcred : ∀ c : Dev nD, (Pipeline.launchCred O₀ c : sProp 𝕄) ⊢ creds c)
    (hwaits : ∀ c : Dev nD, (levAts L lv : sProp 𝕄) ⊢ Pipeline.cellsWaits cfgs (dats m ρ) () 0 c) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := hwaits)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ hcred) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Line.run_main_of' depends on axioms: [propext, Classical.choice, Quot.sound] -/
#guard_msgs in #print axioms run_main_of

end Cert.Kernel.Line

end
-- ==== Proof.Kernel.Account.lean ====
/- Levels and launch credit: each device is dealt what the others owe it; the final arrays read off the run. -/
import proofs.«900692_g7700000000000693_dist_ag_v7x_xyz2x4x4_y_m256_n256_f32_1_alg».proof.Proof.Kernel.Ghost
import proofs.«900692_g7700000000000693_dist_ag_v7x_xyz2x4x4_y_m256_n256_f32_1_alg».proof.Proof.Gen.Kernel.Points

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem lv_low (c : Dev nD) (q : DmaSem sig) (hq : semQ q = 0) : lv ((c : Thread nD τ), .dma q) () = 0 := by
  show (if semQ q = 1 then _ else if semQ q = 3 then _ else 0) = 0
  rw [hq, if_neg (by decide), if_neg (by decide)]

theorem oweList_above (c : Dev nD) : ∀ x ∈ oweList c, x.1.1.2 = .tc ∧ 0 < lv x.1 () := by
  intro x hx
  unfold oweList at hx
  rcases List.mem_append.mp hx with hx | hx
  · unfold barOwes at hx
    rcases List.mem_append.mp hx with hx | hx
    · split at hx
      · rw [List.mem_singleton.mp hx]; exact ⟨rfl, by rw [lv_bar]; exact Nat.one_pos⟩
      · exact absurd hx (List.not_mem_nil)
    · split at hx
      · rw [List.mem_singleton.mp hx]; exact ⟨rfl, by rw [lv_bar]; exact Nat.one_pos⟩
      · exact absurd hx (List.not_mem_nil)
  · unfold arriveOwes at hx
    obtain ⟨p, -, rfl⟩ := List.mem_map.mp hx
    exact ⟨rfl, by rw [lv_recv]; omega⟩

omit [FloatOps F] in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · show _ ⊢ MayWait _ _ () (Ol (oweList c))
      refine mayWait_list c _ (oweList c) fun x hx => ⟨(oweList_above c x hx).1, ?_⟩
      rw [lv_low c _ (by fin_cases w <;> fin_cases s <;> decide)]
      exact (oweList_above c x hx).2
    · show _ ⊢ MayWait _ _ () 0
      rw [MayWait_zero]; iintro -; iempintro

omit [FloatOps F] in
theorem Ol_append (l₁ l₂ : List (GSem nD τ sig × ℕ)) : Ol (l₁ ++ l₂) = Ol l₁ + Ol l₂ := by
  unfold Ol; rw [List.map_append, List.sum_append]

theorem Ol_apply (l : List (GSem nD τ sig × ℕ)) (g : GSem nD τ sig) :
    Ol l g () = (l.map fun x => if g = x.1 then x.2 else 0).sum := by
  induction l with
  | nil => rfl
  | cons x l ih =>
    rw [Ol_cons, Pi.add_apply, Finsupp.add_apply, ih, tallyAt_apply, List.map_cons, List.sum_cons, Nat.add_comm]
    congr 1
    by_cases h : g = x.1
    · rw [if_pos ⟨h, rfl⟩, if_pos h]
    · rw [if_neg (fun h' => h h'.1), if_neg h]

theorem Ol_opt (P : Prop) [Decidable P] (g' g : GSem nD τ sig) (n : ℕ) :
    Ol (if P then [(g', n)] else []) g () = if P ∧ g = g' then n else 0 := by
  by_cases h : P
  · rw [if_pos h, Ol_cons, Ol_nil, zero_add, tallyAt_apply]
    by_cases h' : g = g'
    · rw [if_pos ⟨h', rfl⟩, if_pos ⟨h, h'⟩]
    · rw [if_neg (fun x => h' x.1), if_neg (fun x => h' x.2)]
  · rw [if_neg h, if_neg (fun x => h x.1)]; rfl

theorem sum_map_ite {α : Type} (l : List α) (P : α → Prop) [DecidablePred P] (n : ℕ) :
    (l.map fun p => if P p then n else 0).sum = n * (l.map fun p => if P p then 1 else 0).sum := by
  induction l with
  | nil => rfl
  | cons x l ih =>
    rw [List.map_cons, List.sum_cons, List.map_cons, List.sum_cons, ih, Nat.mul_add]
    congr 1
    by_cases h : P x
    · rw [if_pos h, if_pos h, Nat.mul_one]
    · rw [if_neg h, if_neg h, Nat.mul_zero]

theorem bar_eq_iff {a b : Dev nD} : barCell a = barCell b ↔ a = b :=
  ⟨fun h => congrArg (fun g : GSem nD τ sig => g.1.1) h, fun h => h ▸ rfl⟩

theorem recv_eq_iff {a b : Dev nD} {p q : Bool × Fin 4 × Fin 2} :
    recvCell a p.1 p.2.1 p.2.2 = recvCell b q.1 q.2.1 q.2.2 ↔ a = b ∧ p = q := by
  constructor
  · intro h
    refine ⟨congrArg (fun g : GSem nD τ sig => g.1.1) h, ?_⟩
    have h2 : dsem (false, p) = dsem (false, q) := SemLoc.dma.inj (congrArg Prod.snd h)
    exact (Prod.mk.inj (dsem_injective h2)).2
  · rintro ⟨rfl, rfl⟩; rfl

theorem recv_ne_bar (a b : Dev nD) (p : Bool × Fin 4 × Fin 2) : recvCell a p.1 p.2.1 p.2.2 ≠ barCell b := fun h => by
  have h2 : (SemLoc.dma (semAt (recvA p.1) p.2.1 p.2.2) : SemLoc sig) = .reg barS := congrArg Prod.snd h
  cases h2

theorem owed_bar (d c : Dev nD) :
    O₀ d (barCell c) () = (if 0 < (yc d).val ∧ c = dn d then 1 else 0) + (if (yc d).val < 3 ∧ c = up d then 1 else 0) := by
  unfold O₀ oweList
  rw [Ol_append, Pi.add_apply, Finsupp.add_apply]
  have h0 : Ol (arriveOwes d (sendOrder (yc d))) (barCell c) () = 0 := by
    rw [Ol_apply]; unfold arriveOwes; rw [List.map_map]
    refine List.sum_eq_zero fun x hx => ?_
    obtain ⟨p, -, rfl⟩ := List.mem_map.mp hx
    exact if_neg fun h => recv_ne_bar _ _ _ h.symm
  rw [h0, Nat.add_zero]; unfold barOwes
  rw [Ol_append, Pi.add_apply, Finsupp.add_apply, Ol_opt, Ol_opt]
  simp only [bar_eq_iff]

theorem owed_recv (d c : Dev nD) (q : Bool × Fin 4 × Fin 2) :
    O₀ d (recvCell c q.1 q.2.1 q.2.2) ()
      = N * ((sendOrder (yc d)).map fun p => if c = nbr d p.1 ∧ q = p then 1 else 0).sum := by
  unfold O₀ oweList
  rw [Ol_append, Pi.add_apply, Finsupp.add_apply]
  have h0 : Ol (barOwes d) (recvCell c q.1 q.2.1 q.2.2) () = 0 := by
    unfold barOwes
    rw [Ol_append, Pi.add_apply, Finsupp.add_apply, Ol_opt, Ol_opt, if_neg (fun h => recv_ne_bar _ _ _ h.2),
      if_neg (fun h => recv_ne_bar _ _ _ h.2)]
  rw [h0, Nat.zero_add, Ol_apply]; unfold arriveOwes
  rw [List.map_map, ← sum_map_ite]
  refine congrArg List.sum (List.map_congr_left fun p _ => ?_)
  exact if_congr recv_eq_iff rfl rfl

theorem sum_bar (c : Dev nD) :
    (∑ d : Dev nD, ((if 0 < (yc d).val ∧ c = dn d then 1 else 0) + (if (yc d).val < 3 ∧ c = up d then 1 else 0)))
      = (barDuties (yc c)).card := by
  revert c; decide +kernel

theorem sum_recv (c : Dev nD) (q : Bool × Fin 4 × Fin 2) :
    (∑ d : Dev nD, ((sendOrder (yc d)).map fun p => if c = nbr d p.1 ∧ q = p then 1 else 0).sum)
      = if recvs (yc c) q.1 q.2.1 = true then 1 else 0 := by
  revert c q; decide +kernel

theorem launch_bar (c : Dev nD) :
    tallyOn (barCell c) (launchCredit (Pipeline.owing O₀) 0 (barCell c))
      = (tallyAt (barCell c) () (barDuties (yc c)).card : CellTallies nD τ sig Unit) := by
  unfold tallyAt; refine congrArg _ (Finsupp.ext fun u => ?_); cases u
  rw [Pipeline.launchCredit_owing, Finsupp.single_eq_same, Finset.sum_congr rfl fun d _ => owed_bar d c]
  exact sum_bar c

theorem launch_recv (c : Dev nD) (q : Bool × Fin 4 × Fin 2) :
    tallyOn (recvCell c q.1 q.2.1 q.2.2) (launchCredit (Pipeline.owing O₀) 0 (recvCell c q.1 q.2.1 q.2.2))
      = (tallyAt (recvCell c q.1 q.2.1 q.2.2) () (if recvs (yc c) q.1 q.2.1 = true then N else 0) : CellTallies nD τ sig Unit) := by
  unfold tallyAt; refine congrArg _ (Finsupp.ext fun u => ?_); cases u
  rw [Pipeline.launchCredit_owing, Finsupp.single_eq_same, Finset.sum_congr rfl fun d _ => owed_recv d c q, ← Finset.mul_sum,
    sum_recv]
  split
  · exact Nat.mul_one _
  · exact Nat.mul_zero _

def recvLoc : (Bool × Fin 4 × Fin 2) ↪ SemLoc sig :=
  ⟨fun p => .dma (semAt (recvA p.1) p.2.1 p.2.2), fun p q h => by
    have h2 : dsem (false, p) = dsem (false, q) := SemLoc.dma.inj h
    exact (Prod.mk.inj (dsem_injective h2)).2⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvLoc) fun sm hsm => ?_).trans ?_
  · obtain ⟨p, -, rfl⟩ := Finset.mem_map.mp hsm
    refine Finset.mem_erase.mpr ⟨fun h => ?_, Finset.mem_univ _⟩
    have h2 : (SemLoc.dma (semAt (recvA p.1) p.2.1 p.2.2) : SemLoc sig) = .reg barS := h
    cases h2
  · rw [bigSep_map]
    exact Entails.of_eq (bigSep_congr fun p _ => congrArg cred (launch_recv c p))

theorem xstg_eq (d : Dev nD) : xstg m ρ d = m ((d : Thread nD τ).loc main_arg0) := by
  unfold xstg
  exact Memref.read_access_unit_zero (Elt F) main_arg0 (funext fun a => Nat.zero_mul _) _ _

theorem final_arg (c : Dev nD) :
    (dats (F := F) m ρ 0 c).arrAt (0 : Fin 2) cfg0.N = (s₀ m ρ).mem (win0_0.arr.view.loc (c : Thread nD τ)) :=
  (dats (F := F) m ρ 0 c).arrAt_in (0 : Fin 2) rfl _

theorem final_out (c : Dev nD) :
    ((dats (F := F) m ρ 0 c).arrAt (1 : Fin 2) cfg0.N : Buf (Elt F) ((c : Thread nD τ).loc main_v1)) = gatheredA m c := by
  show (dats (F := F) m ρ 0 c).arrAt (1 : Fin 2) ((t0_0 : Fin cfg0.N).val + 1) = _
  rw [Dat.arrAt_succ, flush0_1 t0_0, if_pos rfl]
  refine (Memref.write_access_unit_zero_univ (Elt F) main_v1 (funext fun a => Nat.zero_mul _) _ _ _).trans ?_
  funext i
  show gathered m ρ c i = gatheredA m c i
  unfold gathered gatheredA
  rw [xstg_eq]

theorem post_of_arrays (r : MemSt nD τ sig (Elt F))
    (h : ∀ c : Dev nD, ∀ w : Fin cfg0.W, r.mem ((cfg0.win w).arr.view.loc (c : Thread nD τ)) = (dats m ρ 0 c).arrAt w cfg0.N) :
    ∀ c : Dev nD, r.mem ((c.tc : Thread nD τ).loc main_v1) = gatheredA m c
      ∧ r.mem ((c.tc : Thread nD τ).loc main_arg0) = m ((c.tc : Thread nD τ).loc main_arg0) :=
  fun c => ⟨(h c 1).trans (final_out m ρ c), (h c 0).trans (final_arg m ρ c)⟩

end Cert.Kernel.Line

end
-- ==== Proof.Kernel.Run.lean ====
/- Every device's body by its place, and the program's run with each result array named. -/
import proofs.«900692_g7700000000000693_dist_ag_v7x_xyz2x4x4_y_m256_n256_f32_1_alg».proof.Proof.Kernel.Case0
import proofs.«900692_g7700000000000693_dist_ag_v7x_xyz2x4x4_y_m256_n256_f32_1_alg».proof.Proof.Kernel.Case1
import proofs.«900692_g7700000000000693_dist_ag_v7x_xyz2x4x4_y_m256_n256_f32_1_alg».proof.Proof.Kernel.Case2
import proofs.«900692_g7700000000000693_dist_ag_v7x_xyz2x4x4_y_m256_n256_f32_1_alg».proof.Proof.Kernel.Case3
import proofs.«900692_g7700000000000693_dist_ag_v7x_xyz2x4x4_y_m256_n256_f32_1_alg».proof.Proof.Kernel.Body
import proofs.«900692_g7700000000000693_dist_ag_v7x_xyz2x4x4_y_m256_n256_f32_1_alg».proof.Proof.Kernel.Launch
import proofs.«900692_g7700000000000693_dist_ag_v7x_xyz2x4x4_y_m256_n256_f32_1_alg».proof.Proof.Kernel.Account

noncomputable section

namespace Cert.Kernel.Line

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem case_all (K : Dev nD × Option J → ℕ) (c : Dev nD) : CaseSpec (F := F) m ρ K c := by
  have h : yc c = 0 ∨ yc c = 1 ∨ yc c = 2 ∨ yc c = 3 := by revert c; decide
  rcases h with h | h | h | h
  · exact case0 m ρ K c h
  · exact case1 m ρ K c h
  · exact case2 m ρ K c h
  · exact case3 m ρ K c h

theorem run_main :
    θ_run defs (onTc (τ := τ) (main (F := F))) ⟨m, fun _ => 0, ρ⟩ (fun r => ∀ c : Dev nD,
      r.2.mem ((c.tc : Thread nD τ).loc main_v1) = gatheredA m c
      ∧ r.2.mem ((c.tc : Thread nD τ).loc main_arg0) = m ((c.tc : Thread nD τ).loc main_arg0)) :=
  (θ_run defs _ _).mono (fun r h => post_of_arrays m ρ r.2 h)
    (run_main_of m ρ (body_obligation_of m ρ (case_all m ρ)) (creds_intro (F := F)) (waits m ρ))

/-- info: 'Cert.Kernel.Line.run_main' depends on axioms: [propext, Classical.choice, Quot.sound] -/
#guard_msgs in #print axioms run_main

end Cert.Kernel.Line

end
-- ==== Proof.lean ====
/- The all-gather along lines of four devices against the identity on the whole array: both runs end at the same array, index by index. -/
import proofs.«900692_g7700000000000693_dist_ag_v7x_xyz2x4x4_y_m256_n256_f32_1_alg».proof.Defs
import proofs.«900692_g7700000000000693_dist_ag_v7x_xyz2x4x4_y_m256_n256_f32_1_alg».proof.Proof.Claims
import proofs.«900692_g7700000000000693_dist_ag_v7x_xyz2x4x4_y_m256_n256_f32_1_alg».proof.Proof.Run
import proofs.«900692_g7700000000000693_dist_ag_v7x_xyz2x4x4_y_m256_n256_f32_1_alg».proof.Proof.Kernel.Run

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.Assembly.claim_of_runs
      (fun m ρ _ => (θ_run (Cert.Kernel.defs (F := Bits)) _ _).mono (fun _ h c => (h c).2) (Cert.Kernel.Line.run_main (F := Bits) m ρ))
      (fun m ρ => Cert.KernelIdeal.Line.run_main (F := Ideal) m ρ)⟩

end Cert.Proof

end
